-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1047) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x27x3 : Shape := ⟨3, ![4096, 27, 3]⟩
abbrev S16x16x30 : Shape := ⟨3, ![16, 16, 30]⟩
abbrev S_ : Shape := ⟨0, ![]⟩

class Facts : Prop where
  bcast_S_S4096x27x3 : S_.BroadcastsInDim S4096x27x3 (![] : Fin 0 → Fin S4096x27x3.rank)
  reducesTo_S4096x27x3_S_d0_1_2 : S4096x27x3.ReducesTo [0, 1, 2] S_
  h_S_ : 0 < S_.numel
  bcast_S_S16x16x30 : S_.BroadcastsInDim S16x16x30 (![] : Fin 0 → Fin S16x16x30.rank)
  reducesTo_S16x16x30_S_d0_1_2 : S16x16x30.ReducesTo [0, 1, 2] S_

variable [Facts]

def fn {F : FTy → Type} [FloatOps F] (main_arg0 : FVec F S4096x27x3 .f32) (main_arg1 : FVec F S16x16x30 .f32) : IVec S_ 1 :=
  let main_v0 : FVec F S4096x27x3 .f32 := Host.absf main_arg0
  let main_cst : FVec F S_ .f32 := constant S_ .f32 0x7F800000#32
  let main_v1 : FVec F S4096x27x3 .f32 := broadcastInDim S4096x27x3 ![] bcast_S_S4096x27x3 main_cst
  let main_v2 : IVec S4096x27x3 1 := cmpf .olt main_v0 main_v1
  let main_c : IVec S_ 1 := constantI S_ 1 1#1
  let main_v3 : IVec S_ 1 := (fun x v => Host.reduce IntOp.andi x v reducesTo_S4096x27x3_S_d0_1_2 h_S_) main_v2 main_c
  let main_v4 : FVec F S16x16x30 .f32 := Host.absf main_arg1
  let main_cst_0 : FVec F S_ .f32 := constant S_ .f32 0x7F800000#32
  let main_v5 : FVec F S16x16x30 .f32 := broadcastInDim S16x16x30 ![] bcast_S_S16x16x30 main_cst_0
  let main_v6 : IVec S16x16x30 1 := cmpf .olt main_v4 main_v5
  let main_c_1 : IVec S_ 1 := constantI S_ 1 1#1
  let main_v7 : IVec S_ 1 := (fun x v => Host.reduce IntOp.andi x v reducesTo_S16x16x30_S_d0_1_2 h_S_) main_v6 main_c_1
  let main_v8 : IVec S_ 1 := andi main_v3 main_v7
  main_v8
-- ==== Kernel.lean ====
abbrev S4096x27x3 : Shape := ⟨3, ![4096, 27, 3]⟩
abbrev S16x16x30 : Shape := ⟨3, ![16, 16, 30]⟩
abbrev S110592x3 : Shape := ⟨2, ![110592, 3]⟩
abbrev S256x30 : Shape := ⟨2, ![256, 30]⟩
abbrev S256x110592 : Shape := ⟨2, ![256, 110592]⟩
abbrev S4608x3 : Shape := ⟨2, ![4608, 3]⟩
abbrev S256x4608 : Shape := ⟨2, ![256, 4608]⟩
abbrev S4608x1 : Shape := ⟨2, ![4608, 1]⟩
abbrev S4608 : Shape := ⟨1, ![4608]⟩
abbrev S4608x30 : Shape := ⟨2, ![4608, 30]⟩
abbrev S16x16x4096x27 : Shape := ⟨4, ![16, 16, 4096, 27]⟩

abbrev nBuf : Space → Nat
  | .hbm => 6
  | .vmem => 5
  | .smem => 0
  | _ => 0

abbrev bufTy : (tb : Table) → Fin (tcTables nBuf tb) → BufTy
  | .hbm, ⟨0, _⟩ => ⟨S4096x27x3, .f32⟩
  | .hbm, ⟨1, _⟩ => ⟨S16x16x30, .f32⟩
  | .hbm, ⟨2, _⟩ => ⟨S110592x3, .f32⟩
  | .hbm, ⟨3, _⟩ => ⟨S256x30, .f32⟩
  | .hbm, ⟨4, _⟩ => ⟨S256x110592, .f32⟩
  | .hbm, ⟨5, _⟩ => ⟨S16x16x4096x27, .f32⟩
  | .local _ .vmem, ⟨0, _⟩ => ⟨S4608x3, .f32⟩
  | .local _ .vmem, ⟨1, _⟩ => ⟨S4608x3, .f32⟩
  | .local _ .vmem, ⟨2, _⟩ => ⟨S256x30, .f32⟩
  | .local _ .vmem, ⟨3, _⟩ => ⟨S256x4608, .f32⟩
  | .local _ .vmem, ⟨4, _⟩ => ⟨S256x4608, .f32⟩
  | _, _ => ⟨S4096x27x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4608x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4608 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x27x3_S110592x3 : S4096x27x3.ShapeCasts S110592x3
  shapeCasts_S16x16x30_S256x30 : S16x16x30.ShapeCasts S256x30
  inb_S4608x3_S4608x3_0_0 : ∀ a, (![0, 0] : Fin 2 → Nat) a + S4608x3.size a ≤ S4608x3.size a
  h_S4608x3 : 0 < S4608x3.numel
  shapeCasts_S4608x3_S4608x3 : S4608x3.ShapeCasts S4608x3
  slices_S4608x3_o0_0_S4608x1 : S4608x3.Slices ![0, 0] S4608x1
  shapeCasts_S4608x1_S4608 : S4608x1.ShapeCasts S4608
  slices_S4608x3_o0_1_S4608x1 : S4608x3.Slices ![0, 1] S4608x1
  slices_S4608x3_o0_2_S4608x1 : S4608x3.Slices ![0, 2] S4608x1
  shapeCasts_S4608_S4608x1 : S4608.ShapeCasts S4608x1
  concatenates_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x30_d1 : Shape.Concatenates [S4608x1, S4608x1, S4608x1, S4608x1, S4608x1, S4608x1, S4608x1, S4608x1, S4608x1, S4608x1, S4608x1, S4608x1, S4608x1, S4608x1, S4608x1, S4608x1, S4608x1, S4608x1, S4608x1, S4608x1, S4608x1, S4608x1, S4608x1, S4608x1, S4608x1, S4608x1, S4608x1, S4608x1, S4608x1, S4608x1] S4608x30 1
  bitsLt_bf16_f32 : FTy.bits .bf16 < FTy.bits .f32
  inb_S256x30_S256x30_0_0 : ∀ a, (![0, 0] : Fin 2 → Nat) a + S256x30.size a ≤ S256x30.size a
  h_S256x30 : 0 < S256x30.numel
  shapeCasts_S256x30_S256x30 : S256x30.ShapeCasts S256x30
  inb_S256x4608_S256x4608_0_0 : ∀ a, (![0, 0] : Fin 2 → Nat) a + S256x4608.size a ≤ S256x4608.size a
  h_S256x4608 : 0 < S256x4608.numel
  shapeCasts_S256x110592_S16x16x4096x27 : S256x110592.ShapeCasts S16x16x4096x27
  dot_S256x30_S4608x30_S256x4608_1_1_0_0_n_n_wf : DotDims.WF S256x30 S4608x30 S256x4608 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4608x3.size a ≤ S110592x3.size a
  hwx0_0 : ∀ i : grid0.Coords, EltTy.bits .f32 = 32 ∨ (Rect.block (s := S110592x3) S4608x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x30.size a ≤ S256x30.size a
  hwx0_1 : ∀ i : grid0.Coords, EltTy.bits .f32 = 32 ∨ (Rect.block (s := S256x30) S256x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4608.size a ≤ S256x110592.size a
  hwx0_2 : ∀ i : grid0.Coords, EltTy.bits .f32 = 32 ∨ (Rect.block (s := S256x110592) S256x4608.size (cc0_transform_2 i) (hinb0_2 i)).WholeWords (EltTy.packing .f32)

variable [Facts₀]

def dot_S256x30_S4608x30_S256x4608_1_1_0_0_n_n : DotDims S256x30 S4608x30 S256x4608 where
  lhsContracting := [1]
  rhsContracting := [1]
  lhsNonContracting := [0]
  rhsNonContracting := [0]
  lhsBatch := []
  rhsBatch := []
  wf := dot_S256x30_S4608x30_S256x4608_1_1_0_0_n_n_wf

abbrev win0_0 : Pipeline.Window sig grid0 :=
  Pipeline.Window.ofSpec (Memref.whole main_v0) S4608x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4608.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x27x3 : Shape := ⟨3, ![4096, 27, 3]⟩
abbrev S16x16x30 : Shape := ⟨3, ![16, 16, 30]⟩
abbrev S4096x27x1 : Shape := ⟨3, ![4096, 27, 1]⟩
abbrev S4096x27 : Shape := ⟨2, ![4096, 27]⟩
abbrev S_ : Shape := ⟨0, ![]⟩
abbrev S4096x27x16 : Shape := ⟨3, ![4096, 27, 16]⟩
abbrev S4096x27x14 : Shape := ⟨3, ![4096, 27, 14]⟩
abbrev S4096x27x30 : Shape := ⟨3, ![4096, 27, 30]⟩
abbrev S16x16x4096x27 : Shape := ⟨4, ![16, 16, 4096, 27]⟩

abbrev nBuf : Space → Nat
  | .hbm => 1486
  | .vmem => 0
  | .smem => 0
  | _ => 0

abbrev hbmTy0_0 (i : Nat) : BufTy := match i % 128 with
  | 0 => ⟨S4096x27x3, .f32⟩
  | 1 => ⟨S16x16x30, .f32⟩
  | 2 => ⟨S4096x27x1, .f32⟩
  | 3 => ⟨S4096x27, .f32⟩
  | 4 => ⟨S4096x27x1, .f32⟩
  | 5 => ⟨S4096x27, .f32⟩
  | 6 => ⟨S4096x27x1, .f32⟩
  | 7 => ⟨S4096x27, .f32⟩
  | 8 => ⟨S_, .f32⟩
  | 9 => ⟨S4096x27, .f32⟩
  | 10 => ⟨S4096x27, .f32⟩
  | 11 => ⟨S_, .f32⟩
  | 12 => ⟨S4096x27, .f32⟩
  | 13 => ⟨S4096x27, .f32⟩
  | 14 => ⟨S4096x27, .f32⟩
  | 15 => ⟨S_, .f32⟩
  | 16 => ⟨S4096x27, .f32⟩
  | 17 => ⟨S4096x27, .f32⟩
  | 18 => ⟨S_, .f32⟩
  | 19 => ⟨S4096x27, .f32⟩
  | 20 => ⟨S4096x27, .f32⟩
  | 21 => ⟨S_, .f32⟩
  | 22 => ⟨S4096x27, .f32⟩
  | 23 => ⟨S_, .f32⟩
  | 24 => ⟨S4096x27, .f32⟩
  | 25 => ⟨S4096x27, .f32⟩
  | 26 => ⟨S4096x27, .f32⟩
  | 27 => ⟨S4096x27, .f32⟩
  | 28 => ⟨S4096x27, .f32⟩
  | 29 => ⟨S_, .f32⟩
  | 30 => ⟨S4096x27, .f32⟩
  | 31 => ⟨S4096x27, .f32⟩
  | 32 => ⟨S_, .f32⟩
  | 33 => ⟨S_, .f32⟩
  | 34 => ⟨S4096x27, .f32⟩
  | 35 => ⟨S4096x27, .f32⟩
  | 36 => ⟨S4096x27, .f32⟩
  | 37 => ⟨S_, .f32⟩
  | 38 => ⟨S4096x27, .f32⟩
  | 39 => ⟨S_, .f32⟩
  | 40 => ⟨S4096x27, .f32⟩
  | 41 => ⟨S4096x27, .f32⟩
  | 42 => ⟨S4096x27, .f32⟩
  | 43 => ⟨S_, .f32⟩
  | 44 => ⟨S4096x27, .f32⟩
  | 45 => ⟨S4096x27, .f32⟩
  | 46 => ⟨S_, .f32⟩
  | 47 => ⟨S4096x27, .f32⟩
  | 48 => ⟨S4096x27, .f32⟩
  | 49 => ⟨S4096x27, .f32⟩
  | 50 => ⟨S_, .f32⟩
  | 51 => ⟨S4096x27, .f32⟩
  | 52 => ⟨S4096x27, .f32⟩
  | 53 => ⟨S_, .f32⟩
  | 54 => ⟨S4096x27, .f32⟩
  | 55 => ⟨S4096x27, .f32⟩
  | 56 => ⟨S_, .f32⟩
  | 57 => ⟨S4096x27, .f32⟩
  | 58 => ⟨S_, .f32⟩
  | 59 => ⟨S4096x27, .f32⟩
  | 60 => ⟨S4096x27, .f32⟩
  | 61 => ⟨S4096x27, .f32⟩
  | 62 => ⟨S_, .f32⟩
  | 63 => ⟨S4096x27, .f32⟩
  | 64 => ⟨S4096x27, .f32⟩
  | 65 => ⟨S4096x27, .f32⟩
  | 66 => ⟨S4096x27, .f32⟩
  | 67 => ⟨S4096x27, .f32⟩
  | 68 => ⟨S_, .f32⟩
  | 69 => ⟨S4096x27, .f32⟩
  | 70 => ⟨S4096x27, .f32⟩
  | 71 => ⟨S_, .f32⟩
  | 72 => ⟨S_, .f32⟩
  | 73 => ⟨S4096x27, .f32⟩
  | 74 => ⟨S4096x27, .f32⟩
  | 75 => ⟨S4096x27, .f32⟩
  | 76 => ⟨S_, .f32⟩
  | 77 => ⟨S4096x27, .f32⟩
  | 78 => ⟨S_, .f32⟩
  | 79 => ⟨S4096x27, .f32⟩
  | 80 => ⟨S4096x27, .f32⟩
  | 81 => ⟨S4096x27, .f32⟩
  | 82 => ⟨S_, .f32⟩
  | 83 => ⟨S4096x27, .f32⟩
  | 84 => ⟨S4096x27, .f32⟩
  | 85 => ⟨S_, .f32⟩
  | 86 => ⟨S4096x27, .f32⟩
  | 87 => ⟨S4096x27, .f32⟩
  | 88 => ⟨S4096x27, .f32⟩
  | 89 => ⟨S_, .f32⟩
  | 90 => ⟨S4096x27, .f32⟩
  | 91 => ⟨S4096x27, .f32⟩
  | 92 => ⟨S4096x27, .f32⟩
  | 93 => ⟨S_, .f32⟩
  | 94 => ⟨S4096x27, .f32⟩
  | 95 => ⟨S_, .f32⟩
  | 96 => ⟨S4096x27, .f32⟩
  | 97 => ⟨S4096x27, .f32⟩
  | 98 => ⟨S4096x27, .f32⟩
  | 99 => ⟨S4096x27, .f32⟩
  | 100 => ⟨S4096x27, .f32⟩
  | 101 => ⟨S_, .f32⟩
  | 102 => ⟨S4096x27, .f32⟩
  | 103 => ⟨S4096x27, .f32⟩
  | 104 => ⟨S_, .f32⟩
  | 105 => ⟨S_, .f32⟩
  | 106 => ⟨S4096x27, .f32⟩
  | 107 => ⟨S4096x27, .f32⟩
  | 108 => ⟨S4096x27, .f32⟩
  | 109 => ⟨S_, .f32⟩
  | 110 => ⟨S4096x27, .f32⟩
  | 111 => ⟨S_, .f32⟩
  | 112 => ⟨S4096x27, .f32⟩
  | 113 => ⟨S4096x27, .f32⟩
  | 114 => ⟨S4096x27, .f32⟩
  | 115 => ⟨S_, .f32⟩
  | 116 => ⟨S4096x27, .f32⟩
  | 117 => ⟨S4096x27, .f32⟩
  | 118 => ⟨S_, .f32⟩
  | 119 => ⟨S4096x27, .f32⟩
  | 120 => ⟨S4096x27, .f32⟩
  | 121 => ⟨S4096x27, .f32⟩
  | 122 => ⟨S4096x27, .f32⟩
  | 123 => ⟨S4096x27, .f32⟩
  | 124 => ⟨S_, .f32⟩
  | 125 => ⟨S4096x27, .f32⟩
  | 126 => ⟨S4096x27, .f32⟩
  | 127 => ⟨S_, .f32⟩
  | _ => ⟨S4096x27x3, .f32⟩

abbrev hbmTy0_1 (i : Nat) : BufTy := match i % 128 with
  | 0 => ⟨S4096x27, .f32⟩
  | 1 => ⟨S4096x27, .f32⟩
  | 2 => ⟨S4096x27, .f32⟩
  | 3 => ⟨S_, .f32⟩
  | 4 => ⟨S4096x27, .f32⟩
  | 5 => ⟨S4096x27, .f32⟩
  | 6 => ⟨S4096x27, .f32⟩
  | 7 => ⟨S_, .f32⟩
  | 8 => ⟨S4096x27, .f32⟩
  | 9 => ⟨S_, .f32⟩
  | 10 => ⟨S4096x27, .f32⟩
  | 11 => ⟨S4096x27, .f32⟩
  | 12 => ⟨S4096x27, .f32⟩
  | 13 => ⟨S4096x27, .f32⟩
  | 14 => ⟨S4096x27, .f32⟩
  | 15 => ⟨S_, .f32⟩
  | 16 => ⟨S4096x27, .f32⟩
  | 17 => ⟨S4096x27, .f32⟩
  | 18 => ⟨S_, .f32⟩
  | 19 => ⟨S_, .f32⟩
  | 20 => ⟨S4096x27, .f32⟩
  | 21 => ⟨S4096x27, .f32⟩
  | 22 => ⟨S4096x27, .f32⟩
  | 23 => ⟨S_, .f32⟩
  | 24 => ⟨S4096x27, .f32⟩
  | 25 => ⟨S_, .f32⟩
  | 26 => ⟨S4096x27, .f32⟩
  | 27 => ⟨S4096x27, .f32⟩
  | 28 => ⟨S4096x27, .f32⟩
  | 29 => ⟨S_, .f32⟩
  | 30 => ⟨S4096x27, .f32⟩
  | 31 => ⟨S4096x27, .f32⟩
  | 32 => ⟨S4096x27, .f32⟩
  | 33 => ⟨S_, .f32⟩
  | 34 => ⟨S4096x27, .f32⟩
  | 35 => ⟨S4096x27, .f32⟩
  | 36 => ⟨S_, .f32⟩
  | 37 => ⟨S4096x27, .f32⟩
  | 38 => ⟨S4096x27, .f32⟩
  | 39 => ⟨S4096x27, .f32⟩
  | 40 => ⟨S_, .f32⟩
  | 41 => ⟨S4096x27, .f32⟩
  | 42 => ⟨S4096x27, .f32⟩
  | 43 => ⟨S4096x27, .f32⟩
  | 44 => ⟨S_, .f32⟩
  | 45 => ⟨S4096x27, .f32⟩
  | 46 => ⟨S_, .f32⟩
  | 47 => ⟨S4096x27, .f32⟩
  | 48 => ⟨S4096x27, .f32⟩
  | 49 => ⟨S4096x27, .f32⟩
  | 50 => ⟨S4096x27, .f32⟩
  | 51 => ⟨S4096x27, .f32⟩
  | 52 => ⟨S_, .f32⟩
  | 53 => ⟨S4096x27, .f32⟩
  | 54 => ⟨S4096x27, .f32⟩
  | 55 => ⟨S_, .f32⟩
  | 56 => ⟨S_, .f32⟩
  | 57 => ⟨S4096x27, .f32⟩
  | 58 => ⟨S4096x27, .f32⟩
  | 59 => ⟨S4096x27, .f32⟩
  | 60 => ⟨S_, .f32⟩
  | 61 => ⟨S4096x27, .f32⟩
  | 62 => ⟨S_, .f32⟩
  | 63 => ⟨S4096x27, .f32⟩
  | 64 => ⟨S4096x27, .f32⟩
  | 65 => ⟨S4096x27, .f32⟩
  | 66 => ⟨S_, .f32⟩
  | 67 => ⟨S4096x27, .f32⟩
  | 68 => ⟨S4096x27, .f32⟩
  | 69 => ⟨S_, .f32⟩
  | 70 => ⟨S4096x27, .f32⟩
  | 71 => ⟨S4096x27, .f32⟩
  | 72 => ⟨S4096x27, .f32⟩
  | 73 => ⟨S4096x27, .f32⟩
  | 74 => ⟨S4096x27, .f32⟩
  | 75 => ⟨S_, .f32⟩
  | 76 => ⟨S4096x27, .f32⟩
  | 77 => ⟨S4096x27, .f32⟩
  | 78 => ⟨S_, .f32⟩
  | 79 => ⟨S4096x27, .f32⟩
  | 80 => ⟨S4096x27, .f32⟩
  | 81 => ⟨S4096x27, .f32⟩
  | 82 => ⟨S_, .f32⟩
  | 83 => ⟨S4096x27, .f32⟩
  | 84 => ⟨S4096x27, .f32⟩
  | 85 => ⟨S_, .f32⟩
  | 86 => ⟨S4096x27, .f32⟩
  | 87 => ⟨S4096x27, .f32⟩
  | 88 => ⟨S_, .f32⟩
  | 89 => ⟨S4096x27, .f32⟩
  | 90 => ⟨S_, .f32⟩
  | 91 => ⟨S4096x27, .f32⟩
  | 92 => ⟨S4096x27, .f32⟩
  | 93 => ⟨S4096x27, .f32⟩
  | 94 => ⟨S_, .f32⟩
  | 95 => ⟨S4096x27, .f32⟩
  | 96 => ⟨S4096x27, .f32⟩
  | 97 => ⟨S4096x27, .f32⟩
  | 98 => ⟨S_, .f32⟩
  | 99 => ⟨S4096x27, .f32⟩
  | 100 => ⟨S4096x27, .f32⟩
  | 101 => ⟨S4096x27, .f32⟩
  | 102 => ⟨S4096x27, .f32⟩
  | 103 => ⟨S4096x27, .f32⟩
  | 104 => ⟨S_, .f32⟩
  | 105 => ⟨S4096x27, .f32⟩
  | 106 => ⟨S4096x27, .f32⟩
  | 107 => ⟨S_, .f32⟩
  | 108 => ⟨S_, .f32⟩
  | 109 => ⟨S4096x27, .f32⟩
  | 110 => ⟨S4096x27, .f32⟩
  | 111 => ⟨S4096x27, .f32⟩
  | 112 => ⟨S_, .f32⟩
  | 113 => ⟨S4096x27, .f32⟩
  | 114 => ⟨S_, .f32⟩
  | 115 => ⟨S4096x27, .f32⟩
  | 116 => ⟨S4096x27, .f32⟩
  | 117 => ⟨S4096x27, .f32⟩
  | 118 => ⟨S_, .f32⟩
  | 119 => ⟨S4096x27, .f32⟩
  | 120 => ⟨S4096x27, .f32⟩
  | 121 => ⟨S_, .f32⟩
  | 122 => ⟨S4096x27, .f32⟩
  | 123 => ⟨S4096x27, .f32⟩
  | 124 => ⟨S4096x27, .f32⟩
  | 125 => ⟨S_, .f32⟩
  | 126 => ⟨S4096x27, .f32⟩
  | 127 => ⟨S4096x27, .f32⟩
  | _ => ⟨S4096x27x3, .f32⟩

abbrev hbmTy0_2 (i : Nat) : BufTy := match i % 128 with
  | 0 => ⟨S4096x27, .f32⟩
  | 1 => ⟨S_, .f32⟩
  | 2 => ⟨S4096x27, .f32⟩
  | 3 => ⟨S_, .f32⟩
  | 4 => ⟨S4096x27, .f32⟩
  | 5 => ⟨S4096x27, .f32⟩
  | 6 => ⟨S4096x27, .f32⟩
  | 7 => ⟨S_, .f32⟩
  | 8 => ⟨S4096x27, .f32⟩
  | 9 => ⟨S4096x27, .f32⟩
  | 10 => ⟨S4096x27, .f32⟩
  | 11 => ⟨S4096x27, .f32⟩
  | 12 => ⟨S4096x27, .f32⟩
  | 13 => ⟨S_, .f32⟩
  | 14 => ⟨S4096x27, .f32⟩
  | 15 => ⟨S4096x27, .f32⟩
  | 16 => ⟨S_, .f32⟩
  | 17 => ⟨S_, .f32⟩
  | 18 => ⟨S4096x27, .f32⟩
  | 19 => ⟨S4096x27, .f32⟩
  | 20 => ⟨S4096x27, .f32⟩
  | 21 => ⟨S_, .f32⟩
  | 22 => ⟨S4096x27, .f32⟩
  | 23 => ⟨S_, .f32⟩
  | 24 => ⟨S4096x27, .f32⟩
  | 25 => ⟨S4096x27, .f32⟩
  | 26 => ⟨S4096x27, .f32⟩
  | 27 => ⟨S_, .f32⟩
  | 28 => ⟨S4096x27, .f32⟩
  | 29 => ⟨S4096x27, .f32⟩
  | 30 => ⟨S_, .f32⟩
  | 31 => ⟨S4096x27, .f32⟩
  | 32 => ⟨S4096x27, .f32⟩
  | 33 => ⟨S4096x27, .f32⟩
  | 34 => ⟨S4096x27, .f32⟩
  | 35 => ⟨S4096x27, .f32⟩
  | 36 => ⟨S_, .f32⟩
  | 37 => ⟨S4096x27, .f32⟩
  | 38 => ⟨S4096x27, .f32⟩
  | 39 => ⟨S_, .f32⟩
  | 40 => ⟨S4096x27, .f32⟩
  | 41 => ⟨S4096x27, .f32⟩
  | 42 => ⟨S4096x27, .f32⟩
  | 43 => ⟨S_, .f32⟩
  | 44 => ⟨S4096x27, .f32⟩
  | 45 => ⟨S4096x27, .f32⟩
  | 46 => ⟨S4096x27, .f32⟩
  | 47 => ⟨S_, .f32⟩
  | 48 => ⟨S4096x27, .f32⟩
  | 49 => ⟨S_, .f32⟩
  | 50 => ⟨S4096x27, .f32⟩
  | 51 => ⟨S4096x27, .f32⟩
  | 52 => ⟨S4096x27, .f32⟩
  | 53 => ⟨S_, .f32⟩
  | 54 => ⟨S4096x27, .f32⟩
  | 55 => ⟨S4096x27, .f32⟩
  | 56 => ⟨S4096x27, .f32⟩
  | 57 => ⟨S4096x27, .f32⟩
  | 58 => ⟨S4096x27, .f32⟩
  | 59 => ⟨S_, .f32⟩
  | 60 => ⟨S4096x27, .f32⟩
  | 61 => ⟨S4096x27, .f32⟩
  | 62 => ⟨S_, .f32⟩
  | 63 => ⟨S_, .f32⟩
  | 64 => ⟨S4096x27, .f32⟩
  | 65 => ⟨S4096x27, .f32⟩
  | 66 => ⟨S4096x27, .f32⟩
  | 67 => ⟨S_, .f32⟩
  | 68 => ⟨S4096x27, .f32⟩
  | 69 => ⟨S_, .f32⟩
  | 70 => ⟨S4096x27, .f32⟩
  | 71 => ⟨S4096x27, .f32⟩
  | 72 => ⟨S4096x27, .f32⟩
  | 73 => ⟨S_, .f32⟩
  | 74 => ⟨S4096x27, .f32⟩
  | 75 => ⟨S4096x27, .f32⟩
  | 76 => ⟨S4096x27, .f32⟩
  | 77 => ⟨S_, .f32⟩
  | 78 => ⟨S4096x27, .f32⟩
  | 79 => ⟨S4096x27, .f32⟩
  | 80 => ⟨S_, .f32⟩
  | 81 => ⟨S4096x27, .f32⟩
  | 82 => ⟨S4096x27, .f32⟩
  | 83 => ⟨S4096x27, .f32⟩
  | 84 => ⟨S_, .f32⟩
  | 85 => ⟨S4096x27, .f32⟩
  | 86 => ⟨S4096x27, .f32⟩
  | 87 => ⟨S4096x27, .f32⟩
  | 88 => ⟨S_, .f32⟩
  | 89 => ⟨S4096x27, .f32⟩
  | 90 => ⟨S_, .f32⟩
  | 91 => ⟨S4096x27, .f32⟩
  | 92 => ⟨S4096x27, .f32⟩
  | 93 => ⟨S4096x27, .f32⟩
  | 94 => ⟨S_, .f32⟩
  | 95 => ⟨S4096x27, .f32⟩
  | 96 => ⟨S4096x27, .f32⟩
  | 97 => ⟨S4096x27, .f32⟩
  | 98 => ⟨S4096x27, .f32⟩
  | 99 => ⟨S4096x27, .f32⟩
  | 100 => ⟨S_, .f32⟩
  | 101 => ⟨S4096x27, .f32⟩
  | 102 => ⟨S4096x27, .f32⟩
  | 103 => ⟨S_, .f32⟩
  | 104 => ⟨S_, .f32⟩
  | 105 => ⟨S4096x27, .f32⟩
  | 106 => ⟨S4096x27, .f32⟩
  | 107 => ⟨S4096x27, .f32⟩
  | 108 => ⟨S_, .f32⟩
  | 109 => ⟨S4096x27, .f32⟩
  | 110 => ⟨S_, .f32⟩
  | 111 => ⟨S4096x27, .f32⟩
  | 112 => ⟨S4096x27, .f32⟩
  | 113 => ⟨S4096x27, .f32⟩
  | 114 => ⟨S_, .f32⟩
  | 115 => ⟨S4096x27, .f32⟩
  | 116 => ⟨S4096x27, .f32⟩
  | 117 => ⟨S_, .f32⟩
  | 118 => ⟨S4096x27, .f32⟩
  | 119 => ⟨S4096x27, .f32⟩
  | 120 => ⟨S4096x27, .f32⟩
  | 121 => ⟨S4096x27, .f32⟩
  | 122 => ⟨S4096x27, .f32⟩
  | 123 => ⟨S_, .f32⟩
  | 124 => ⟨S4096x27, .f32⟩
  | 125 => ⟨S4096x27, .f32⟩
  | 126 => ⟨S_, .f32⟩
  | 127 => ⟨S4096x27, .f32⟩
  | _ => ⟨S4096x27x3, .f32⟩

abbrev hbmTy0_3 (i : Nat) : BufTy := match i % 128 with
  | 0 => ⟨S4096x27, .f32⟩
  | 1 => ⟨S4096x27, .f32⟩
  | 2 => ⟨S_, .f32⟩
  | 3 => ⟨S4096x27, .f32⟩
  | 4 => ⟨S4096x27, .f32⟩
  | 5 => ⟨S4096x27, .f32⟩
  | 6 => ⟨S4096x27, .f32⟩
  | 7 => ⟨S_, .f32⟩
  | 8 => ⟨S4096x27, .f32⟩
  | 9 => ⟨S_, .f32⟩
  | 10 => ⟨S4096x27, .f32⟩
  | 11 => ⟨S4096x27, .f32⟩
  | 12 => ⟨S4096x27, .f32⟩
  | 13 => ⟨S4096x27, .f32⟩
  | 14 => ⟨S4096x27, .f32⟩
  | 15 => ⟨S_, .f32⟩
  | 16 => ⟨S4096x27, .f32⟩
  | 17 => ⟨S4096x27, .f32⟩
  | 18 => ⟨S_, .f32⟩
  | 19 => ⟨S_, .f32⟩
  | 20 => ⟨S4096x27, .f32⟩
  | 21 => ⟨S4096x27, .f32⟩
  | 22 => ⟨S4096x27, .f32⟩
  | 23 => ⟨S_, .f32⟩
  | 24 => ⟨S4096x27, .f32⟩
  | 25 => ⟨S_, .f32⟩
  | 26 => ⟨S4096x27, .f32⟩
  | 27 => ⟨S4096x27, .f32⟩
  | 28 => ⟨S4096x27, .f32⟩
  | 29 => ⟨S_, .f32⟩
  | 30 => ⟨S4096x27, .f32⟩
  | 31 => ⟨S4096x27, .f32⟩
  | 32 => ⟨S4096x27, .f32⟩
  | 33 => ⟨S_, .f32⟩
  | 34 => ⟨S4096x27, .f32⟩
  | 35 => ⟨S4096x27, .f32⟩
  | 36 => ⟨S_, .f32⟩
  | 37 => ⟨S4096x27, .f32⟩
  | 38 => ⟨S4096x27, .f32⟩
  | 39 => ⟨S4096x27, .f32⟩
  | 40 => ⟨S4096x27, .f32⟩
  | 41 => ⟨S4096x27, .f32⟩
  | 42 => ⟨S_, .f32⟩
  | 43 => ⟨S4096x27, .f32⟩
  | 44 => ⟨S4096x27, .f32⟩
  | 45 => ⟨S_, .f32⟩
  | 46 => ⟨S4096x27, .f32⟩
  | 47 => ⟨S4096x27, .f32⟩
  | 48 => ⟨S4096x27, .f32⟩
  | 49 => ⟨S_, .f32⟩
  | 50 => ⟨S4096x27, .f32⟩
  | 51 => ⟨S4096x27, .f32⟩
  | 52 => ⟨S4096x27, .f32⟩
  | 53 => ⟨S4096x27, .f32⟩
  | 54 => ⟨S_, .f32⟩
  | 55 => ⟨S4096x27, .f32⟩
  | 56 => ⟨S_, .f32⟩
  | 57 => ⟨S4096x27, .f32⟩
  | 58 => ⟨S4096x27, .f32⟩
  | 59 => ⟨S4096x27, .f32⟩
  | 60 => ⟨S4096x27, .f32⟩
  | 61 => ⟨S4096x27, .f32⟩
  | 62 => ⟨S_, .f32⟩
  | 63 => ⟨S4096x27, .f32⟩
  | 64 => ⟨S4096x27, .f32⟩
  | 65 => ⟨S_, .f32⟩
  | 66 => ⟨S_, .f32⟩
  | 67 => ⟨S4096x27, .f32⟩
  | 68 => ⟨S4096x27, .f32⟩
  | 69 => ⟨S4096x27, .f32⟩
  | 70 => ⟨S_, .f32⟩
  | 71 => ⟨S4096x27, .f32⟩
  | 72 => ⟨S_, .f32⟩
  | 73 => ⟨S4096x27, .f32⟩
  | 74 => ⟨S4096x27, .f32⟩
  | 75 => ⟨S4096x27, .f32⟩
  | 76 => ⟨S_, .f32⟩
  | 77 => ⟨S4096x27, .f32⟩
  | 78 => ⟨S4096x27, .f32⟩
  | 79 => ⟨S4096x27, .f32⟩
  | 80 => ⟨S_, .f32⟩
  | 81 => ⟨S4096x27, .f32⟩
  | 82 => ⟨S4096x27, .f32⟩
  | 83 => ⟨S_, .f32⟩
  | 84 => ⟨S4096x27, .f32⟩
  | 85 => ⟨S4096x27, .f32⟩
  | 86 => ⟨S4096x27, .f32⟩
  | 87 => ⟨S4096x27, .f32⟩
  | 88 => ⟨S4096x27, .f32⟩
  | 89 => ⟨S_, .f32⟩
  | 90 => ⟨S4096x27, .f32⟩
  | 91 => ⟨S4096x27, .f32⟩
  | 92 => ⟨S_, .f32⟩
  | 93 => ⟨S4096x27, .f32⟩
  | 94 => ⟨S4096x27, .f32⟩
  | 95 => ⟨S4096x27, .f32⟩
  | 96 => ⟨S_, .f32⟩
  | 97 => ⟨S4096x27, .f32⟩
  | 98 => ⟨S4096x27, .f32⟩
  | 99 => ⟨S4096x27, .f32⟩
  | 100 => ⟨S4096x27, .f32⟩
  | 101 => ⟨S_, .f32⟩
  | 102 => ⟨S4096x27, .f32⟩
  | 103 => ⟨S_, .f32⟩
  | 104 => ⟨S4096x27, .f32⟩
  | 105 => ⟨S4096x27, .f32⟩
  | 106 => ⟨S4096x27, .f32⟩
  | 107 => ⟨S4096x27, .f32⟩
  | 108 => ⟨S4096x27, .f32⟩
  | 109 => ⟨S_, .f32⟩
  | 110 => ⟨S4096x27, .f32⟩
  | 111 => ⟨S4096x27, .f32⟩
  | 112 => ⟨S_, .f32⟩
  | 113 => ⟨S_, .f32⟩
  | 114 => ⟨S4096x27, .f32⟩
  | 115 => ⟨S4096x27, .f32⟩
  | 116 => ⟨S4096x27, .f32⟩
  | 117 => ⟨S_, .f32⟩
  | 118 => ⟨S4096x27, .f32⟩
  | 119 => ⟨S_, .f32⟩
  | 120 => ⟨S4096x27, .f32⟩
  | 121 => ⟨S4096x27, .f32⟩
  | 122 => ⟨S4096x27, .f32⟩
  | 123 => ⟨S_, .f32⟩
  | 124 => ⟨S4096x27, .f32⟩
  | 125 => ⟨S4096x27, .f32⟩
  | 126 => ⟨S4096x27, .f32⟩
  | 127 => ⟨S_, .f32⟩
  | _ => ⟨S4096x27x3, .f32⟩

abbrev hbmTy0_4 (i : Nat) : BufTy := match i % 128 with
  | 0 => ⟨S4096x27, .f32⟩
  | 1 => ⟨S4096x27, .f32⟩
  | 2 => ⟨S4096x27, .f32⟩
  | 3 => ⟨S_, .f32⟩
  | 4 => ⟨S4096x27, .f32⟩
  | 5 => ⟨S4096x27, .f32⟩
  | 6 => ⟨S_, .f32⟩
  | 7 => ⟨S4096x27, .f32⟩
  | 8 => ⟨S4096x27, .f32⟩
  | 9 => ⟨S4096x27, .f32⟩
  | 10 => ⟨S_, .f32⟩
  | 11 => ⟨S4096x27, .f32⟩
  | 12 => ⟨S4096x27, .f32⟩
  | 13 => ⟨S_, .f32⟩
  | 14 => ⟨S4096x27, .f32⟩
  | 15 => ⟨S4096x27, .f32⟩
  | 16 => ⟨S4096x27, .f32⟩
  | 17 => ⟨S_, .f32⟩
  | 18 => ⟨S4096x27, .f32⟩
  | 19 => ⟨S4096x27, .f32⟩
  | 20 => ⟨S4096x27, .f32⟩
  | 21 => ⟨S4096x27, .f32⟩
  | 22 => ⟨S_, .f32⟩
  | 23 => ⟨S4096x27, .f32⟩
  | 24 => ⟨S_, .f32⟩
  | 25 => ⟨S4096x27, .f32⟩
  | 26 => ⟨S4096x27, .f32⟩
  | 27 => ⟨S4096x27, .f32⟩
  | 28 => ⟨S4096x27, .f32⟩
  | 29 => ⟨S4096x27, .f32⟩
  | 30 => ⟨S_, .f32⟩
  | 31 => ⟨S4096x27, .f32⟩
  | 32 => ⟨S4096x27, .f32⟩
  | 33 => ⟨S_, .f32⟩
  | 34 => ⟨S_, .f32⟩
  | 35 => ⟨S4096x27, .f32⟩
  | 36 => ⟨S4096x27, .f32⟩
  | 37 => ⟨S4096x27, .f32⟩
  | 38 => ⟨S_, .f32⟩
  | 39 => ⟨S4096x27, .f32⟩
  | 40 => ⟨S_, .f32⟩
  | 41 => ⟨S4096x27, .f32⟩
  | 42 => ⟨S4096x27, .f32⟩
  | 43 => ⟨S4096x27, .f32⟩
  | 44 => ⟨S_, .f32⟩
  | 45 => ⟨S4096x27, .f32⟩
  | 46 => ⟨S4096x27, .f32⟩
  | 47 => ⟨S4096x27, .f32⟩
  | 48 => ⟨S_, .f32⟩
  | 49 => ⟨S4096x27, .f32⟩
  | 50 => ⟨S4096x27, .f32⟩
  | 51 => ⟨S_, .f32⟩
  | 52 => ⟨S4096x27, .f32⟩
  | 53 => ⟨S4096x27, .f32⟩
  | 54 => ⟨S4096x27, .f32⟩
  | 55 => ⟨S4096x27, .f32⟩
  | 56 => ⟨S4096x27, .f32⟩
  | 57 => ⟨S_, .f32⟩
  | 58 => ⟨S4096x27, .f32⟩
  | 59 => ⟨S4096x27, .f32⟩
  | 60 => ⟨S_, .f32⟩
  | 61 => ⟨S4096x27, .f32⟩
  | 62 => ⟨S4096x27, .f32⟩
  | 63 => ⟨S4096x27, .f32⟩
  | 64 => ⟨S_, .f32⟩
  | 65 => ⟨S4096x27, .f32⟩
  | 66 => ⟨S4096x27, .f32⟩
  | 67 => ⟨S4096x27, .f32⟩
  | 68 => ⟨S4096x27, .f32⟩
  | 69 => ⟨S_, .f32⟩
  | 70 => ⟨S4096x27, .f32⟩
  | 71 => ⟨S_, .f32⟩
  | 72 => ⟨S4096x27, .f32⟩
  | 73 => ⟨S4096x27, .f32⟩
  | 74 => ⟨S4096x27, .f32⟩
  | 75 => ⟨S4096x27, .f32⟩
  | 76 => ⟨S4096x27, .f32⟩
  | 77 => ⟨S_, .f32⟩
  | 78 => ⟨S4096x27, .f32⟩
  | 79 => ⟨S4096x27, .f32⟩
  | 80 => ⟨S_, .f32⟩
  | 81 => ⟨S_, .f32⟩
  | 82 => ⟨S4096x27, .f32⟩
  | 83 => ⟨S4096x27, .f32⟩
  | 84 => ⟨S4096x27, .f32⟩
  | 85 => ⟨S_, .f32⟩
  | 86 => ⟨S4096x27, .f32⟩
  | 87 => ⟨S_, .f32⟩
  | 88 => ⟨S4096x27, .f32⟩
  | 89 => ⟨S4096x27, .f32⟩
  | 90 => ⟨S4096x27, .f32⟩
  | 91 => ⟨S_, .f32⟩
  | 92 => ⟨S4096x27, .f32⟩
  | 93 => ⟨S4096x27, .f32⟩
  | 94 => ⟨S4096x27, .f32⟩
  | 95 => ⟨S_, .f32⟩
  | 96 => ⟨S4096x27, .f32⟩
  | 97 => ⟨S4096x27, .f32⟩
  | 98 => ⟨S_, .f32⟩
  | 99 => ⟨S4096x27, .f32⟩
  | 100 => ⟨S4096x27, .f32⟩
  | 101 => ⟨S4096x27, .f32⟩
  | 102 => ⟨S4096x27, .f32⟩
  | 103 => ⟨S4096x27, .f32⟩
  | 104 => ⟨S_, .f32⟩
  | 105 => ⟨S4096x27, .f32⟩
  | 106 => ⟨S4096x27, .f32⟩
  | 107 => ⟨S_, .f32⟩
  | 108 => ⟨S4096x27, .f32⟩
  | 109 => ⟨S4096x27, .f32⟩
  | 110 => ⟨S4096x27, .f32⟩
  | 111 => ⟨S_, .f32⟩
  | 112 => ⟨S4096x27, .f32⟩
  | 113 => ⟨S4096x27, .f32⟩
  | 114 => ⟨S_, .f32⟩
  | 115 => ⟨S4096x27, .f32⟩
  | 116 => ⟨S4096x27, .f32⟩
  | 117 => ⟨S_, .f32⟩
  | 118 => ⟨S4096x27, .f32⟩
  | 119 => ⟨S_, .f32⟩
  | 120 => ⟨S4096x27, .f32⟩
  | 121 => ⟨S4096x27, .f32⟩
  | 122 => ⟨S4096x27, .f32⟩
  | 123 => ⟨S_, .f32⟩
  | 124 => ⟨S4096x27, .f32⟩
  | 125 => ⟨S4096x27, .f32⟩
  | 126 => ⟨S4096x27, .f32⟩
  | 127 => ⟨S_, .f32⟩
  | _ => ⟨S4096x27x3, .f32⟩

abbrev hbmTy0_5 (i : Nat) : BufTy := match i % 128 with
  | 0 => ⟨S4096x27, .f32⟩
  | 1 => ⟨S4096x27, .f32⟩
  | 2 => ⟨S4096x27, .f32⟩
  | 3 => ⟨S_, .f32⟩
  | 4 => ⟨S4096x27, .f32⟩
  | 5 => ⟨S4096x27, .f32⟩
  | 6 => ⟨S4096x27, .f32⟩
  | 7 => ⟨S4096x27, .f32⟩
  | 8 => ⟨S4096x27, .f32⟩
  | 9 => ⟨S_, .f32⟩
  | 10 => ⟨S4096x27, .f32⟩
  | 11 => ⟨S4096x27, .f32⟩
  | 12 => ⟨S_, .f32⟩
  | 13 => ⟨S_, .f32⟩
  | 14 => ⟨S4096x27, .f32⟩
  | 15 => ⟨S4096x27, .f32⟩
  | 16 => ⟨S4096x27, .f32⟩
  | 17 => ⟨S_, .f32⟩
  | 18 => ⟨S4096x27, .f32⟩
  | 19 => ⟨S_, .f32⟩
  | 20 => ⟨S4096x27, .f32⟩
  | 21 => ⟨S4096x27, .f32⟩
  | 22 => ⟨S4096x27, .f32⟩
  | 23 => ⟨S_, .f32⟩
  | 24 => ⟨S4096x27, .f32⟩
  | 25 => ⟨S4096x27, .f32⟩
  | 26 => ⟨S_, .f32⟩
  | 27 => ⟨S4096x27, .f32⟩
  | 28 => ⟨S4096x27, .f32⟩
  | 29 => ⟨S4096x27, .f32⟩
  | 30 => ⟨S_, .f32⟩
  | 31 => ⟨S4096x27, .f32⟩
  | 32 => ⟨S4096x27, .f32⟩
  | 33 => ⟨S4096x27, .f32⟩
  | 34 => ⟨S_, .f32⟩
  | 35 => ⟨S4096x27, .f32⟩
  | 36 => ⟨S_, .f32⟩
  | 37 => ⟨S4096x27, .f32⟩
  | 38 => ⟨S4096x27, .f32⟩
  | 39 => ⟨S4096x27, .f32⟩
  | 40 => ⟨S_, .f32⟩
  | 41 => ⟨S4096x27, .f32⟩
  | 42 => ⟨S4096x27, .f32⟩
  | 43 => ⟨S4096x27, .f32⟩
  | 44 => ⟨S_, .f32⟩
  | 45 => ⟨S4096x27, .f32⟩
  | 46 => ⟨S4096x27, .f32⟩
  | 47 => ⟨S4096x27, .f32⟩
  | 48 => ⟨S4096x27, .f32⟩
  | 49 => ⟨S4096x27, .f32⟩
  | 50 => ⟨S_, .f32⟩
  | 51 => ⟨S4096x27, .f32⟩
  | 52 => ⟨S4096x27, .f32⟩
  | 53 => ⟨S_, .f32⟩
  | 54 => ⟨S_, .f32⟩
  | 55 => ⟨S4096x27, .f32⟩
  | 56 => ⟨S4096x27, .f32⟩
  | 57 => ⟨S4096x27, .f32⟩
  | 58 => ⟨S_, .f32⟩
  | 59 => ⟨S4096x27, .f32⟩
  | 60 => ⟨S_, .f32⟩
  | 61 => ⟨S4096x27, .f32⟩
  | 62 => ⟨S4096x27, .f32⟩
  | 63 => ⟨S4096x27, .f32⟩
  | 64 => ⟨S_, .f32⟩
  | 65 => ⟨S4096x27, .f32⟩
  | 66 => ⟨S4096x27, .f32⟩
  | 67 => ⟨S_, .f32⟩
  | 68 => ⟨S4096x27, .f32⟩
  | 69 => ⟨S4096x27, .f32⟩
  | 70 => ⟨S4096x27, .f32⟩
  | 71 => ⟨S4096x27, .f32⟩
  | 72 => ⟨S4096x27, .f32⟩
  | 73 => ⟨S_, .f32⟩
  | 74 => ⟨S4096x27, .f32⟩
  | 75 => ⟨S4096x27, .f32⟩
  | 76 => ⟨S_, .f32⟩
  | 77 => ⟨S4096x27, .f32⟩
  | 78 => ⟨S4096x27, .f32⟩
  | 79 => ⟨S4096x27, .f32⟩
  | 80 => ⟨S_, .f32⟩
  | 81 => ⟨S4096x27, .f32⟩
  | 82 => ⟨S4096x27, .f32⟩
  | 83 => ⟨S4096x27, .f32⟩
  | 84 => ⟨S_, .f32⟩
  | 85 => ⟨S4096x27, .f32⟩
  | 86 => ⟨S_, .f32⟩
  | 87 => ⟨S4096x27, .f32⟩
  | 88 => ⟨S4096x27, .f32⟩
  | 89 => ⟨S4096x27, .f32⟩
  | 90 => ⟨S_, .f32⟩
  | 91 => ⟨S4096x27, .f32⟩
  | 92 => ⟨S4096x27, .f32⟩
  | 93 => ⟨S4096x27, .f32⟩
  | 94 => ⟨S_, .f32⟩
  | 95 => ⟨S4096x27, .f32⟩
  | 96 => ⟨S4096x27, .f32⟩
  | 97 => ⟨S4096x27, .f32⟩
  | 98 => ⟨S4096x27, .f32⟩
  | 99 => ⟨S4096x27, .f32⟩
  | 100 => ⟨S_, .f32⟩
  | 101 => ⟨S4096x27, .f32⟩
  | 102 => ⟨S4096x27, .f32⟩
  | 103 => ⟨S_, .f32⟩
  | 104 => ⟨S_, .f32⟩
  | 105 => ⟨S4096x27, .f32⟩
  | 106 => ⟨S4096x27, .f32⟩
  | 107 => ⟨S4096x27, .f32⟩
  | 108 => ⟨S_, .f32⟩
  | 109 => ⟨S4096x27, .f32⟩
  | 110 => ⟨S_, .f32⟩
  | 111 => ⟨S4096x27, .f32⟩
  | 112 => ⟨S4096x27, .f32⟩
  | 113 => ⟨S4096x27, .f32⟩
  | 114 => ⟨S_, .f32⟩
  | 115 => ⟨S4096x27, .f32⟩
  | 116 => ⟨S4096x27, .f32⟩
  | 117 => ⟨S4096x27, .f32⟩
  | 118 => ⟨S_, .f32⟩
  | 119 => ⟨S4096x27, .f32⟩
  | 120 => ⟨S4096x27, .f32⟩
  | 121 => ⟨S_, .f32⟩
  | 122 => ⟨S4096x27, .f32⟩
  | 123 => ⟨S4096x27, .f32⟩
  | 124 => ⟨S4096x27, .f32⟩
  | 125 => ⟨S_, .f32⟩
  | 126 => ⟨S4096x27, .f32⟩
  | 127 => ⟨S4096x27, .f32⟩
  | _ => ⟨S4096x27x3, .f32⟩

abbrev hbmTy0_6 (i : Nat) : BufTy := match i % 128 with
  | 0 => ⟨S4096x27, .f32⟩
  | 1 => ⟨S_, .f32⟩
  | 2 => ⟨S4096x27, .f32⟩
  | 3 => ⟨S_, .f32⟩
  | 4 => ⟨S4096x27, .f32⟩
  | 5 => ⟨S4096x27, .f32⟩
  | 6 => ⟨S4096x27, .f32⟩
  | 7 => ⟨S_, .f32⟩
  | 8 => ⟨S4096x27, .f32⟩
  | 9 => ⟨S4096x27, .f32⟩
  | 10 => ⟨S4096x27, .f32⟩
  | 11 => ⟨S_, .f32⟩
  | 12 => ⟨S4096x27, .f32⟩
  | 13 => ⟨S4096x27, .f32⟩
  | 14 => ⟨S4096x27, .f32⟩
  | 15 => ⟨S4096x27, .f32⟩
  | 16 => ⟨S4096x27, .f32⟩
  | 17 => ⟨S_, .f32⟩
  | 18 => ⟨S4096x27, .f32⟩
  | 19 => ⟨S4096x27, .f32⟩
  | 20 => ⟨S_, .f32⟩
  | 21 => ⟨S_, .f32⟩
  | 22 => ⟨S4096x27, .f32⟩
  | 23 => ⟨S4096x27, .f32⟩
  | 24 => ⟨S4096x27, .f32⟩
  | 25 => ⟨S_, .f32⟩
  | 26 => ⟨S4096x27, .f32⟩
  | 27 => ⟨S_, .f32⟩
  | 28 => ⟨S4096x27, .f32⟩
  | 29 => ⟨S4096x27, .f32⟩
  | 30 => ⟨S4096x27, .f32⟩
  | 31 => ⟨S_, .f32⟩
  | 32 => ⟨S4096x27, .f32⟩
  | 33 => ⟨S4096x27, .f32⟩
  | 34 => ⟨S_, .f32⟩
  | 35 => ⟨S4096x27, .f32⟩
  | 36 => ⟨S4096x27, .f32⟩
  | 37 => ⟨S4096x27, .f32⟩
  | 38 => ⟨S4096x27, .f32⟩
  | 39 => ⟨S4096x27, .f32⟩
  | 40 => ⟨S_, .f32⟩
  | 41 => ⟨S4096x27, .f32⟩
  | 42 => ⟨S4096x27, .f32⟩
  | 43 => ⟨S_, .f32⟩
  | 44 => ⟨S4096x27, .f32⟩
  | 45 => ⟨S4096x27, .f32⟩
  | 46 => ⟨S4096x27, .f32⟩
  | 47 => ⟨S_, .f32⟩
  | 48 => ⟨S4096x27, .f32⟩
  | 49 => ⟨S4096x27, .f32⟩
  | 50 => ⟨S4096x27, .f32⟩
  | 51 => ⟨S4096x27, .f32⟩
  | 52 => ⟨S_, .f32⟩
  | 53 => ⟨S4096x27, .f32⟩
  | 54 => ⟨S_, .f32⟩
  | 55 => ⟨S4096x27, .f32⟩
  | 56 => ⟨S4096x27, .f32⟩
  | 57 => ⟨S4096x27, .f32⟩
  | 58 => ⟨S_, .f32⟩
  | 59 => ⟨S4096x27, .f32⟩
  | 60 => ⟨S4096x27, .f32⟩
  | 61 => ⟨S4096x27, .f32⟩
  | 62 => ⟨S4096x27, .f32⟩
  | 63 => ⟨S4096x27, .f32⟩
  | 64 => ⟨S_, .f32⟩
  | 65 => ⟨S4096x27, .f32⟩
  | 66 => ⟨S4096x27, .f32⟩
  | 67 => ⟨S_, .f32⟩
  | 68 => ⟨S_, .f32⟩
  | 69 => ⟨S4096x27, .f32⟩
  | 70 => ⟨S4096x27, .f32⟩
  | 71 => ⟨S4096x27, .f32⟩
  | 72 => ⟨S_, .f32⟩
  | 73 => ⟨S4096x27, .f32⟩
  | 74 => ⟨S_, .f32⟩
  | 75 => ⟨S4096x27, .f32⟩
  | 76 => ⟨S4096x27, .f32⟩
  | 77 => ⟨S4096x27, .f32⟩
  | 78 => ⟨S_, .f32⟩
  | 79 => ⟨S4096x27, .f32⟩
  | 80 => ⟨S4096x27, .f32⟩
  | 81 => ⟨S4096x27, .f32⟩
  | 82 => ⟨S_, .f32⟩
  | 83 => ⟨S4096x27, .f32⟩
  | 84 => ⟨S4096x27, .f32⟩
  | 85 => ⟨S_, .f32⟩
  | 86 => ⟨S4096x27, .f32⟩
  | 87 => ⟨S4096x27, .f32⟩
  | 88 => ⟨S4096x27, .f32⟩
  | 89 => ⟨S4096x27, .f32⟩
  | 90 => ⟨S4096x27, .f32⟩
  | 91 => ⟨S_, .f32⟩
  | 92 => ⟨S4096x27, .f32⟩
  | 93 => ⟨S4096x27, .f32⟩
  | 94 => ⟨S_, .f32⟩
  | 95 => ⟨S4096x27, .f32⟩
  | 96 => ⟨S4096x27, .f32⟩
  | 97 => ⟨S4096x27, .f32⟩
  | 98 => ⟨S_, .f32⟩
  | 99 => ⟨S4096x27, .f32⟩
  | 100 => ⟨S4096x27, .f32⟩
  | 101 => ⟨S4096x27, .f32⟩
  | 102 => ⟨S4096x27, .f32⟩
  | 103 => ⟨S_, .f32⟩
  | 104 => ⟨S4096x27, .f32⟩
  | 105 => ⟨S_, .f32⟩
  | 106 => ⟨S4096x27, .f32⟩
  | 107 => ⟨S4096x27, .f32⟩
  | 108 => ⟨S4096x27, .f32⟩
  | 109 => ⟨S_, .f32⟩
  | 110 => ⟨S4096x27, .f32⟩
  | 111 => ⟨S4096x27, .f32⟩
  | 112 => ⟨S4096x27, .f32⟩
  | 113 => ⟨S4096x27, .f32⟩
  | 114 => ⟨S4096x27, .f32⟩
  | 115 => ⟨S_, .f32⟩
  | 116 => ⟨S4096x27, .f32⟩
  | 117 => ⟨S4096x27, .f32⟩
  | 118 => ⟨S_, .f32⟩
  | 119 => ⟨S_, .f32⟩
  | 120 => ⟨S4096x27, .f32⟩
  | 121 => ⟨S4096x27, .f32⟩
  | 122 => ⟨S4096x27, .f32⟩
  | 123 => ⟨S_, .f32⟩
  | 124 => ⟨S4096x27, .f32⟩
  | 125 => ⟨S_, .f32⟩
  | 126 => ⟨S4096x27, .f32⟩
  | 127 => ⟨S4096x27, .f32⟩
  | _ => ⟨S4096x27x3, .f32⟩

abbrev hbmTy0_7 (i : Nat) : BufTy := match i % 128 with
  | 0 => ⟨S4096x27, .f32⟩
  | 1 => ⟨S_, .f32⟩
  | 2 => ⟨S4096x27, .f32⟩
  | 3 => ⟨S4096x27, .f32⟩
  | 4 => ⟨S4096x27, .f32⟩
  | 5 => ⟨S_, .f32⟩
  | 6 => ⟨S4096x27, .f32⟩
  | 7 => ⟨S4096x27, .f32⟩
  | 8 => ⟨S_, .f32⟩
  | 9 => ⟨S4096x27, .f32⟩
  | 10 => ⟨S4096x27, .f32⟩
  | 11 => ⟨S4096x27, .f32⟩
  | 12 => ⟨S4096x27, .f32⟩
  | 13 => ⟨S4096x27, .f32⟩
  | 14 => ⟨S_, .f32⟩
  | 15 => ⟨S4096x27, .f32⟩
  | 16 => ⟨S4096x27, .f32⟩
  | 17 => ⟨S_, .f32⟩
  | 18 => ⟨S4096x27, .f32⟩
  | 19 => ⟨S4096x27, .f32⟩
  | 20 => ⟨S4096x27, .f32⟩
  | 21 => ⟨S_, .f32⟩
  | 22 => ⟨S4096x27, .f32⟩
  | 23 => ⟨S4096x27, .f32⟩
  | 24 => ⟨S4096x27, .f32⟩
  | 25 => ⟨S4096x27, .f32⟩
  | 26 => ⟨S_, .f32⟩
  | 27 => ⟨S4096x27, .f32⟩
  | 28 => ⟨S_, .f32⟩
  | 29 => ⟨S4096x27, .f32⟩
  | 30 => ⟨S4096x27, .f32⟩
  | 31 => ⟨S4096x27, .f32⟩
  | 32 => ⟨S_, .f32⟩
  | 33 => ⟨S4096x27, .f32⟩
  | 34 => ⟨S4096x27, .f32⟩
  | 35 => ⟨S4096x27, .f32⟩
  | 36 => ⟨S4096x27, .f32⟩
  | 37 => ⟨S4096x27, .f32⟩
  | 38 => ⟨S_, .f32⟩
  | 39 => ⟨S4096x27, .f32⟩
  | 40 => ⟨S4096x27, .f32⟩
  | 41 => ⟨S_, .f32⟩
  | 42 => ⟨S_, .f32⟩
  | 43 => ⟨S4096x27, .f32⟩
  | 44 => ⟨S4096x27, .f32⟩
  | 45 => ⟨S4096x27, .f32⟩
  | 46 => ⟨S_, .f32⟩
  | 47 => ⟨S4096x27, .f32⟩
  | 48 => ⟨S_, .f32⟩
  | 49 => ⟨S4096x27, .f32⟩
  | 50 => ⟨S4096x27, .f32⟩
  | 51 => ⟨S4096x27, .f32⟩
  | 52 => ⟨S_, .f32⟩
  | 53 => ⟨S4096x27, .f32⟩
  | 54 => ⟨S4096x27, .f32⟩
  | 55 => ⟨S4096x27, .f32⟩
  | 56 => ⟨S_, .f32⟩
  | 57 => ⟨S4096x27, .f32⟩
  | 58 => ⟨S4096x27, .f32⟩
  | 59 => ⟨S4096x27, .f32⟩
  | 60 => ⟨S_, .f32⟩
  | 61 => ⟨S4096x27, .f32⟩
  | 62 => ⟨S4096x27, .f32⟩
  | 63 => ⟨S_, .f32⟩
  | 64 => ⟨S4096x27, .f32⟩
  | 65 => ⟨S4096x27, .f32⟩
  | 66 => ⟨S4096x27, .f32⟩
  | 67 => ⟨S_, .f32⟩
  | 68 => ⟨S4096x27, .f32⟩
  | 69 => ⟨S4096x27, .f32⟩
  | 70 => ⟨S_, .f32⟩
  | 71 => ⟨S4096x27, .f32⟩
  | 72 => ⟨S4096x27, .f32⟩
  | 73 => ⟨S4096x27, .f32⟩
  | 74 => ⟨S_, .f32⟩
  | 75 => ⟨S4096x27, .f32⟩
  | 76 => ⟨S4096x27, .f32⟩
  | 77 => ⟨S4096x27, .f32⟩
  | 78 => ⟨S4096x27, .f32⟩
  | 79 => ⟨S_, .f32⟩
  | 80 => ⟨S4096x27, .f32⟩
  | 81 => ⟨S_, .f32⟩
  | 82 => ⟨S4096x27, .f32⟩
  | 83 => ⟨S4096x27, .f32⟩
  | 84 => ⟨S4096x27, .f32⟩
  | 85 => ⟨S_, .f32⟩
  | 86 => ⟨S4096x27, .f32⟩
  | 87 => ⟨S4096x27, .f32⟩
  | 88 => ⟨S4096x27, .f32⟩
  | 89 => ⟨S4096x27, .f32⟩
  | 90 => ⟨S4096x27, .f32⟩
  | 91 => ⟨S_, .f32⟩
  | 92 => ⟨S4096x27, .f32⟩
  | 93 => ⟨S4096x27, .f32⟩
  | 94 => ⟨S_, .f32⟩
  | 95 => ⟨S_, .f32⟩
  | 96 => ⟨S4096x27, .f32⟩
  | 97 => ⟨S4096x27, .f32⟩
  | 98 => ⟨S4096x27, .f32⟩
  | 99 => ⟨S_, .f32⟩
  | 100 => ⟨S4096x27, .f32⟩
  | 101 => ⟨S_, .f32⟩
  | 102 => ⟨S4096x27, .f32⟩
  | 103 => ⟨S4096x27, .f32⟩
  | 104 => ⟨S4096x27, .f32⟩
  | 105 => ⟨S_, .f32⟩
  | 106 => ⟨S4096x27, .f32⟩
  | 107 => ⟨S4096x27, .f32⟩
  | 108 => ⟨S4096x27, .f32⟩
  | 109 => ⟨S_, .f32⟩
  | 110 => ⟨S4096x27, .f32⟩
  | 111 => ⟨S4096x27, .f32⟩
  | 112 => ⟨S_, .f32⟩
  | 113 => ⟨S4096x27, .f32⟩
  | 114 => ⟨S4096x27, .f32⟩
  | 115 => ⟨S4096x27, .f32⟩
  | 116 => ⟨S4096x27, .f32⟩
  | 117 => ⟨S4096x27, .f32⟩
  | 118 => ⟨S_, .f32⟩
  | 119 => ⟨S4096x27, .f32⟩
  | 120 => ⟨S4096x27, .f32⟩
  | 121 => ⟨S_, .f32⟩
  | 122 => ⟨S4096x27, .f32⟩
  | 123 => ⟨S4096x27, .f32⟩
  | 124 => ⟨S4096x27, .f32⟩
  | 125 => ⟨S_, .f32⟩
  | 126 => ⟨S4096x27, .f32⟩
  | 127 => ⟨S4096x27, .f32⟩
  | _ => ⟨S4096x27x3, .f32⟩

abbrev hbmTy0_8 (i : Nat) : BufTy := match i % 128 with
  | 0 => ⟨S4096x27, .f32⟩
  | 1 => ⟨S4096x27, .f32⟩
  | 2 => ⟨S_, .f32⟩
  | 3 => ⟨S4096x27, .f32⟩
  | 4 => ⟨S_, .f32⟩
  | 5 => ⟨S4096x27, .f32⟩
  | 6 => ⟨S4096x27, .f32⟩
  | 7 => ⟨S4096x27, .f32⟩
  | 8 => ⟨S_, .f32⟩
  | 9 => ⟨S4096x27, .f32⟩
  | 10 => ⟨S4096x27, .f32⟩
  | 11 => ⟨S4096x27, .f32⟩
  | 12 => ⟨S4096x27, .f32⟩
  | 13 => ⟨S4096x27, .f32⟩
  | 14 => ⟨S_, .f32⟩
  | 15 => ⟨S4096x27, .f32⟩
  | 16 => ⟨S4096x27, .f32⟩
  | 17 => ⟨S_, .f32⟩
  | 18 => ⟨S_, .f32⟩
  | 19 => ⟨S4096x27, .f32⟩
  | 20 => ⟨S4096x27, .f32⟩
  | 21 => ⟨S4096x27, .f32⟩
  | 22 => ⟨S_, .f32⟩
  | 23 => ⟨S4096x27, .f32⟩
  | 24 => ⟨S_, .f32⟩
  | 25 => ⟨S4096x27, .f32⟩
  | 26 => ⟨S4096x27, .f32⟩
  | 27 => ⟨S4096x27, .f32⟩
  | 28 => ⟨S_, .f32⟩
  | 29 => ⟨S4096x27, .f32⟩
  | 30 => ⟨S4096x27, .f32⟩
  | 31 => ⟨S4096x27, .f32⟩
  | 32 => ⟨S_, .f32⟩
  | 33 => ⟨S4096x27, .f32⟩
  | 34 => ⟨S4096x27, .f32⟩
  | 35 => ⟨S_, .f32⟩
  | 36 => ⟨S4096x27, .f32⟩
  | 37 => ⟨S4096x27, .f32⟩
  | 38 => ⟨S4096x27, .f32⟩
  | 39 => ⟨S4096x27, .f32⟩
  | 40 => ⟨S4096x27, .f32⟩
  | 41 => ⟨S_, .f32⟩
  | 42 => ⟨S4096x27, .f32⟩
  | 43 => ⟨S4096x27, .f32⟩
  | 44 => ⟨S_, .f32⟩
  | 45 => ⟨S4096x27, .f32⟩
  | 46 => ⟨S4096x27, .f32⟩
  | 47 => ⟨S4096x27, .f32⟩
  | 48 => ⟨S_, .f32⟩
  | 49 => ⟨S4096x27, .f32⟩
  | 50 => ⟨S4096x27, .f32⟩
  | 51 => ⟨S4096x27, .f32⟩
  | 52 => ⟨S4096x27, .f32⟩
  | 53 => ⟨S4096x27, .f32⟩
  | 54 => ⟨S_, .f32⟩
  | 55 => ⟨S4096x27, .f32⟩
  | 56 => ⟨S_, .f32⟩
  | 57 => ⟨S4096x27, .f32⟩
  | 58 => ⟨S4096x27, .f32⟩
  | 59 => ⟨S4096x27, .f32⟩
  | 60 => ⟨S4096x27, .f32⟩
  | 61 => ⟨S4096x27, .f32⟩
  | 62 => ⟨S_, .f32⟩
  | 63 => ⟨S4096x27, .f32⟩
  | 64 => ⟨S4096x27, .f32⟩
  | 65 => ⟨S_, .f32⟩
  | 66 => ⟨S_, .f32⟩
  | 67 => ⟨S4096x27, .f32⟩
  | 68 => ⟨S4096x27, .f32⟩
  | 69 => ⟨S4096x27, .f32⟩
  | 70 => ⟨S_, .f32⟩
  | 71 => ⟨S4096x27, .f32⟩
  | 72 => ⟨S_, .f32⟩
  | 73 => ⟨S4096x27, .f32⟩
  | 74 => ⟨S4096x27, .f32⟩
  | 75 => ⟨S4096x27, .f32⟩
  | 76 => ⟨S_, .f32⟩
  | 77 => ⟨S4096x27, .f32⟩
  | 78 => ⟨S4096x27, .f32⟩
  | 79 => ⟨S4096x27, .f32⟩
  | 80 => ⟨S_, .f32⟩
  | 81 => ⟨S4096x27, .f32⟩
  | 82 => ⟨S4096x27, .f32⟩
  | 83 => ⟨S4096x27, .f32⟩
  | 84 => ⟨S_, .f32⟩
  | 85 => ⟨S4096x27, .f32⟩
  | 86 => ⟨S4096x27, .f32⟩
  | 87 => ⟨S_, .f32⟩
  | 88 => ⟨S4096x27, .f32⟩
  | 89 => ⟨S4096x27, .f32⟩
  | 90 => ⟨S4096x27, .f32⟩
  | 91 => ⟨S4096x27, .f32⟩
  | 92 => ⟨S4096x27, .f32⟩
  | 93 => ⟨S_, .f32⟩
  | 94 => ⟨S4096x27, .f32⟩
  | 95 => ⟨S4096x27, .f32⟩
  | 96 => ⟨S_, .f32⟩
  | 97 => ⟨S4096x27, .f32⟩
  | 98 => ⟨S4096x27, .f32⟩
  | 99 => ⟨S4096x27, .f32⟩
  | 100 => ⟨S_, .f32⟩
  | 101 => ⟨S4096x27, .f32⟩
  | 102 => ⟨S4096x27, .f32⟩
  | 103 => ⟨S4096x27, .f32⟩
  | 104 => ⟨S4096x27, .f32⟩
  | 105 => ⟨S4096x27, .f32⟩
  | 106 => ⟨S_, .f32⟩
  | 107 => ⟨S4096x27, .f32⟩
  | 108 => ⟨S_, .f32⟩
  | 109 => ⟨S4096x27, .f32⟩
  | 110 => ⟨S4096x27, .f32⟩
  | 111 => ⟨S4096x27, .f32⟩
  | 112 => ⟨S4096x27, .f32⟩
  | 113 => ⟨S4096x27, .f32⟩
  | 114 => ⟨S_, .f32⟩
  | 115 => ⟨S4096x27, .f32⟩
  | 116 => ⟨S4096x27, .f32⟩
  | 117 => ⟨S_, .f32⟩
  | 118 => ⟨S_, .f32⟩
  | 119 => ⟨S4096x27, .f32⟩
  | 120 => ⟨S4096x27, .f32⟩
  | 121 => ⟨S4096x27, .f32⟩
  | 122 => ⟨S_, .f32⟩
  | 123 => ⟨S4096x27, .f32⟩
  | 124 => ⟨S_, .f32⟩
  | 125 => ⟨S4096x27, .f32⟩
  | 126 => ⟨S4096x27, .f32⟩
  | 127 => ⟨S4096x27, .f32⟩
  | _ => ⟨S4096x27x3, .f32⟩

abbrev hbmTy0_9 (i : Nat) : BufTy := match i % 128 with
  | 0 => ⟨S_, .f32⟩
  | 1 => ⟨S4096x27, .f32⟩
  | 2 => ⟨S4096x27, .f32⟩
  | 3 => ⟨S4096x27, .f32⟩
  | 4 => ⟨S_, .f32⟩
  | 5 => ⟨S4096x27, .f32⟩
  | 6 => ⟨S4096x27, .f32⟩
  | 7 => ⟨S4096x27, .f32⟩
  | 8 => ⟨S_, .f32⟩
  | 9 => ⟨S4096x27, .f32⟩
  | 10 => ⟨S4096x27, .f32⟩
  | 11 => ⟨S_, .f32⟩
  | 12 => ⟨S4096x27, .f32⟩
  | 13 => ⟨S4096x27, .f32⟩
  | 14 => ⟨S4096x27, .f32⟩
  | 15 => ⟨S4096x27, .f32⟩
  | 16 => ⟨S4096x27, .f32⟩
  | 17 => ⟨S_, .f32⟩
  | 18 => ⟨S4096x27, .f32⟩
  | 19 => ⟨S4096x27, .f32⟩
  | 20 => ⟨S_, .f32⟩
  | 21 => ⟨S4096x27, .f32⟩
  | 22 => ⟨S4096x27, .f32⟩
  | 23 => ⟨S4096x27, .f32⟩
  | 24 => ⟨S_, .f32⟩
  | 25 => ⟨S4096x27, .f32⟩
  | 26 => ⟨S4096x27, .f32⟩
  | 27 => ⟨S4096x27, .f32⟩
  | 28 => ⟨S4096x27, .f32⟩
  | 29 => ⟨S4096x27, .f32⟩
  | 30 => ⟨S_, .f32⟩
  | 31 => ⟨S4096x27, .f32⟩
  | 32 => ⟨S_, .f32⟩
  | 33 => ⟨S4096x27, .f32⟩
  | 34 => ⟨S4096x27, .f32⟩
  | 35 => ⟨S4096x27, .f32⟩
  | 36 => ⟨S4096x27, .f32⟩
  | 37 => ⟨S4096x27, .f32⟩
  | 38 => ⟨S_, .f32⟩
  | 39 => ⟨S4096x27, .f32⟩
  | 40 => ⟨S4096x27, .f32⟩
  | 41 => ⟨S_, .f32⟩
  | 42 => ⟨S_, .f32⟩
  | 43 => ⟨S4096x27, .f32⟩
  | 44 => ⟨S4096x27, .f32⟩
  | 45 => ⟨S4096x27, .f32⟩
  | 46 => ⟨S_, .f32⟩
  | 47 => ⟨S4096x27, .f32⟩
  | 48 => ⟨S_, .f32⟩
  | 49 => ⟨S4096x27, .f32⟩
  | 50 => ⟨S4096x27, .f32⟩
  | 51 => ⟨S4096x27, .f32⟩
  | 52 => ⟨S_, .f32⟩
  | 53 => ⟨S4096x27, .f32⟩
  | 54 => ⟨S4096x27, .f32⟩
  | 55 => ⟨S4096x27, .f32⟩
  | 56 => ⟨S_, .f32⟩
  | 57 => ⟨S4096x27, .f32⟩
  | 58 => ⟨S4096x27, .f32⟩
  | 59 => ⟨S4096x27, .f32⟩
  | 60 => ⟨S_, .f32⟩
  | 61 => ⟨S4096x27, .f32⟩
  | 62 => ⟨S4096x27, .f32⟩
  | 63 => ⟨S4096x27, .f32⟩
  | 64 => ⟨S_, .f32⟩
  | 65 => ⟨S4096x27, .f32⟩
  | 66 => ⟨S4096x27, .f32⟩
  | 67 => ⟨S_, .f32⟩
  | 68 => ⟨S4096x27, .f32⟩
  | 69 => ⟨S4096x27, .f32⟩
  | 70 => ⟨S_, .f32⟩
  | 71 => ⟨S4096x27, .f32⟩
  | 72 => ⟨S4096x27, .f32⟩
  | 73 => ⟨S4096x27, .f32⟩
  | 74 => ⟨S4096x27, .f32⟩
  | 75 => ⟨S4096x27, .f32⟩
  | 76 => ⟨S_, .f32⟩
  | 77 => ⟨S4096x27, .f32⟩
  | 78 => ⟨S4096x27, .f32⟩
  | 79 => ⟨S_, .f32⟩
  | 80 => ⟨S4096x27, .f32⟩
  | 81 => ⟨S4096x27, .f32⟩
  | 82 => ⟨S4096x27, .f32⟩
  | 83 => ⟨S_, .f32⟩
  | 84 => ⟨S4096x27, .f32⟩
  | 85 => ⟨S4096x27, .f32⟩
  | 86 => ⟨S4096x27, .f32⟩
  | 87 => ⟨S4096x27, .f32⟩
  | 88 => ⟨S4096x27, .f32⟩
  | 89 => ⟨S_, .f32⟩
  | 90 => ⟨S4096x27, .f32⟩
  | 91 => ⟨S_, .f32⟩
  | 92 => ⟨S4096x27, .f32⟩
  | 93 => ⟨S4096x27, .f32⟩
  | 94 => ⟨S4096x27, .f32⟩
  | 95 => ⟨S4096x27, .f32⟩
  | 96 => ⟨S4096x27, .f32⟩
  | 97 => ⟨S_, .f32⟩
  | 98 => ⟨S4096x27, .f32⟩
  | 99 => ⟨S4096x27, .f32⟩
  | 100 => ⟨S_, .f32⟩
  | 101 => ⟨S_, .f32⟩
  | 102 => ⟨S4096x27, .f32⟩
  | 103 => ⟨S4096x27, .f32⟩
  | 104 => ⟨S4096x27, .f32⟩
  | 105 => ⟨S_, .f32⟩
  | 106 => ⟨S4096x27, .f32⟩
  | 107 => ⟨S_, .f32⟩
  | 108 => ⟨S4096x27, .f32⟩
  | 109 => ⟨S4096x27, .f32⟩
  | 110 => ⟨S4096x27, .f32⟩
  | 111 => ⟨S_, .f32⟩
  | 112 => ⟨S4096x27, .f32⟩
  | 113 => ⟨S4096x27, .f32⟩
  | 114 => ⟨S4096x27, .f32⟩
  | 115 => ⟨S_, .f32⟩
  | 116 => ⟨S4096x27, .f32⟩
  | 117 => ⟨S4096x27, .f32⟩
  | 118 => ⟨S4096x27, .f32⟩
  | 119 => ⟨S_, .f32⟩
  | 120 => ⟨S4096x27, .f32⟩
  | 121 => ⟨S4096x27, .f32⟩
  | 122 => ⟨S_, .f32⟩
  | 123 => ⟨S4096x27, .f32⟩
  | 124 => ⟨S4096x27, .f32⟩
  | 125 => ⟨S4096x27, .f32⟩
  | 126 => ⟨S_, .f32⟩
  | 127 => ⟨S4096x27, .f32⟩
  | _ => ⟨S4096x27x3, .f32⟩

abbrev hbmTy0_10 (i : Nat) : BufTy := match i % 128 with
  | 0 => ⟨S4096x27, .f32⟩
  | 1 => ⟨S4096x27, .f32⟩
  | 2 => ⟨S_, .f32⟩
  | 3 => ⟨S4096x27, .f32⟩
  | 4 => ⟨S4096x27, .f32⟩
  | 5 => ⟨S_, .f32⟩
  | 6 => ⟨S4096x27, .f32⟩
  | 7 => ⟨S4096x27, .f32⟩
  | 8 => ⟨S4096x27, .f32⟩
  | 9 => ⟨S_, .f32⟩
  | 10 => ⟨S4096x27, .f32⟩
  | 11 => ⟨S4096x27, .f32⟩
  | 12 => ⟨S_, .f32⟩
  | 13 => ⟨S4096x27, .f32⟩
  | 14 => ⟨S4096x27, .f32⟩
  | 15 => ⟨S4096x27, .f32⟩
  | 16 => ⟨S_, .f32⟩
  | 17 => ⟨S4096x27, .f32⟩
  | 18 => ⟨S4096x27, .f32⟩
  | 19 => ⟨S4096x27, .f32⟩
  | 20 => ⟨S4096x27, .f32⟩
  | 21 => ⟨S4096x27, .f32⟩
  | 22 => ⟨S_, .f32⟩
  | 23 => ⟨S4096x27, .f32⟩
  | 24 => ⟨S_, .f32⟩
  | 25 => ⟨S4096x27, .f32⟩
  | 26 => ⟨S4096x27, .f32⟩
  | 27 => ⟨S4096x27, .f32⟩
  | 28 => ⟨S4096x27, .f32⟩
  | 29 => ⟨S4096x27, .f32⟩
  | 30 => ⟨S_, .f32⟩
  | 31 => ⟨S4096x27, .f32⟩
  | 32 => ⟨S4096x27, .f32⟩
  | 33 => ⟨S_, .f32⟩
  | 34 => ⟨S_, .f32⟩
  | 35 => ⟨S4096x27, .f32⟩
  | 36 => ⟨S4096x27, .f32⟩
  | 37 => ⟨S4096x27, .f32⟩
  | 38 => ⟨S_, .f32⟩
  | 39 => ⟨S4096x27, .f32⟩
  | 40 => ⟨S_, .f32⟩
  | 41 => ⟨S4096x27, .f32⟩
  | 42 => ⟨S4096x27, .f32⟩
  | 43 => ⟨S4096x27, .f32⟩
  | 44 => ⟨S_, .f32⟩
  | 45 => ⟨S4096x27, .f32⟩
  | 46 => ⟨S4096x27, .f32⟩
  | 47 => ⟨S4096x27, .f32⟩
  | 48 => ⟨S_, .f32⟩
  | 49 => ⟨S4096x27, .f32⟩
  | 50 => ⟨S4096x27, .f32⟩
  | 51 => ⟨S4096x27, .f32⟩
  | 52 => ⟨S_, .f32⟩
  | 53 => ⟨S4096x27, .f32⟩
  | 54 => ⟨S4096x27, .f32⟩
  | 55 => ⟨S4096x27, .f32⟩
  | 56 => ⟨S_, .f32⟩
  | 57 => ⟨S4096x27, .f32⟩
  | 58 => ⟨S4096x27, .f32⟩
  | 59 => ⟨S_, .f32⟩
  | 60 => ⟨S4096x27, .f32⟩
  | 61 => ⟨S4096x27, .f32⟩
  | 62 => ⟨S_, .f32⟩
  | 63 => ⟨S4096x27, .f32⟩
  | 64 => ⟨S4096x27, .f32⟩
  | 65 => ⟨S4096x27, .f32⟩
  | 66 => ⟨S4096x27, .f32⟩
  | 67 => ⟨S4096x27, .f32⟩
  | 68 => ⟨S_, .f32⟩
  | 69 => ⟨S4096x27, .f32⟩
  | 70 => ⟨S4096x27, .f32⟩
  | 71 => ⟨S_, .f32⟩
  | 72 => ⟨S4096x27, .f32⟩
  | 73 => ⟨S4096x27, .f32⟩
  | 74 => ⟨S4096x27, .f32⟩
  | 75 => ⟨S_, .f32⟩
  | 76 => ⟨S4096x27, .f32⟩
  | 77 => ⟨S4096x27, .f32⟩
  | 78 => ⟨S4096x27, .f32⟩
  | 79 => ⟨S4096x27, .f32⟩
  | 80 => ⟨S4096x27, .f32⟩
  | 81 => ⟨S_, .f32⟩
  | 82 => ⟨S4096x27, .f32⟩
  | 83 => ⟨S_, .f32⟩
  | 84 => ⟨S4096x27, .f32⟩
  | 85 => ⟨S4096x27, .f32⟩
  | 86 => ⟨S4096x27, .f32⟩
  | 87 => ⟨S4096x27, .f32⟩
  | 88 => ⟨S4096x27, .f32⟩
  | 89 => ⟨S_, .f32⟩
  | 90 => ⟨S4096x27, .f32⟩
  | 91 => ⟨S4096x27, .f32⟩
  | 92 => ⟨S_, .f32⟩
  | 93 => ⟨S_, .f32⟩
  | 94 => ⟨S4096x27, .f32⟩
  | 95 => ⟨S4096x27, .f32⟩
  | 96 => ⟨S4096x27, .f32⟩
  | 97 => ⟨S_, .f32⟩
  | 98 => ⟨S4096x27, .f32⟩
  | 99 => ⟨S_, .f32⟩
  | 100 => ⟨S4096x27, .f32⟩
  | 101 => ⟨S4096x27, .f32⟩
  | 102 => ⟨S4096x27, .f32⟩
  | 103 => ⟨S_, .f32⟩
  | 104 => ⟨S4096x27, .f32⟩
  | 105 => ⟨S4096x27, .f32⟩
  | 106 => ⟨S4096x27, .f32⟩
  | 107 => ⟨S_, .f32⟩
  | 108 => ⟨S4096x27, .f32⟩
  | 109 => ⟨S4096x27, .f32⟩
  | 110 => ⟨S4096x27, .f32⟩
  | 111 => ⟨S_, .f32⟩
  | 112 => ⟨S4096x27, .f32⟩
  | 113 => ⟨S4096x27, .f32⟩
  | 114 => ⟨S_, .f32⟩
  | 115 => ⟨S4096x27, .f32⟩
  | 116 => ⟨S4096x27, .f32⟩
  | 117 => ⟨S4096x27, .f32⟩
  | 118 => ⟨S4096x27, .f32⟩
  | 119 => ⟨S4096x27, .f32⟩
  | 120 => ⟨S_, .f32⟩
  | 121 => ⟨S4096x27, .f32⟩
  | 122 => ⟨S4096x27, .f32⟩
  | 123 => ⟨S_, .f32⟩
  | 124 => ⟨S4096x27, .f32⟩
  | 125 => ⟨S4096x27, .f32⟩
  | 126 => ⟨S4096x27, .f32⟩
  | 127 => ⟨S_, .f32⟩
  | _ => ⟨S4096x27x3, .f32⟩

abbrev hbmTy0_11 (i : Nat) : BufTy := match i % 128 with
  | 0 => ⟨S4096x27, .f32⟩
  | 1 => ⟨S4096x27, .f32⟩
  | 2 => ⟨S4096x27, .f32⟩
  | 3 => ⟨S4096x27, .f32⟩
  | 4 => ⟨S4096x27, .f32⟩
  | 5 => ⟨S_, .f32⟩
  | 6 => ⟨S4096x27, .f32⟩
  | 7 => ⟨S_, .f32⟩
  | 8 => ⟨S4096x27, .f32⟩
  | 9 => ⟨S4096x27, .f32⟩
  | 10 => ⟨S4096x27, .f32⟩
  | 11 => ⟨S4096x27, .f32⟩
  | 12 => ⟨S4096x27, .f32⟩
  | 13 => ⟨S_, .f32⟩
  | 14 => ⟨S4096x27, .f32⟩
  | 15 => ⟨S4096x27, .f32⟩
  | 16 => ⟨S_, .f32⟩
  | 17 => ⟨S_, .f32⟩
  | 18 => ⟨S4096x27, .f32⟩
  | 19 => ⟨S4096x27, .f32⟩
  | 20 => ⟨S4096x27, .f32⟩
  | 21 => ⟨S_, .f32⟩
  | 22 => ⟨S4096x27, .f32⟩
  | 23 => ⟨S_, .f32⟩
  | 24 => ⟨S4096x27, .f32⟩
  | 25 => ⟨S4096x27, .f32⟩
  | 26 => ⟨S4096x27, .f32⟩
  | 27 => ⟨S_, .f32⟩
  | 28 => ⟨S4096x27, .f32⟩
  | 29 => ⟨S4096x27, .f32⟩
  | 30 => ⟨S4096x27, .f32⟩
  | 31 => ⟨S_, .f32⟩
  | 32 => ⟨S4096x27, .f32⟩
  | 33 => ⟨S4096x27, .f32⟩
  | 34 => ⟨S4096x27, .f32⟩
  | 35 => ⟨S_, .f32⟩
  | 36 => ⟨S4096x27, .f32⟩
  | 37 => ⟨S4096x27, .f32⟩
  | 38 => ⟨S_, .f32⟩
  | 39 => ⟨S4096x27, .f32⟩
  | 40 => ⟨S4096x27, .f32⟩
  | 41 => ⟨S4096x27, .f32⟩
  | 42 => ⟨S4096x27, .f32⟩
  | 43 => ⟨S4096x27, .f32⟩
  | 44 => ⟨S4096x27x1, .f32⟩
  | 45 => ⟨S4096x27x1, .f32⟩
  | 46 => ⟨S4096x27x1, .f32⟩
  | 47 => ⟨S4096x27x1, .f32⟩
  | 48 => ⟨S4096x27x1, .f32⟩
  | 49 => ⟨S4096x27x1, .f32⟩
  | 50 => ⟨S4096x27x1, .f32⟩
  | 51 => ⟨S4096x27x1, .f32⟩
  | 52 => ⟨S4096x27x1, .f32⟩
  | 53 => ⟨S4096x27x1, .f32⟩
  | 54 => ⟨S4096x27x1, .f32⟩
  | 55 => ⟨S4096x27x1, .f32⟩
  | 56 => ⟨S4096x27x1, .f32⟩
  | 57 => ⟨S4096x27x1, .f32⟩
  | 58 => ⟨S4096x27x1, .f32⟩
  | 59 => ⟨S4096x27x1, .f32⟩
  | 60 => ⟨S4096x27x1, .f32⟩
  | 61 => ⟨S4096x27x1, .f32⟩
  | 62 => ⟨S4096x27x1, .f32⟩
  | 63 => ⟨S4096x27x1, .f32⟩
  | 64 => ⟨S4096x27x1, .f32⟩
  | 65 => ⟨S4096x27x1, .f32⟩
  | 66 => ⟨S4096x27x1, .f32⟩
  | 67 => ⟨S4096x27x1, .f32⟩
  | 68 => ⟨S4096x27x1, .f32⟩
  | 69 => ⟨S4096x27x1, .f32⟩
  | 70 => ⟨S4096x27x1, .f32⟩
  | 71 => ⟨S4096x27x1, .f32⟩
  | 72 => ⟨S4096x27x1, .f32⟩
  | 73 => ⟨S4096x27x1, .f32⟩
  | 74 => ⟨S4096x27x16, .f32⟩
  | 75 => ⟨S4096x27x14, .f32⟩
  | 76 => ⟨S4096x27x30, .f32⟩
  | 77 => ⟨S16x16x4096x27, .f32⟩
  | _ => ⟨S4096x27x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S4096x27x3, .f32⟩

abbrev bufTy : (tb : Table) → Fin (tcTables nBuf tb) → BufTy
  | .hbm, ⟨i, _⟩ => hbmTy i
  | _, _ => ⟨S4096x27x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_call0_v0 : Ref sig .tc := ⟨.hbm, 33, rfl⟩
abbrev main_call0_v1 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_cst_12 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_cst_14 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_15 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_16 : Ref sig .tc := ⟨.hbm, 68, rfl⟩
abbrev main_v47 : Ref sig .tc := ⟨.hbm, 69, rfl⟩
abbrev main_v48 : Ref sig .tc := ⟨.hbm, 70, rfl⟩
abbrev main_cst_17 : Ref sig .tc := ⟨.hbm, 71, rfl⟩
abbrev main_call1_v0 : Ref sig .tc := ⟨.hbm, 72, rfl⟩
abbrev main_call1_v1 : Ref sig .tc := ⟨.hbm, 73, rfl⟩
abbrev main_v49 : Ref sig .tc := ⟨.hbm, 74, rfl⟩
abbrev main_v50 : Ref sig .tc := ⟨.hbm, 75, rfl⟩
abbrev main_cst_18 : Ref sig .tc := ⟨.hbm, 76, rfl⟩
abbrev main_v51 : Ref sig .tc := ⟨.hbm, 77, rfl⟩
abbrev main_cst_19 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_20 : Ref sig .tc := ⟨.hbm, 82, rfl⟩
abbrev main_v55 : Ref sig .tc := ⟨.hbm, 83, rfl⟩
abbrev main_v56 : Ref sig .tc := ⟨.hbm, 84, rfl⟩
abbrev main_cst_21 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_22 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_23 : Ref sig .tc := ⟨.hbm, 93, rfl⟩
abbrev main_v63 : Ref sig .tc := ⟨.hbm, 94, rfl⟩
abbrev main_cst_24 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_25 : Ref sig .tc := ⟨.hbm, 101, rfl⟩
abbrev main_v69 : Ref sig .tc := ⟨.hbm, 102, rfl⟩
abbrev main_v70 : Ref sig .tc := ⟨.hbm, 103, rfl⟩
abbrev main_cst_26 : Ref sig .tc := ⟨.hbm, 104, rfl⟩
abbrev main_call2_v0 : Ref sig .tc := ⟨.hbm, 105, rfl⟩
abbrev main_call2_v1 : Ref sig .tc := ⟨.hbm, 106, rfl⟩
abbrev main_v71 : Ref sig .tc := ⟨.hbm, 107, rfl⟩
abbrev main_v72 : Ref sig .tc := ⟨.hbm, 108, rfl⟩
abbrev main_cst_27 : Ref sig .tc := ⟨.hbm, 109, rfl⟩
abbrev main_v73 : Ref sig .tc := ⟨.hbm, 110, rfl⟩
abbrev main_cst_28 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_29 : Ref sig .tc := ⟨.hbm, 115, rfl⟩
abbrev main_v77 : Ref sig .tc := ⟨.hbm, 116, rfl⟩
abbrev main_v78 : Ref sig .tc := ⟨.hbm, 117, rfl⟩
abbrev main_cst_30 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_31 : Ref sig .tc := ⟨.hbm, 124, rfl⟩
abbrev main_v84 : Ref sig .tc := ⟨.hbm, 125, rfl⟩
abbrev main_v85 : Ref sig .tc := ⟨.hbm, 126, rfl⟩
abbrev main_cst_32 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_33 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_34 : Ref sig .tc := ⟨.hbm, 135, rfl⟩
abbrev main_v92 : Ref sig .tc := ⟨.hbm, 136, rfl⟩
abbrev main_cst_35 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_36 : Ref sig .tc := ⟨.hbm, 143, rfl⟩
abbrev main_v98 : Ref sig .tc := ⟨.hbm, 144, rfl⟩
abbrev main_v99 : Ref sig .tc := ⟨.hbm, 145, rfl⟩
abbrev main_cst_37 : Ref sig .tc := ⟨.hbm, 146, rfl⟩
abbrev main_call3_v0 : Ref sig .tc := ⟨.hbm, 147, rfl⟩
abbrev main_call3_v1 : Ref sig .tc := ⟨.hbm, 148, rfl⟩
abbrev main_v100 : Ref sig .tc := ⟨.hbm, 149, rfl⟩
abbrev main_v101 : Ref sig .tc := ⟨.hbm, 150, rfl⟩
abbrev main_cst_38 : Ref sig .tc := ⟨.hbm, 151, rfl⟩
abbrev main_v102 : Ref sig .tc := ⟨.hbm, 152, rfl⟩
abbrev main_cst_39 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_40 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_41 : Ref sig .tc := ⟨.hbm, 161, rfl⟩
abbrev main_v109 : Ref sig .tc := ⟨.hbm, 162, rfl⟩
abbrev main_v110 : Ref sig .tc := ⟨.hbm, 163, rfl⟩
abbrev main_cst_42 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_cst_43 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_cst_44 : Ref sig .tc := ⟨.hbm, 172, rfl⟩
abbrev main_v117 : Ref sig .tc := ⟨.hbm, 173, rfl⟩
abbrev main_cst_45 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_cst_46 : Ref sig .tc := ⟨.hbm, 180, rfl⟩
abbrev main_v123 : Ref sig .tc := ⟨.hbm, 181, rfl⟩
abbrev main_v124 : Ref sig .tc := ⟨.hbm, 182, rfl⟩
abbrev main_cst_47 : Ref sig .tc := ⟨.hbm, 183, rfl⟩
abbrev main_call4_v0 : Ref sig .tc := ⟨.hbm, 184, rfl⟩
abbrev main_call4_v1 : Ref sig .tc := ⟨.hbm, 185, rfl⟩
abbrev main_v125 : Ref sig .tc := ⟨.hbm, 186, rfl⟩
abbrev main_v126 : Ref sig .tc := ⟨.hbm, 187, rfl⟩
abbrev main_cst_48 : Ref sig .tc := ⟨.hbm, 188, rfl⟩
abbrev main_v127 : Ref sig .tc := ⟨.hbm, 189, rfl⟩
abbrev main_cst_49 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_cst_50 : Ref sig .tc := ⟨.hbm, 194, rfl⟩
abbrev main_v131 : Ref sig .tc := ⟨.hbm, 195, rfl⟩
abbrev main_v132 : Ref sig .tc := ⟨.hbm, 196, rfl⟩
abbrev main_cst_51 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_cst_52 : Ref sig .tc := ⟨.hbm, 203, rfl⟩
abbrev main_v138 : Ref sig .tc := ⟨.hbm, 204, rfl⟩
abbrev main_v139 : Ref sig .tc := ⟨.hbm, 205, rfl⟩
abbrev main_cst_53 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_cst_54 : Ref sig .tc := ⟨.hbm, 210, rfl⟩
abbrev main_v143 : Ref sig .tc := ⟨.hbm, 211, rfl⟩
abbrev main_v144 : Ref sig .tc := ⟨.hbm, 212, rfl⟩
abbrev main_cst_55 : Ref sig .tc := ⟨.hbm, 213, rfl⟩
abbrev main_v145 : Ref sig .tc := ⟨.hbm, 214, rfl⟩
abbrev main_v146 : Ref sig .tc := ⟨.hbm, 215, rfl⟩
abbrev main_cst_56 : Ref sig .tc := ⟨.hbm, 216, rfl⟩
abbrev main_v147 : Ref sig .tc := ⟨.hbm, 217, rfl⟩
abbrev main_cst_57 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_cst_58 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_cst_59 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_cst_60 : Ref sig .tc := ⟨.hbm, 232, rfl⟩
abbrev main_v159 : Ref sig .tc := ⟨.hbm, 233, rfl⟩
abbrev main_v160 : Ref sig .tc := ⟨.hbm, 234, rfl⟩
abbrev main_cst_61 : Ref sig .tc := ⟨.hbm, 235, rfl⟩
abbrev main_call5_v0 : Ref sig .tc := ⟨.hbm, 236, rfl⟩
abbrev main_call5_v1 : Ref sig .tc := ⟨.hbm, 237, rfl⟩
abbrev main_v161 : Ref sig .tc := ⟨.hbm, 238, rfl⟩
abbrev main_v162 : Ref sig .tc := ⟨.hbm, 239, rfl⟩
abbrev main_cst_62 : Ref sig .tc := ⟨.hbm, 240, rfl⟩
abbrev main_v163 : Ref sig .tc := ⟨.hbm, 241, rfl⟩
abbrev main_cst_63 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_cst_64 : Ref sig .tc := ⟨.hbm, 246, rfl⟩
abbrev main_v167 : Ref sig .tc := ⟨.hbm, 247, rfl⟩
abbrev main_v168 : Ref sig .tc := ⟨.hbm, 248, rfl⟩
abbrev main_cst_65 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_cst_66 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_cst_67 : Ref sig .tc := ⟨.hbm, 257, rfl⟩
abbrev main_v175 : Ref sig .tc := ⟨.hbm, 258, rfl⟩
abbrev main_cst_68 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_cst_69 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_cst_70 : Ref sig .tc := ⟨.hbm, 269, rfl⟩
abbrev main_v184 : Ref sig .tc := ⟨.hbm, 270, rfl⟩
abbrev main_v185 : Ref sig .tc := ⟨.hbm, 271, rfl⟩
abbrev main_cst_71 : Ref sig .tc := ⟨.hbm, 272, rfl⟩
abbrev main_call6_v0 : Ref sig .tc := ⟨.hbm, 273, rfl⟩
abbrev main_call6_v1 : Ref sig .tc := ⟨.hbm, 274, rfl⟩
abbrev main_v186 : Ref sig .tc := ⟨.hbm, 275, rfl⟩
abbrev main_v187 : Ref sig .tc := ⟨.hbm, 276, rfl⟩
abbrev main_cst_72 : Ref sig .tc := ⟨.hbm, 277, rfl⟩
abbrev main_v188 : Ref sig .tc := ⟨.hbm, 278, rfl⟩
abbrev main_cst_73 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_cst_74 : Ref sig .tc := ⟨.hbm, 283, rfl⟩
abbrev main_v192 : Ref sig .tc := ⟨.hbm, 284, rfl⟩
abbrev main_v193 : Ref sig .tc := ⟨.hbm, 285, rfl⟩
abbrev main_cst_75 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_cst_76 : Ref sig .tc := ⟨.hbm, 292, rfl⟩
abbrev main_v199 : Ref sig .tc := ⟨.hbm, 293, rfl⟩
abbrev main_v200 : Ref sig .tc := ⟨.hbm, 294, rfl⟩
abbrev main_cst_77 : Ref sig .tc := ⟨.hbm, 295, rfl⟩
abbrev main_v201 : Ref sig .tc := ⟨.hbm, 296, rfl⟩
abbrev main_v202 : Ref sig .tc := ⟨.hbm, 297, rfl⟩
abbrev main_v203 : Ref sig .tc := ⟨.hbm, 298, rfl⟩
abbrev main_cst_78 : Ref sig .tc := ⟨.hbm, 299, rfl⟩
abbrev main_v204 : Ref sig .tc := ⟨.hbm, 300, rfl⟩
abbrev main_v205 : Ref sig .tc := ⟨.hbm, 301, rfl⟩
abbrev main_v206 : Ref sig .tc := ⟨.hbm, 302, rfl⟩
abbrev main_cst_79 : Ref sig .tc := ⟨.hbm, 303, rfl⟩
abbrev main_v207 : Ref sig .tc := ⟨.hbm, 304, rfl⟩
abbrev main_cst_80 : Ref sig .tc := ⟨.hbm, 305, rfl⟩
abbrev main_v208 : Ref sig .tc := ⟨.hbm, 306, rfl⟩
abbrev main_v209 : Ref sig .tc := ⟨.hbm, 307, rfl⟩
abbrev main_v210 : Ref sig .tc := ⟨.hbm, 308, rfl⟩
abbrev main_cst_81 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_cst_82 : Ref sig .tc := ⟨.hbm, 315, rfl⟩
abbrev main_v216 : Ref sig .tc := ⟨.hbm, 316, rfl⟩
abbrev main_v217 : Ref sig .tc := ⟨.hbm, 317, rfl⟩
abbrev main_cst_83 : Ref sig .tc := ⟨.hbm, 318, rfl⟩
abbrev main_call7_v0 : Ref sig .tc := ⟨.hbm, 319, rfl⟩
abbrev main_call7_v1 : Ref sig .tc := ⟨.hbm, 320, rfl⟩
abbrev main_v218 : Ref sig .tc := ⟨.hbm, 321, rfl⟩
abbrev main_v219 : Ref sig .tc := ⟨.hbm, 322, rfl⟩
abbrev main_cst_84 : Ref sig .tc := ⟨.hbm, 323, rfl⟩
abbrev main_v220 : Ref sig .tc := ⟨.hbm, 324, rfl⟩
abbrev main_cst_85 : Ref sig .tc := ⟨.hbm, 325, rfl⟩
abbrev main_v221 : Ref sig .tc := ⟨.hbm, 326, rfl⟩
abbrev main_v222 : Ref sig .tc := ⟨.hbm, 327, rfl⟩
abbrev main_v223 : Ref sig .tc := ⟨.hbm, 328, rfl⟩
abbrev main_cst_86 : Ref sig .tc := ⟨.hbm, 329, rfl⟩
abbrev main_v224 : Ref sig .tc := ⟨.hbm, 330, rfl⟩
abbrev main_v225 : Ref sig .tc := ⟨.hbm, 331, rfl⟩
abbrev main_v226 : Ref sig .tc := ⟨.hbm, 332, rfl⟩
abbrev main_cst_87 : Ref sig .tc := ⟨.hbm, 333, rfl⟩
abbrev main_v227 : Ref sig .tc := ⟨.hbm, 334, rfl⟩
abbrev main_v228 : Ref sig .tc := ⟨.hbm, 335, rfl⟩
abbrev main_cst_88 : Ref sig .tc := ⟨.hbm, 336, rfl⟩
abbrev main_v229 : Ref sig .tc := ⟨.hbm, 337, rfl⟩
abbrev main_v230 : Ref sig .tc := ⟨.hbm, 338, rfl⟩
abbrev main_v231 : Ref sig .tc := ⟨.hbm, 339, rfl⟩
abbrev main_cst_89 : Ref sig .tc := ⟨.hbm, 340, rfl⟩
abbrev main_v232 : Ref sig .tc := ⟨.hbm, 341, rfl⟩
abbrev main_v233 : Ref sig .tc := ⟨.hbm, 342, rfl⟩
abbrev main_v234 : Ref sig .tc := ⟨.hbm, 343, rfl⟩
abbrev main_cst_90 : Ref sig .tc := ⟨.hbm, 344, rfl⟩
abbrev main_v235 : Ref sig .tc := ⟨.hbm, 345, rfl⟩
abbrev main_cst_91 : Ref sig .tc := ⟨.hbm, 346, rfl⟩
abbrev main_v236 : Ref sig .tc := ⟨.hbm, 347, rfl⟩
abbrev main_v237 : Ref sig .tc := ⟨.hbm, 348, rfl⟩
abbrev main_v238 : Ref sig .tc := ⟨.hbm, 349, rfl⟩
abbrev main_cst_92 : Ref sig .tc := ⟨.hbm, 350, rfl⟩
abbrev main_v239 : Ref sig .tc := ⟨.hbm, 351, rfl⟩
abbrev main_v240 : Ref sig .tc := ⟨.hbm, 352, rfl⟩
abbrev main_v241 : Ref sig .tc := ⟨.hbm, 353, rfl⟩
abbrev main_v242 : Ref sig .tc := ⟨.hbm, 354, rfl⟩
abbrev main_v243 : Ref sig .tc := ⟨.hbm, 355, rfl⟩
abbrev main_cst_93 : Ref sig .tc := ⟨.hbm, 356, rfl⟩
abbrev main_v244 : Ref sig .tc := ⟨.hbm, 357, rfl⟩
abbrev main_v245 : Ref sig .tc := ⟨.hbm, 358, rfl⟩
abbrev main_cst_94 : Ref sig .tc := ⟨.hbm, 359, rfl⟩
abbrev main_call8_v0 : Ref sig .tc := ⟨.hbm, 360, rfl⟩
abbrev main_call8_v1 : Ref sig .tc := ⟨.hbm, 361, rfl⟩
abbrev main_v246 : Ref sig .tc := ⟨.hbm, 362, rfl⟩
abbrev main_v247 : Ref sig .tc := ⟨.hbm, 363, rfl⟩
abbrev main_cst_95 : Ref sig .tc := ⟨.hbm, 364, rfl⟩
abbrev main_v248 : Ref sig .tc := ⟨.hbm, 365, rfl⟩
abbrev main_cst_96 : Ref sig .tc := ⟨.hbm, 366, rfl⟩
abbrev main_v249 : Ref sig .tc := ⟨.hbm, 367, rfl⟩
abbrev main_v250 : Ref sig .tc := ⟨.hbm, 368, rfl⟩
abbrev main_v251 : Ref sig .tc := ⟨.hbm, 369, rfl⟩
abbrev main_cst_97 : Ref sig .tc := ⟨.hbm, 370, rfl⟩
abbrev main_v252 : Ref sig .tc := ⟨.hbm, 371, rfl⟩
abbrev main_v253 : Ref sig .tc := ⟨.hbm, 372, rfl⟩
abbrev main_cst_98 : Ref sig .tc := ⟨.hbm, 373, rfl⟩
abbrev main_v254 : Ref sig .tc := ⟨.hbm, 374, rfl⟩
abbrev main_v255 : Ref sig .tc := ⟨.hbm, 375, rfl⟩
abbrev main_v256 : Ref sig .tc := ⟨.hbm, 376, rfl⟩
abbrev main_v257 : Ref sig .tc := ⟨.hbm, 377, rfl⟩
abbrev main_v258 : Ref sig .tc := ⟨.hbm, 378, rfl⟩
abbrev main_cst_99 : Ref sig .tc := ⟨.hbm, 379, rfl⟩
abbrev main_v259 : Ref sig .tc := ⟨.hbm, 380, rfl⟩
abbrev main_v260 : Ref sig .tc := ⟨.hbm, 381, rfl⟩
abbrev main_cst_100 : Ref sig .tc := ⟨.hbm, 382, rfl⟩
abbrev main_v261 : Ref sig .tc := ⟨.hbm, 383, rfl⟩
abbrev main_v262 : Ref sig .tc := ⟨.hbm, 384, rfl⟩
abbrev main_v263 : Ref sig .tc := ⟨.hbm, 385, rfl⟩
abbrev main_cst_101 : Ref sig .tc := ⟨.hbm, 386, rfl⟩
abbrev main_v264 : Ref sig .tc := ⟨.hbm, 387, rfl⟩
abbrev main_v265 : Ref sig .tc := ⟨.hbm, 388, rfl⟩
abbrev main_v266 : Ref sig .tc := ⟨.hbm, 389, rfl⟩
abbrev main_v267 : Ref sig .tc := ⟨.hbm, 390, rfl⟩
abbrev main_cst_102 : Ref sig .tc := ⟨.hbm, 391, rfl⟩
abbrev main_v268 : Ref sig .tc := ⟨.hbm, 392, rfl⟩
abbrev main_cst_103 : Ref sig .tc := ⟨.hbm, 393, rfl⟩
abbrev main_v269 : Ref sig .tc := ⟨.hbm, 394, rfl⟩
abbrev main_v270 : Ref sig .tc := ⟨.hbm, 395, rfl⟩
abbrev main_v271 : Ref sig .tc := ⟨.hbm, 396, rfl⟩
abbrev main_v272 : Ref sig .tc := ⟨.hbm, 397, rfl⟩
abbrev main_v273 : Ref sig .tc := ⟨.hbm, 398, rfl⟩
abbrev main_cst_104 : Ref sig .tc := ⟨.hbm, 399, rfl⟩
abbrev main_v274 : Ref sig .tc := ⟨.hbm, 400, rfl⟩
abbrev main_v275 : Ref sig .tc := ⟨.hbm, 401, rfl⟩
abbrev main_cst_105 : Ref sig .tc := ⟨.hbm, 402, rfl⟩
abbrev main_call9_v0 : Ref sig .tc := ⟨.hbm, 403, rfl⟩
abbrev main_call9_v1 : Ref sig .tc := ⟨.hbm, 404, rfl⟩
abbrev main_v276 : Ref sig .tc := ⟨.hbm, 405, rfl⟩
abbrev main_v277 : Ref sig .tc := ⟨.hbm, 406, rfl⟩
abbrev main_cst_106 : Ref sig .tc := ⟨.hbm, 407, rfl⟩
abbrev main_v278 : Ref sig .tc := ⟨.hbm, 408, rfl⟩
abbrev main_cst_107 : Ref sig .tc := ⟨.hbm, 409, rfl⟩
abbrev main_v279 : Ref sig .tc := ⟨.hbm, 410, rfl⟩
abbrev main_v280 : Ref sig .tc := ⟨.hbm, 411, rfl⟩
abbrev main_v281 : Ref sig .tc := ⟨.hbm, 412, rfl⟩
abbrev main_cst_108 : Ref sig .tc := ⟨.hbm, 413, rfl⟩
abbrev main_v282 : Ref sig .tc := ⟨.hbm, 414, rfl⟩
abbrev main_v283 : Ref sig .tc := ⟨.hbm, 415, rfl⟩
abbrev main_v284 : Ref sig .tc := ⟨.hbm, 416, rfl⟩
abbrev main_cst_109 : Ref sig .tc := ⟨.hbm, 417, rfl⟩
abbrev main_v285 : Ref sig .tc := ⟨.hbm, 418, rfl⟩
abbrev main_v286 : Ref sig .tc := ⟨.hbm, 419, rfl⟩
abbrev main_cst_110 : Ref sig .tc := ⟨.hbm, 420, rfl⟩
abbrev main_v287 : Ref sig .tc := ⟨.hbm, 421, rfl⟩
abbrev main_v288 : Ref sig .tc := ⟨.hbm, 422, rfl⟩
abbrev main_v289 : Ref sig .tc := ⟨.hbm, 423, rfl⟩
abbrev main_v290 : Ref sig .tc := ⟨.hbm, 424, rfl⟩
abbrev main_v291 : Ref sig .tc := ⟨.hbm, 425, rfl⟩
abbrev main_cst_111 : Ref sig .tc := ⟨.hbm, 426, rfl⟩
abbrev main_v292 : Ref sig .tc := ⟨.hbm, 427, rfl⟩
abbrev main_v293 : Ref sig .tc := ⟨.hbm, 428, rfl⟩
abbrev main_cst_112 : Ref sig .tc := ⟨.hbm, 429, rfl⟩
abbrev main_v294 : Ref sig .tc := ⟨.hbm, 430, rfl⟩
abbrev main_v295 : Ref sig .tc := ⟨.hbm, 431, rfl⟩
abbrev main_v296 : Ref sig .tc := ⟨.hbm, 432, rfl⟩
abbrev main_cst_113 : Ref sig .tc := ⟨.hbm, 433, rfl⟩
abbrev main_v297 : Ref sig .tc := ⟨.hbm, 434, rfl⟩
abbrev main_v298 : Ref sig .tc := ⟨.hbm, 435, rfl⟩
abbrev main_v299 : Ref sig .tc := ⟨.hbm, 436, rfl⟩
abbrev main_v300 : Ref sig .tc := ⟨.hbm, 437, rfl⟩
abbrev main_cst_114 : Ref sig .tc := ⟨.hbm, 438, rfl⟩
abbrev main_v301 : Ref sig .tc := ⟨.hbm, 439, rfl⟩
abbrev main_cst_115 : Ref sig .tc := ⟨.hbm, 440, rfl⟩
abbrev main_v302 : Ref sig .tc := ⟨.hbm, 441, rfl⟩
abbrev main_v303 : Ref sig .tc := ⟨.hbm, 442, rfl⟩
abbrev main_v304 : Ref sig .tc := ⟨.hbm, 443, rfl⟩
abbrev main_v305 : Ref sig .tc := ⟨.hbm, 444, rfl⟩
abbrev main_v306 : Ref sig .tc := ⟨.hbm, 445, rfl⟩
abbrev main_cst_116 : Ref sig .tc := ⟨.hbm, 446, rfl⟩
abbrev main_v307 : Ref sig .tc := ⟨.hbm, 447, rfl⟩
abbrev main_v308 : Ref sig .tc := ⟨.hbm, 448, rfl⟩
abbrev main_cst_117 : Ref sig .tc := ⟨.hbm, 449, rfl⟩
abbrev main_call10_v0 : Ref sig .tc := ⟨.hbm, 450, rfl⟩
abbrev main_call10_v1 : Ref sig .tc := ⟨.hbm, 451, rfl⟩
abbrev main_v309 : Ref sig .tc := ⟨.hbm, 452, rfl⟩
abbrev main_v310 : Ref sig .tc := ⟨.hbm, 453, rfl⟩
abbrev main_cst_118 : Ref sig .tc := ⟨.hbm, 454, rfl⟩
abbrev main_v311 : Ref sig .tc := ⟨.hbm, 455, rfl⟩
abbrev main_cst_119 : Ref sig .tc := ⟨.hbm, 456, rfl⟩
abbrev main_v312 : Ref sig .tc := ⟨.hbm, 457, rfl⟩
abbrev main_v313 : Ref sig .tc := ⟨.hbm, 458, rfl⟩
abbrev main_v314 : Ref sig .tc := ⟨.hbm, 459, rfl⟩
abbrev main_cst_120 : Ref sig .tc := ⟨.hbm, 460, rfl⟩
abbrev main_v315 : Ref sig .tc := ⟨.hbm, 461, rfl⟩
abbrev main_v316 : Ref sig .tc := ⟨.hbm, 462, rfl⟩
abbrev main_v317 : Ref sig .tc := ⟨.hbm, 463, rfl⟩
abbrev main_cst_121 : Ref sig .tc := ⟨.hbm, 464, rfl⟩
abbrev main_v318 : Ref sig .tc := ⟨.hbm, 465, rfl⟩
abbrev main_v319 : Ref sig .tc := ⟨.hbm, 466, rfl⟩
abbrev main_cst_122 : Ref sig .tc := ⟨.hbm, 467, rfl⟩
abbrev main_v320 : Ref sig .tc := ⟨.hbm, 468, rfl⟩
abbrev main_v321 : Ref sig .tc := ⟨.hbm, 469, rfl⟩
abbrev main_v322 : Ref sig .tc := ⟨.hbm, 470, rfl⟩
abbrev main_v323 : Ref sig .tc := ⟨.hbm, 471, rfl⟩
abbrev main_v324 : Ref sig .tc := ⟨.hbm, 472, rfl⟩
abbrev main_cst_123 : Ref sig .tc := ⟨.hbm, 473, rfl⟩
abbrev main_v325 : Ref sig .tc := ⟨.hbm, 474, rfl⟩
abbrev main_v326 : Ref sig .tc := ⟨.hbm, 475, rfl⟩
abbrev main_cst_124 : Ref sig .tc := ⟨.hbm, 476, rfl⟩
abbrev main_v327 : Ref sig .tc := ⟨.hbm, 477, rfl⟩
abbrev main_v328 : Ref sig .tc := ⟨.hbm, 478, rfl⟩
abbrev main_v329 : Ref sig .tc := ⟨.hbm, 479, rfl⟩
abbrev main_cst_125 : Ref sig .tc := ⟨.hbm, 480, rfl⟩
abbrev main_v330 : Ref sig .tc := ⟨.hbm, 481, rfl⟩
abbrev main_v331 : Ref sig .tc := ⟨.hbm, 482, rfl⟩
abbrev main_v332 : Ref sig .tc := ⟨.hbm, 483, rfl⟩
abbrev main_v333 : Ref sig .tc := ⟨.hbm, 484, rfl⟩
abbrev main_cst_126 : Ref sig .tc := ⟨.hbm, 485, rfl⟩
abbrev main_v334 : Ref sig .tc := ⟨.hbm, 486, rfl⟩
abbrev main_cst_127 : Ref sig .tc := ⟨.hbm, 487, rfl⟩
abbrev main_v335 : Ref sig .tc := ⟨.hbm, 488, rfl⟩
abbrev main_v336 : Ref sig .tc := ⟨.hbm, 489, rfl⟩
abbrev main_v337 : Ref sig .tc := ⟨.hbm, 490, rfl⟩
abbrev main_v338 : Ref sig .tc := ⟨.hbm, 491, rfl⟩
abbrev main_v339 : Ref sig .tc := ⟨.hbm, 492, rfl⟩
abbrev main_cst_128 : Ref sig .tc := ⟨.hbm, 493, rfl⟩
abbrev main_v340 : Ref sig .tc := ⟨.hbm, 494, rfl⟩
abbrev main_v341 : Ref sig .tc := ⟨.hbm, 495, rfl⟩
abbrev main_cst_129 : Ref sig .tc := ⟨.hbm, 496, rfl⟩
abbrev main_call11_v0 : Ref sig .tc := ⟨.hbm, 497, rfl⟩
abbrev main_call11_v1 : Ref sig .tc := ⟨.hbm, 498, rfl⟩
abbrev main_v342 : Ref sig .tc := ⟨.hbm, 499, rfl⟩
abbrev main_v343 : Ref sig .tc := ⟨.hbm, 500, rfl⟩
abbrev main_cst_130 : Ref sig .tc := ⟨.hbm, 501, rfl⟩
abbrev main_v344 : Ref sig .tc := ⟨.hbm, 502, rfl⟩
abbrev main_cst_131 : Ref sig .tc := ⟨.hbm, 503, rfl⟩
abbrev main_v345 : Ref sig .tc := ⟨.hbm, 504, rfl⟩
abbrev main_v346 : Ref sig .tc := ⟨.hbm, 505, rfl⟩
abbrev main_v347 : Ref sig .tc := ⟨.hbm, 506, rfl⟩
abbrev main_cst_132 : Ref sig .tc := ⟨.hbm, 507, rfl⟩
abbrev main_v348 : Ref sig .tc := ⟨.hbm, 508, rfl⟩
abbrev main_v349 : Ref sig .tc := ⟨.hbm, 509, rfl⟩
abbrev main_v350 : Ref sig .tc := ⟨.hbm, 510, rfl⟩
abbrev main_cst_133 : Ref sig .tc := ⟨.hbm, 511, rfl⟩
abbrev main_v351 : Ref sig .tc := ⟨.hbm, 512, rfl⟩
abbrev main_v352 : Ref sig .tc := ⟨.hbm, 513, rfl⟩
abbrev main_v353 : Ref sig .tc := ⟨.hbm, 514, rfl⟩
abbrev main_cst_134 : Ref sig .tc := ⟨.hbm, 515, rfl⟩
abbrev main_v354 : Ref sig .tc := ⟨.hbm, 516, rfl⟩
abbrev main_v355 : Ref sig .tc := ⟨.hbm, 517, rfl⟩
abbrev main_cst_135 : Ref sig .tc := ⟨.hbm, 518, rfl⟩
abbrev main_v356 : Ref sig .tc := ⟨.hbm, 519, rfl⟩
abbrev main_v357 : Ref sig .tc := ⟨.hbm, 520, rfl⟩
abbrev main_v358 : Ref sig .tc := ⟨.hbm, 521, rfl⟩
abbrev main_cst_136 : Ref sig .tc := ⟨.hbm, 522, rfl⟩
abbrev main_v359 : Ref sig .tc := ⟨.hbm, 523, rfl⟩
abbrev main_v360 : Ref sig .tc := ⟨.hbm, 524, rfl⟩
abbrev main_cst_137 : Ref sig .tc := ⟨.hbm, 525, rfl⟩
abbrev main_v361 : Ref sig .tc := ⟨.hbm, 526, rfl⟩
abbrev main_v362 : Ref sig .tc := ⟨.hbm, 527, rfl⟩
abbrev main_v363 : Ref sig .tc := ⟨.hbm, 528, rfl⟩
abbrev main_cst_138 : Ref sig .tc := ⟨.hbm, 529, rfl⟩
abbrev main_v364 : Ref sig .tc := ⟨.hbm, 530, rfl⟩
abbrev main_v365 : Ref sig .tc := ⟨.hbm, 531, rfl⟩
abbrev main_v366 : Ref sig .tc := ⟨.hbm, 532, rfl⟩
abbrev main_v367 : Ref sig .tc := ⟨.hbm, 533, rfl⟩
abbrev main_cst_139 : Ref sig .tc := ⟨.hbm, 534, rfl⟩
abbrev main_v368 : Ref sig .tc := ⟨.hbm, 535, rfl⟩
abbrev main_cst_140 : Ref sig .tc := ⟨.hbm, 536, rfl⟩
abbrev main_v369 : Ref sig .tc := ⟨.hbm, 537, rfl⟩
abbrev main_v370 : Ref sig .tc := ⟨.hbm, 538, rfl⟩
abbrev main_v371 : Ref sig .tc := ⟨.hbm, 539, rfl⟩
abbrev main_v372 : Ref sig .tc := ⟨.hbm, 540, rfl⟩
abbrev main_v373 : Ref sig .tc := ⟨.hbm, 541, rfl⟩
abbrev main_cst_141 : Ref sig .tc := ⟨.hbm, 542, rfl⟩
abbrev main_v374 : Ref sig .tc := ⟨.hbm, 543, rfl⟩
abbrev main_v375 : Ref sig .tc := ⟨.hbm, 544, rfl⟩
abbrev main_cst_142 : Ref sig .tc := ⟨.hbm, 545, rfl⟩
abbrev main_call12_v0 : Ref sig .tc := ⟨.hbm, 546, rfl⟩
abbrev main_call12_v1 : Ref sig .tc := ⟨.hbm, 547, rfl⟩
abbrev main_v376 : Ref sig .tc := ⟨.hbm, 548, rfl⟩
abbrev main_v377 : Ref sig .tc := ⟨.hbm, 549, rfl⟩
abbrev main_cst_143 : Ref sig .tc := ⟨.hbm, 550, rfl⟩
abbrev main_v378 : Ref sig .tc := ⟨.hbm, 551, rfl⟩
abbrev main_cst_144 : Ref sig .tc := ⟨.hbm, 552, rfl⟩
abbrev main_v379 : Ref sig .tc := ⟨.hbm, 553, rfl⟩
abbrev main_v380 : Ref sig .tc := ⟨.hbm, 554, rfl⟩
abbrev main_v381 : Ref sig .tc := ⟨.hbm, 555, rfl⟩
abbrev main_cst_145 : Ref sig .tc := ⟨.hbm, 556, rfl⟩
abbrev main_v382 : Ref sig .tc := ⟨.hbm, 557, rfl⟩
abbrev main_v383 : Ref sig .tc := ⟨.hbm, 558, rfl⟩
abbrev main_v384 : Ref sig .tc := ⟨.hbm, 559, rfl⟩
abbrev main_cst_146 : Ref sig .tc := ⟨.hbm, 560, rfl⟩
abbrev main_v385 : Ref sig .tc := ⟨.hbm, 561, rfl⟩
abbrev main_v386 : Ref sig .tc := ⟨.hbm, 562, rfl⟩
abbrev main_cst_147 : Ref sig .tc := ⟨.hbm, 563, rfl⟩
abbrev main_v387 : Ref sig .tc := ⟨.hbm, 564, rfl⟩
abbrev main_v388 : Ref sig .tc := ⟨.hbm, 565, rfl⟩
abbrev main_v389 : Ref sig .tc := ⟨.hbm, 566, rfl⟩
abbrev main_v390 : Ref sig .tc := ⟨.hbm, 567, rfl⟩
abbrev main_v391 : Ref sig .tc := ⟨.hbm, 568, rfl⟩
abbrev main_cst_148 : Ref sig .tc := ⟨.hbm, 569, rfl⟩
abbrev main_v392 : Ref sig .tc := ⟨.hbm, 570, rfl⟩
abbrev main_v393 : Ref sig .tc := ⟨.hbm, 571, rfl⟩
abbrev main_cst_149 : Ref sig .tc := ⟨.hbm, 572, rfl⟩
abbrev main_v394 : Ref sig .tc := ⟨.hbm, 573, rfl⟩
abbrev main_v395 : Ref sig .tc := ⟨.hbm, 574, rfl⟩
abbrev main_v396 : Ref sig .tc := ⟨.hbm, 575, rfl⟩
abbrev main_cst_150 : Ref sig .tc := ⟨.hbm, 576, rfl⟩
abbrev main_v397 : Ref sig .tc := ⟨.hbm, 577, rfl⟩
abbrev main_v398 : Ref sig .tc := ⟨.hbm, 578, rfl⟩
abbrev main_v399 : Ref sig .tc := ⟨.hbm, 579, rfl⟩
abbrev main_v400 : Ref sig .tc := ⟨.hbm, 580, rfl⟩
abbrev main_cst_151 : Ref sig .tc := ⟨.hbm, 581, rfl⟩
abbrev main_v401 : Ref sig .tc := ⟨.hbm, 582, rfl⟩
abbrev main_cst_152 : Ref sig .tc := ⟨.hbm, 583, rfl⟩
abbrev main_v402 : Ref sig .tc := ⟨.hbm, 584, rfl⟩
abbrev main_v403 : Ref sig .tc := ⟨.hbm, 585, rfl⟩
abbrev main_v404 : Ref sig .tc := ⟨.hbm, 586, rfl⟩
abbrev main_v405 : Ref sig .tc := ⟨.hbm, 587, rfl⟩
abbrev main_v406 : Ref sig .tc := ⟨.hbm, 588, rfl⟩
abbrev main_cst_153 : Ref sig .tc := ⟨.hbm, 589, rfl⟩
abbrev main_v407 : Ref sig .tc := ⟨.hbm, 590, rfl⟩
abbrev main_v408 : Ref sig .tc := ⟨.hbm, 591, rfl⟩
abbrev main_cst_154 : Ref sig .tc := ⟨.hbm, 592, rfl⟩
abbrev main_call13_v0 : Ref sig .tc := ⟨.hbm, 593, rfl⟩
abbrev main_call13_v1 : Ref sig .tc := ⟨.hbm, 594, rfl⟩
abbrev main_v409 : Ref sig .tc := ⟨.hbm, 595, rfl⟩
abbrev main_v410 : Ref sig .tc := ⟨.hbm, 596, rfl⟩
abbrev main_cst_155 : Ref sig .tc := ⟨.hbm, 597, rfl⟩
abbrev main_v411 : Ref sig .tc := ⟨.hbm, 598, rfl⟩
abbrev main_cst_156 : Ref sig .tc := ⟨.hbm, 599, rfl⟩
abbrev main_v412 : Ref sig .tc := ⟨.hbm, 600, rfl⟩
abbrev main_v413 : Ref sig .tc := ⟨.hbm, 601, rfl⟩
abbrev main_v414 : Ref sig .tc := ⟨.hbm, 602, rfl⟩
abbrev main_cst_157 : Ref sig .tc := ⟨.hbm, 603, rfl⟩
abbrev main_v415 : Ref sig .tc := ⟨.hbm, 604, rfl⟩
abbrev main_v416 : Ref sig .tc := ⟨.hbm, 605, rfl⟩
abbrev main_v417 : Ref sig .tc := ⟨.hbm, 606, rfl⟩
abbrev main_cst_158 : Ref sig .tc := ⟨.hbm, 607, rfl⟩
abbrev main_v418 : Ref sig .tc := ⟨.hbm, 608, rfl⟩
abbrev main_v419 : Ref sig .tc := ⟨.hbm, 609, rfl⟩
abbrev main_cst_159 : Ref sig .tc := ⟨.hbm, 610, rfl⟩
abbrev main_v420 : Ref sig .tc := ⟨.hbm, 611, rfl⟩
abbrev main_v421 : Ref sig .tc := ⟨.hbm, 612, rfl⟩
abbrev main_v422 : Ref sig .tc := ⟨.hbm, 613, rfl⟩
abbrev main_v423 : Ref sig .tc := ⟨.hbm, 614, rfl⟩
abbrev main_v424 : Ref sig .tc := ⟨.hbm, 615, rfl⟩
abbrev main_cst_160 : Ref sig .tc := ⟨.hbm, 616, rfl⟩
abbrev main_v425 : Ref sig .tc := ⟨.hbm, 617, rfl⟩
abbrev main_v426 : Ref sig .tc := ⟨.hbm, 618, rfl⟩
abbrev main_cst_161 : Ref sig .tc := ⟨.hbm, 619, rfl⟩
abbrev main_v427 : Ref sig .tc := ⟨.hbm, 620, rfl⟩
abbrev main_v428 : Ref sig .tc := ⟨.hbm, 621, rfl⟩
abbrev main_v429 : Ref sig .tc := ⟨.hbm, 622, rfl⟩
abbrev main_cst_162 : Ref sig .tc := ⟨.hbm, 623, rfl⟩
abbrev main_v430 : Ref sig .tc := ⟨.hbm, 624, rfl⟩
abbrev main_v431 : Ref sig .tc := ⟨.hbm, 625, rfl⟩
abbrev main_cst_163 : Ref sig .tc := ⟨.hbm, 626, rfl⟩
abbrev main_v432 : Ref sig .tc := ⟨.hbm, 627, rfl⟩
abbrev main_v433 : Ref sig .tc := ⟨.hbm, 628, rfl⟩
abbrev main_cst_164 : Ref sig .tc := ⟨.hbm, 629, rfl⟩
abbrev main_v434 : Ref sig .tc := ⟨.hbm, 630, rfl⟩
abbrev main_cst_165 : Ref sig .tc := ⟨.hbm, 631, rfl⟩
abbrev main_v435 : Ref sig .tc := ⟨.hbm, 632, rfl⟩
abbrev main_v436 : Ref sig .tc := ⟨.hbm, 633, rfl⟩
abbrev main_v437 : Ref sig .tc := ⟨.hbm, 634, rfl⟩
abbrev main_cst_166 : Ref sig .tc := ⟨.hbm, 635, rfl⟩
abbrev main_v438 : Ref sig .tc := ⟨.hbm, 636, rfl⟩
abbrev main_v439 : Ref sig .tc := ⟨.hbm, 637, rfl⟩
abbrev main_v440 : Ref sig .tc := ⟨.hbm, 638, rfl⟩
abbrev main_cst_167 : Ref sig .tc := ⟨.hbm, 639, rfl⟩
abbrev main_v441 : Ref sig .tc := ⟨.hbm, 640, rfl⟩
abbrev main_v442 : Ref sig .tc := ⟨.hbm, 641, rfl⟩
abbrev main_v443 : Ref sig .tc := ⟨.hbm, 642, rfl⟩
abbrev main_cst_168 : Ref sig .tc := ⟨.hbm, 643, rfl⟩
abbrev main_v444 : Ref sig .tc := ⟨.hbm, 644, rfl⟩
abbrev main_v445 : Ref sig .tc := ⟨.hbm, 645, rfl⟩
abbrev main_v446 : Ref sig .tc := ⟨.hbm, 646, rfl⟩
abbrev main_v447 : Ref sig .tc := ⟨.hbm, 647, rfl⟩
abbrev main_v448 : Ref sig .tc := ⟨.hbm, 648, rfl⟩
abbrev main_cst_169 : Ref sig .tc := ⟨.hbm, 649, rfl⟩
abbrev main_v449 : Ref sig .tc := ⟨.hbm, 650, rfl⟩
abbrev main_v450 : Ref sig .tc := ⟨.hbm, 651, rfl⟩
abbrev main_cst_170 : Ref sig .tc := ⟨.hbm, 652, rfl⟩
abbrev main_call14_v0 : Ref sig .tc := ⟨.hbm, 653, rfl⟩
abbrev main_call14_v1 : Ref sig .tc := ⟨.hbm, 654, rfl⟩
abbrev main_v451 : Ref sig .tc := ⟨.hbm, 655, rfl⟩
abbrev main_v452 : Ref sig .tc := ⟨.hbm, 656, rfl⟩
abbrev main_cst_171 : Ref sig .tc := ⟨.hbm, 657, rfl⟩
abbrev main_v453 : Ref sig .tc := ⟨.hbm, 658, rfl⟩
abbrev main_cst_172 : Ref sig .tc := ⟨.hbm, 659, rfl⟩
abbrev main_v454 : Ref sig .tc := ⟨.hbm, 660, rfl⟩
abbrev main_v455 : Ref sig .tc := ⟨.hbm, 661, rfl⟩
abbrev main_v456 : Ref sig .tc := ⟨.hbm, 662, rfl⟩
abbrev main_cst_173 : Ref sig .tc := ⟨.hbm, 663, rfl⟩
abbrev main_v457 : Ref sig .tc := ⟨.hbm, 664, rfl⟩
abbrev main_v458 : Ref sig .tc := ⟨.hbm, 665, rfl⟩
abbrev main_cst_174 : Ref sig .tc := ⟨.hbm, 666, rfl⟩
abbrev main_v459 : Ref sig .tc := ⟨.hbm, 667, rfl⟩
abbrev main_v460 : Ref sig .tc := ⟨.hbm, 668, rfl⟩
abbrev main_v461 : Ref sig .tc := ⟨.hbm, 669, rfl⟩
abbrev main_cst_175 : Ref sig .tc := ⟨.hbm, 670, rfl⟩
abbrev main_v462 : Ref sig .tc := ⟨.hbm, 671, rfl⟩
abbrev main_v463 : Ref sig .tc := ⟨.hbm, 672, rfl⟩
abbrev main_v464 : Ref sig .tc := ⟨.hbm, 673, rfl⟩
abbrev main_cst_176 : Ref sig .tc := ⟨.hbm, 674, rfl⟩
abbrev main_v465 : Ref sig .tc := ⟨.hbm, 675, rfl⟩
abbrev main_cst_177 : Ref sig .tc := ⟨.hbm, 676, rfl⟩
abbrev main_v466 : Ref sig .tc := ⟨.hbm, 677, rfl⟩
abbrev main_v467 : Ref sig .tc := ⟨.hbm, 678, rfl⟩
abbrev main_v468 : Ref sig .tc := ⟨.hbm, 679, rfl⟩
abbrev main_cst_178 : Ref sig .tc := ⟨.hbm, 680, rfl⟩
abbrev main_v469 : Ref sig .tc := ⟨.hbm, 681, rfl⟩
abbrev main_v470 : Ref sig .tc := ⟨.hbm, 682, rfl⟩
abbrev main_v471 : Ref sig .tc := ⟨.hbm, 683, rfl⟩
abbrev main_cst_179 : Ref sig .tc := ⟨.hbm, 684, rfl⟩
abbrev main_v472 : Ref sig .tc := ⟨.hbm, 685, rfl⟩
abbrev main_v473 : Ref sig .tc := ⟨.hbm, 686, rfl⟩
abbrev main_v474 : Ref sig .tc := ⟨.hbm, 687, rfl⟩
abbrev main_v475 : Ref sig .tc := ⟨.hbm, 688, rfl⟩
abbrev main_v476 : Ref sig .tc := ⟨.hbm, 689, rfl⟩
abbrev main_cst_180 : Ref sig .tc := ⟨.hbm, 690, rfl⟩
abbrev main_v477 : Ref sig .tc := ⟨.hbm, 691, rfl⟩
abbrev main_v478 : Ref sig .tc := ⟨.hbm, 692, rfl⟩
abbrev main_cst_181 : Ref sig .tc := ⟨.hbm, 693, rfl⟩
abbrev main_call15_v0 : Ref sig .tc := ⟨.hbm, 694, rfl⟩
abbrev main_call15_v1 : Ref sig .tc := ⟨.hbm, 695, rfl⟩
abbrev main_v479 : Ref sig .tc := ⟨.hbm, 696, rfl⟩
abbrev main_v480 : Ref sig .tc := ⟨.hbm, 697, rfl⟩
abbrev main_cst_182 : Ref sig .tc := ⟨.hbm, 698, rfl⟩
abbrev main_v481 : Ref sig .tc := ⟨.hbm, 699, rfl⟩
abbrev main_cst_183 : Ref sig .tc := ⟨.hbm, 700, rfl⟩
abbrev main_v482 : Ref sig .tc := ⟨.hbm, 701, rfl⟩
abbrev main_v483 : Ref sig .tc := ⟨.hbm, 702, rfl⟩
abbrev main_v484 : Ref sig .tc := ⟨.hbm, 703, rfl⟩
abbrev main_cst_184 : Ref sig .tc := ⟨.hbm, 704, rfl⟩
abbrev main_v485 : Ref sig .tc := ⟨.hbm, 705, rfl⟩
abbrev main_v486 : Ref sig .tc := ⟨.hbm, 706, rfl⟩
abbrev main_cst_185 : Ref sig .tc := ⟨.hbm, 707, rfl⟩
abbrev main_v487 : Ref sig .tc := ⟨.hbm, 708, rfl⟩
abbrev main_v488 : Ref sig .tc := ⟨.hbm, 709, rfl⟩
abbrev main_v489 : Ref sig .tc := ⟨.hbm, 710, rfl⟩
abbrev main_v490 : Ref sig .tc := ⟨.hbm, 711, rfl⟩
abbrev main_v491 : Ref sig .tc := ⟨.hbm, 712, rfl⟩
abbrev main_cst_186 : Ref sig .tc := ⟨.hbm, 713, rfl⟩
abbrev main_v492 : Ref sig .tc := ⟨.hbm, 714, rfl⟩
abbrev main_v493 : Ref sig .tc := ⟨.hbm, 715, rfl⟩
abbrev main_cst_187 : Ref sig .tc := ⟨.hbm, 716, rfl⟩
abbrev main_v494 : Ref sig .tc := ⟨.hbm, 717, rfl⟩
abbrev main_v495 : Ref sig .tc := ⟨.hbm, 718, rfl⟩
abbrev main_v496 : Ref sig .tc := ⟨.hbm, 719, rfl⟩
abbrev main_cst_188 : Ref sig .tc := ⟨.hbm, 720, rfl⟩
abbrev main_v497 : Ref sig .tc := ⟨.hbm, 721, rfl⟩
abbrev main_v498 : Ref sig .tc := ⟨.hbm, 722, rfl⟩
abbrev main_v499 : Ref sig .tc := ⟨.hbm, 723, rfl⟩
abbrev main_cst_189 : Ref sig .tc := ⟨.hbm, 724, rfl⟩
abbrev main_v500 : Ref sig .tc := ⟨.hbm, 725, rfl⟩
abbrev main_cst_190 : Ref sig .tc := ⟨.hbm, 726, rfl⟩
abbrev main_v501 : Ref sig .tc := ⟨.hbm, 727, rfl⟩
abbrev main_v502 : Ref sig .tc := ⟨.hbm, 728, rfl⟩
abbrev main_v503 : Ref sig .tc := ⟨.hbm, 729, rfl⟩
abbrev main_cst_191 : Ref sig .tc := ⟨.hbm, 730, rfl⟩
abbrev main_v504 : Ref sig .tc := ⟨.hbm, 731, rfl⟩
abbrev main_v505 : Ref sig .tc := ⟨.hbm, 732, rfl⟩
abbrev main_v506 : Ref sig .tc := ⟨.hbm, 733, rfl⟩
abbrev main_cst_192 : Ref sig .tc := ⟨.hbm, 734, rfl⟩
abbrev main_v507 : Ref sig .tc := ⟨.hbm, 735, rfl⟩
abbrev main_v508 : Ref sig .tc := ⟨.hbm, 736, rfl⟩
abbrev main_v509 : Ref sig .tc := ⟨.hbm, 737, rfl⟩
abbrev main_v510 : Ref sig .tc := ⟨.hbm, 738, rfl⟩
abbrev main_v511 : Ref sig .tc := ⟨.hbm, 739, rfl⟩
abbrev main_cst_193 : Ref sig .tc := ⟨.hbm, 740, rfl⟩
abbrev main_v512 : Ref sig .tc := ⟨.hbm, 741, rfl⟩
abbrev main_v513 : Ref sig .tc := ⟨.hbm, 742, rfl⟩
abbrev main_cst_194 : Ref sig .tc := ⟨.hbm, 743, rfl⟩
abbrev main_call16_v0 : Ref sig .tc := ⟨.hbm, 744, rfl⟩
abbrev main_call16_v1 : Ref sig .tc := ⟨.hbm, 745, rfl⟩
abbrev main_v514 : Ref sig .tc := ⟨.hbm, 746, rfl⟩
abbrev main_v515 : Ref sig .tc := ⟨.hbm, 747, rfl⟩
abbrev main_cst_195 : Ref sig .tc := ⟨.hbm, 748, rfl⟩
abbrev main_v516 : Ref sig .tc := ⟨.hbm, 749, rfl⟩
abbrev main_cst_196 : Ref sig .tc := ⟨.hbm, 750, rfl⟩
abbrev main_v517 : Ref sig .tc := ⟨.hbm, 751, rfl⟩
abbrev main_v518 : Ref sig .tc := ⟨.hbm, 752, rfl⟩
abbrev main_v519 : Ref sig .tc := ⟨.hbm, 753, rfl⟩
abbrev main_cst_197 : Ref sig .tc := ⟨.hbm, 754, rfl⟩
abbrev main_v520 : Ref sig .tc := ⟨.hbm, 755, rfl⟩
abbrev main_v521 : Ref sig .tc := ⟨.hbm, 756, rfl⟩
abbrev main_v522 : Ref sig .tc := ⟨.hbm, 757, rfl⟩
abbrev main_cst_198 : Ref sig .tc := ⟨.hbm, 758, rfl⟩
abbrev main_v523 : Ref sig .tc := ⟨.hbm, 759, rfl⟩
abbrev main_v524 : Ref sig .tc := ⟨.hbm, 760, rfl⟩
abbrev main_cst_199 : Ref sig .tc := ⟨.hbm, 761, rfl⟩
abbrev main_v525 : Ref sig .tc := ⟨.hbm, 762, rfl⟩
abbrev main_v526 : Ref sig .tc := ⟨.hbm, 763, rfl⟩
abbrev main_v527 : Ref sig .tc := ⟨.hbm, 764, rfl⟩
abbrev main_cst_200 : Ref sig .tc := ⟨.hbm, 765, rfl⟩
abbrev main_v528 : Ref sig .tc := ⟨.hbm, 766, rfl⟩
abbrev main_v529 : Ref sig .tc := ⟨.hbm, 767, rfl⟩
abbrev main_v530 : Ref sig .tc := ⟨.hbm, 768, rfl⟩
abbrev main_cst_201 : Ref sig .tc := ⟨.hbm, 769, rfl⟩
abbrev main_v531 : Ref sig .tc := ⟨.hbm, 770, rfl⟩
abbrev main_cst_202 : Ref sig .tc := ⟨.hbm, 771, rfl⟩
abbrev main_v532 : Ref sig .tc := ⟨.hbm, 772, rfl⟩
abbrev main_v533 : Ref sig .tc := ⟨.hbm, 773, rfl⟩
abbrev main_v534 : Ref sig .tc := ⟨.hbm, 774, rfl⟩
abbrev main_cst_203 : Ref sig .tc := ⟨.hbm, 775, rfl⟩
abbrev main_v535 : Ref sig .tc := ⟨.hbm, 776, rfl⟩
abbrev main_v536 : Ref sig .tc := ⟨.hbm, 777, rfl⟩
abbrev main_v537 : Ref sig .tc := ⟨.hbm, 778, rfl⟩
abbrev main_cst_204 : Ref sig .tc := ⟨.hbm, 779, rfl⟩
abbrev main_v538 : Ref sig .tc := ⟨.hbm, 780, rfl⟩
abbrev main_v539 : Ref sig .tc := ⟨.hbm, 781, rfl⟩
abbrev main_v540 : Ref sig .tc := ⟨.hbm, 782, rfl⟩
abbrev main_v541 : Ref sig .tc := ⟨.hbm, 783, rfl⟩
abbrev main_v542 : Ref sig .tc := ⟨.hbm, 784, rfl⟩
abbrev main_cst_205 : Ref sig .tc := ⟨.hbm, 785, rfl⟩
abbrev main_v543 : Ref sig .tc := ⟨.hbm, 786, rfl⟩
abbrev main_v544 : Ref sig .tc := ⟨.hbm, 787, rfl⟩
abbrev main_cst_206 : Ref sig .tc := ⟨.hbm, 788, rfl⟩
abbrev main_call17_v0 : Ref sig .tc := ⟨.hbm, 789, rfl⟩
abbrev main_call17_v1 : Ref sig .tc := ⟨.hbm, 790, rfl⟩
abbrev main_v545 : Ref sig .tc := ⟨.hbm, 791, rfl⟩
abbrev main_v546 : Ref sig .tc := ⟨.hbm, 792, rfl⟩
abbrev main_cst_207 : Ref sig .tc := ⟨.hbm, 793, rfl⟩
abbrev main_v547 : Ref sig .tc := ⟨.hbm, 794, rfl⟩
abbrev main_cst_208 : Ref sig .tc := ⟨.hbm, 795, rfl⟩
abbrev main_v548 : Ref sig .tc := ⟨.hbm, 796, rfl⟩
abbrev main_v549 : Ref sig .tc := ⟨.hbm, 797, rfl⟩
abbrev main_v550 : Ref sig .tc := ⟨.hbm, 798, rfl⟩
abbrev main_cst_209 : Ref sig .tc := ⟨.hbm, 799, rfl⟩
abbrev main_v551 : Ref sig .tc := ⟨.hbm, 800, rfl⟩
abbrev main_v552 : Ref sig .tc := ⟨.hbm, 801, rfl⟩
abbrev main_cst_210 : Ref sig .tc := ⟨.hbm, 802, rfl⟩
abbrev main_v553 : Ref sig .tc := ⟨.hbm, 803, rfl⟩
abbrev main_v554 : Ref sig .tc := ⟨.hbm, 804, rfl⟩
abbrev main_v555 : Ref sig .tc := ⟨.hbm, 805, rfl⟩
abbrev main_v556 : Ref sig .tc := ⟨.hbm, 806, rfl⟩
abbrev main_v557 : Ref sig .tc := ⟨.hbm, 807, rfl⟩
abbrev main_cst_211 : Ref sig .tc := ⟨.hbm, 808, rfl⟩
abbrev main_v558 : Ref sig .tc := ⟨.hbm, 809, rfl⟩
abbrev main_v559 : Ref sig .tc := ⟨.hbm, 810, rfl⟩
abbrev main_cst_212 : Ref sig .tc := ⟨.hbm, 811, rfl⟩
abbrev main_v560 : Ref sig .tc := ⟨.hbm, 812, rfl⟩
abbrev main_v561 : Ref sig .tc := ⟨.hbm, 813, rfl⟩
abbrev main_v562 : Ref sig .tc := ⟨.hbm, 814, rfl⟩
abbrev main_cst_213 : Ref sig .tc := ⟨.hbm, 815, rfl⟩
abbrev main_v563 : Ref sig .tc := ⟨.hbm, 816, rfl⟩
abbrev main_v564 : Ref sig .tc := ⟨.hbm, 817, rfl⟩
abbrev main_v565 : Ref sig .tc := ⟨.hbm, 818, rfl⟩
abbrev main_v566 : Ref sig .tc := ⟨.hbm, 819, rfl⟩
abbrev main_cst_214 : Ref sig .tc := ⟨.hbm, 820, rfl⟩
abbrev main_v567 : Ref sig .tc := ⟨.hbm, 821, rfl⟩
abbrev main_cst_215 : Ref sig .tc := ⟨.hbm, 822, rfl⟩
abbrev main_v568 : Ref sig .tc := ⟨.hbm, 823, rfl⟩
abbrev main_v569 : Ref sig .tc := ⟨.hbm, 824, rfl⟩
abbrev main_v570 : Ref sig .tc := ⟨.hbm, 825, rfl⟩
abbrev main_cst_216 : Ref sig .tc := ⟨.hbm, 826, rfl⟩
abbrev main_v571 : Ref sig .tc := ⟨.hbm, 827, rfl⟩
abbrev main_v572 : Ref sig .tc := ⟨.hbm, 828, rfl⟩
abbrev main_v573 : Ref sig .tc := ⟨.hbm, 829, rfl⟩
abbrev main_v574 : Ref sig .tc := ⟨.hbm, 830, rfl⟩
abbrev main_v575 : Ref sig .tc := ⟨.hbm, 831, rfl⟩
abbrev main_cst_217 : Ref sig .tc := ⟨.hbm, 832, rfl⟩
abbrev main_v576 : Ref sig .tc := ⟨.hbm, 833, rfl⟩
abbrev main_v577 : Ref sig .tc := ⟨.hbm, 834, rfl⟩
abbrev main_cst_218 : Ref sig .tc := ⟨.hbm, 835, rfl⟩
abbrev main_call18_v0 : Ref sig .tc := ⟨.hbm, 836, rfl⟩
abbrev main_call18_v1 : Ref sig .tc := ⟨.hbm, 837, rfl⟩
abbrev main_v578 : Ref sig .tc := ⟨.hbm, 838, rfl⟩
abbrev main_v579 : Ref sig .tc := ⟨.hbm, 839, rfl⟩
abbrev main_cst_219 : Ref sig .tc := ⟨.hbm, 840, rfl⟩
abbrev main_v580 : Ref sig .tc := ⟨.hbm, 841, rfl⟩
abbrev main_cst_220 : Ref sig .tc := ⟨.hbm, 842, rfl⟩
abbrev main_v581 : Ref sig .tc := ⟨.hbm, 843, rfl⟩
abbrev main_v582 : Ref sig .tc := ⟨.hbm, 844, rfl⟩
abbrev main_v583 : Ref sig .tc := ⟨.hbm, 845, rfl⟩
abbrev main_cst_221 : Ref sig .tc := ⟨.hbm, 846, rfl⟩
abbrev main_v584 : Ref sig .tc := ⟨.hbm, 847, rfl⟩
abbrev main_v585 : Ref sig .tc := ⟨.hbm, 848, rfl⟩
abbrev main_v586 : Ref sig .tc := ⟨.hbm, 849, rfl⟩
abbrev main_cst_222 : Ref sig .tc := ⟨.hbm, 850, rfl⟩
abbrev main_v587 : Ref sig .tc := ⟨.hbm, 851, rfl⟩
abbrev main_v588 : Ref sig .tc := ⟨.hbm, 852, rfl⟩
abbrev main_cst_223 : Ref sig .tc := ⟨.hbm, 853, rfl⟩
abbrev main_v589 : Ref sig .tc := ⟨.hbm, 854, rfl⟩
abbrev main_v590 : Ref sig .tc := ⟨.hbm, 855, rfl⟩
abbrev main_v591 : Ref sig .tc := ⟨.hbm, 856, rfl⟩
abbrev main_v592 : Ref sig .tc := ⟨.hbm, 857, rfl⟩
abbrev main_v593 : Ref sig .tc := ⟨.hbm, 858, rfl⟩
abbrev main_cst_224 : Ref sig .tc := ⟨.hbm, 859, rfl⟩
abbrev main_v594 : Ref sig .tc := ⟨.hbm, 860, rfl⟩
abbrev main_v595 : Ref sig .tc := ⟨.hbm, 861, rfl⟩
abbrev main_cst_225 : Ref sig .tc := ⟨.hbm, 862, rfl⟩
abbrev main_v596 : Ref sig .tc := ⟨.hbm, 863, rfl⟩
abbrev main_v597 : Ref sig .tc := ⟨.hbm, 864, rfl⟩
abbrev main_v598 : Ref sig .tc := ⟨.hbm, 865, rfl⟩
abbrev main_cst_226 : Ref sig .tc := ⟨.hbm, 866, rfl⟩
abbrev main_v599 : Ref sig .tc := ⟨.hbm, 867, rfl⟩
abbrev main_v600 : Ref sig .tc := ⟨.hbm, 868, rfl⟩
abbrev main_v601 : Ref sig .tc := ⟨.hbm, 869, rfl⟩
abbrev main_v602 : Ref sig .tc := ⟨.hbm, 870, rfl⟩
abbrev main_cst_227 : Ref sig .tc := ⟨.hbm, 871, rfl⟩
abbrev main_v603 : Ref sig .tc := ⟨.hbm, 872, rfl⟩
abbrev main_cst_228 : Ref sig .tc := ⟨.hbm, 873, rfl⟩
abbrev main_v604 : Ref sig .tc := ⟨.hbm, 874, rfl⟩
abbrev main_v605 : Ref sig .tc := ⟨.hbm, 875, rfl⟩
abbrev main_v606 : Ref sig .tc := ⟨.hbm, 876, rfl⟩
abbrev main_cst_229 : Ref sig .tc := ⟨.hbm, 877, rfl⟩
abbrev main_v607 : Ref sig .tc := ⟨.hbm, 878, rfl⟩
abbrev main_v608 : Ref sig .tc := ⟨.hbm, 879, rfl⟩
abbrev main_v609 : Ref sig .tc := ⟨.hbm, 880, rfl⟩
abbrev main_v610 : Ref sig .tc := ⟨.hbm, 881, rfl⟩
abbrev main_v611 : Ref sig .tc := ⟨.hbm, 882, rfl⟩
abbrev main_cst_230 : Ref sig .tc := ⟨.hbm, 883, rfl⟩
abbrev main_v612 : Ref sig .tc := ⟨.hbm, 884, rfl⟩
abbrev main_v613 : Ref sig .tc := ⟨.hbm, 885, rfl⟩
abbrev main_cst_231 : Ref sig .tc := ⟨.hbm, 886, rfl⟩
abbrev main_call19_v0 : Ref sig .tc := ⟨.hbm, 887, rfl⟩
abbrev main_call19_v1 : Ref sig .tc := ⟨.hbm, 888, rfl⟩
abbrev main_v614 : Ref sig .tc := ⟨.hbm, 889, rfl⟩
abbrev main_v615 : Ref sig .tc := ⟨.hbm, 890, rfl⟩
abbrev main_cst_232 : Ref sig .tc := ⟨.hbm, 891, rfl⟩
abbrev main_v616 : Ref sig .tc := ⟨.hbm, 892, rfl⟩
abbrev main_cst_233 : Ref sig .tc := ⟨.hbm, 893, rfl⟩
abbrev main_v617 : Ref sig .tc := ⟨.hbm, 894, rfl⟩
abbrev main_v618 : Ref sig .tc := ⟨.hbm, 895, rfl⟩
abbrev main_v619 : Ref sig .tc := ⟨.hbm, 896, rfl⟩
abbrev main_cst_234 : Ref sig .tc := ⟨.hbm, 897, rfl⟩
abbrev main_v620 : Ref sig .tc := ⟨.hbm, 898, rfl⟩
abbrev main_v621 : Ref sig .tc := ⟨.hbm, 899, rfl⟩
abbrev main_v622 : Ref sig .tc := ⟨.hbm, 900, rfl⟩
abbrev main_cst_235 : Ref sig .tc := ⟨.hbm, 901, rfl⟩
abbrev main_v623 : Ref sig .tc := ⟨.hbm, 902, rfl⟩
abbrev main_v624 : Ref sig .tc := ⟨.hbm, 903, rfl⟩
abbrev main_cst_236 : Ref sig .tc := ⟨.hbm, 904, rfl⟩
abbrev main_v625 : Ref sig .tc := ⟨.hbm, 905, rfl⟩
abbrev main_v626 : Ref sig .tc := ⟨.hbm, 906, rfl⟩
abbrev main_v627 : Ref sig .tc := ⟨.hbm, 907, rfl⟩
abbrev main_v628 : Ref sig .tc := ⟨.hbm, 908, rfl⟩
abbrev main_v629 : Ref sig .tc := ⟨.hbm, 909, rfl⟩
abbrev main_cst_237 : Ref sig .tc := ⟨.hbm, 910, rfl⟩
abbrev main_v630 : Ref sig .tc := ⟨.hbm, 911, rfl⟩
abbrev main_v631 : Ref sig .tc := ⟨.hbm, 912, rfl⟩
abbrev main_cst_238 : Ref sig .tc := ⟨.hbm, 913, rfl⟩
abbrev main_v632 : Ref sig .tc := ⟨.hbm, 914, rfl⟩
abbrev main_v633 : Ref sig .tc := ⟨.hbm, 915, rfl⟩
abbrev main_v634 : Ref sig .tc := ⟨.hbm, 916, rfl⟩
abbrev main_cst_239 : Ref sig .tc := ⟨.hbm, 917, rfl⟩
abbrev main_v635 : Ref sig .tc := ⟨.hbm, 918, rfl⟩
abbrev main_v636 : Ref sig .tc := ⟨.hbm, 919, rfl⟩
abbrev main_v637 : Ref sig .tc := ⟨.hbm, 920, rfl⟩
abbrev main_v638 : Ref sig .tc := ⟨.hbm, 921, rfl⟩
abbrev main_cst_240 : Ref sig .tc := ⟨.hbm, 922, rfl⟩
abbrev main_v639 : Ref sig .tc := ⟨.hbm, 923, rfl⟩
abbrev main_cst_241 : Ref sig .tc := ⟨.hbm, 924, rfl⟩
abbrev main_v640 : Ref sig .tc := ⟨.hbm, 925, rfl⟩
abbrev main_v641 : Ref sig .tc := ⟨.hbm, 926, rfl⟩
abbrev main_v642 : Ref sig .tc := ⟨.hbm, 927, rfl⟩
abbrev main_cst_242 : Ref sig .tc := ⟨.hbm, 928, rfl⟩
abbrev main_v643 : Ref sig .tc := ⟨.hbm, 929, rfl⟩
abbrev main_v644 : Ref sig .tc := ⟨.hbm, 930, rfl⟩
abbrev main_v645 : Ref sig .tc := ⟨.hbm, 931, rfl⟩
abbrev main_v646 : Ref sig .tc := ⟨.hbm, 932, rfl⟩
abbrev main_v647 : Ref sig .tc := ⟨.hbm, 933, rfl⟩
abbrev main_cst_243 : Ref sig .tc := ⟨.hbm, 934, rfl⟩
abbrev main_v648 : Ref sig .tc := ⟨.hbm, 935, rfl⟩
abbrev main_v649 : Ref sig .tc := ⟨.hbm, 936, rfl⟩
abbrev main_cst_244 : Ref sig .tc := ⟨.hbm, 937, rfl⟩
abbrev main_call20_v0 : Ref sig .tc := ⟨.hbm, 938, rfl⟩
abbrev main_call20_v1 : Ref sig .tc := ⟨.hbm, 939, rfl⟩
abbrev main_v650 : Ref sig .tc := ⟨.hbm, 940, rfl⟩
abbrev main_v651 : Ref sig .tc := ⟨.hbm, 941, rfl⟩
abbrev main_cst_245 : Ref sig .tc := ⟨.hbm, 942, rfl⟩
abbrev main_v652 : Ref sig .tc := ⟨.hbm, 943, rfl⟩
abbrev main_cst_246 : Ref sig .tc := ⟨.hbm, 944, rfl⟩
abbrev main_v653 : Ref sig .tc := ⟨.hbm, 945, rfl⟩
abbrev main_v654 : Ref sig .tc := ⟨.hbm, 946, rfl⟩
abbrev main_v655 : Ref sig .tc := ⟨.hbm, 947, rfl⟩
abbrev main_cst_247 : Ref sig .tc := ⟨.hbm, 948, rfl⟩
abbrev main_v656 : Ref sig .tc := ⟨.hbm, 949, rfl⟩
abbrev main_v657 : Ref sig .tc := ⟨.hbm, 950, rfl⟩
abbrev main_v658 : Ref sig .tc := ⟨.hbm, 951, rfl⟩
abbrev main_cst_248 : Ref sig .tc := ⟨.hbm, 952, rfl⟩
abbrev main_v659 : Ref sig .tc := ⟨.hbm, 953, rfl⟩
abbrev main_v660 : Ref sig .tc := ⟨.hbm, 954, rfl⟩
abbrev main_v661 : Ref sig .tc := ⟨.hbm, 955, rfl⟩
abbrev main_cst_249 : Ref sig .tc := ⟨.hbm, 956, rfl⟩
abbrev main_v662 : Ref sig .tc := ⟨.hbm, 957, rfl⟩
abbrev main_v663 : Ref sig .tc := ⟨.hbm, 958, rfl⟩
abbrev main_cst_250 : Ref sig .tc := ⟨.hbm, 959, rfl⟩
abbrev main_v664 : Ref sig .tc := ⟨.hbm, 960, rfl⟩
abbrev main_v665 : Ref sig .tc := ⟨.hbm, 961, rfl⟩
abbrev main_v666 : Ref sig .tc := ⟨.hbm, 962, rfl⟩
abbrev main_cst_251 : Ref sig .tc := ⟨.hbm, 963, rfl⟩
abbrev main_v667 : Ref sig .tc := ⟨.hbm, 964, rfl⟩
abbrev main_v668 : Ref sig .tc := ⟨.hbm, 965, rfl⟩
abbrev main_cst_252 : Ref sig .tc := ⟨.hbm, 966, rfl⟩
abbrev main_v669 : Ref sig .tc := ⟨.hbm, 967, rfl⟩
abbrev main_v670 : Ref sig .tc := ⟨.hbm, 968, rfl⟩
abbrev main_v671 : Ref sig .tc := ⟨.hbm, 969, rfl⟩
abbrev main_cst_253 : Ref sig .tc := ⟨.hbm, 970, rfl⟩
abbrev main_v672 : Ref sig .tc := ⟨.hbm, 971, rfl⟩
abbrev main_v673 : Ref sig .tc := ⟨.hbm, 972, rfl⟩
abbrev main_v674 : Ref sig .tc := ⟨.hbm, 973, rfl⟩
abbrev main_v675 : Ref sig .tc := ⟨.hbm, 974, rfl⟩
abbrev main_cst_254 : Ref sig .tc := ⟨.hbm, 975, rfl⟩
abbrev main_v676 : Ref sig .tc := ⟨.hbm, 976, rfl⟩
abbrev main_cst_255 : Ref sig .tc := ⟨.hbm, 977, rfl⟩
abbrev main_v677 : Ref sig .tc := ⟨.hbm, 978, rfl⟩
abbrev main_v678 : Ref sig .tc := ⟨.hbm, 979, rfl⟩
abbrev main_v679 : Ref sig .tc := ⟨.hbm, 980, rfl⟩
abbrev main_cst_256 : Ref sig .tc := ⟨.hbm, 981, rfl⟩
abbrev main_v680 : Ref sig .tc := ⟨.hbm, 982, rfl⟩
abbrev main_v681 : Ref sig .tc := ⟨.hbm, 983, rfl⟩
abbrev main_v682 : Ref sig .tc := ⟨.hbm, 984, rfl⟩
abbrev main_v683 : Ref sig .tc := ⟨.hbm, 985, rfl⟩
abbrev main_v684 : Ref sig .tc := ⟨.hbm, 986, rfl⟩
abbrev main_cst_257 : Ref sig .tc := ⟨.hbm, 987, rfl⟩
abbrev main_v685 : Ref sig .tc := ⟨.hbm, 988, rfl⟩
abbrev main_v686 : Ref sig .tc := ⟨.hbm, 989, rfl⟩
abbrev main_cst_258 : Ref sig .tc := ⟨.hbm, 990, rfl⟩
abbrev main_call21_v0 : Ref sig .tc := ⟨.hbm, 991, rfl⟩
abbrev main_call21_v1 : Ref sig .tc := ⟨.hbm, 992, rfl⟩
abbrev main_v687 : Ref sig .tc := ⟨.hbm, 993, rfl⟩
abbrev main_v688 : Ref sig .tc := ⟨.hbm, 994, rfl⟩
abbrev main_cst_259 : Ref sig .tc := ⟨.hbm, 995, rfl⟩
abbrev main_v689 : Ref sig .tc := ⟨.hbm, 996, rfl⟩
abbrev main_cst_260 : Ref sig .tc := ⟨.hbm, 997, rfl⟩
abbrev main_v690 : Ref sig .tc := ⟨.hbm, 998, rfl⟩
abbrev main_v691 : Ref sig .tc := ⟨.hbm, 999, rfl⟩
abbrev main_v692 : Ref sig .tc := ⟨.hbm, 1000, rfl⟩
abbrev main_cst_261 : Ref sig .tc := ⟨.hbm, 1001, rfl⟩
abbrev main_v693 : Ref sig .tc := ⟨.hbm, 1002, rfl⟩
abbrev main_v694 : Ref sig .tc := ⟨.hbm, 1003, rfl⟩
abbrev main_v695 : Ref sig .tc := ⟨.hbm, 1004, rfl⟩
abbrev main_cst_262 : Ref sig .tc := ⟨.hbm, 1005, rfl⟩
abbrev main_v696 : Ref sig .tc := ⟨.hbm, 1006, rfl⟩
abbrev main_v697 : Ref sig .tc := ⟨.hbm, 1007, rfl⟩
abbrev main_cst_263 : Ref sig .tc := ⟨.hbm, 1008, rfl⟩
abbrev main_v698 : Ref sig .tc := ⟨.hbm, 1009, rfl⟩
abbrev main_v699 : Ref sig .tc := ⟨.hbm, 1010, rfl⟩
abbrev main_v700 : Ref sig .tc := ⟨.hbm, 1011, rfl⟩
abbrev main_v701 : Ref sig .tc := ⟨.hbm, 1012, rfl⟩
abbrev main_v702 : Ref sig .tc := ⟨.hbm, 1013, rfl⟩
abbrev main_cst_264 : Ref sig .tc := ⟨.hbm, 1014, rfl⟩
abbrev main_v703 : Ref sig .tc := ⟨.hbm, 1015, rfl⟩
abbrev main_v704 : Ref sig .tc := ⟨.hbm, 1016, rfl⟩
abbrev main_cst_265 : Ref sig .tc := ⟨.hbm, 1017, rfl⟩
abbrev main_v705 : Ref sig .tc := ⟨.hbm, 1018, rfl⟩
abbrev main_v706 : Ref sig .tc := ⟨.hbm, 1019, rfl⟩
abbrev main_v707 : Ref sig .tc := ⟨.hbm, 1020, rfl⟩
abbrev main_cst_266 : Ref sig .tc := ⟨.hbm, 1021, rfl⟩
abbrev main_v708 : Ref sig .tc := ⟨.hbm, 1022, rfl⟩
abbrev main_v709 : Ref sig .tc := ⟨.hbm, 1023, rfl⟩
abbrev main_v710 : Ref sig .tc := ⟨.hbm, 1024, rfl⟩
abbrev main_v711 : Ref sig .tc := ⟨.hbm, 1025, rfl⟩
abbrev main_cst_267 : Ref sig .tc := ⟨.hbm, 1026, rfl⟩
abbrev main_v712 : Ref sig .tc := ⟨.hbm, 1027, rfl⟩
abbrev main_cst_268 : Ref sig .tc := ⟨.hbm, 1028, rfl⟩
abbrev main_v713 : Ref sig .tc := ⟨.hbm, 1029, rfl⟩
abbrev main_v714 : Ref sig .tc := ⟨.hbm, 1030, rfl⟩
abbrev main_v715 : Ref sig .tc := ⟨.hbm, 1031, rfl⟩
abbrev main_cst_269 : Ref sig .tc := ⟨.hbm, 1032, rfl⟩
abbrev main_v716 : Ref sig .tc := ⟨.hbm, 1033, rfl⟩
abbrev main_v717 : Ref sig .tc := ⟨.hbm, 1034, rfl⟩
abbrev main_v718 : Ref sig .tc := ⟨.hbm, 1035, rfl⟩
abbrev main_v719 : Ref sig .tc := ⟨.hbm, 1036, rfl⟩
abbrev main_v720 : Ref sig .tc := ⟨.hbm, 1037, rfl⟩
abbrev main_cst_270 : Ref sig .tc := ⟨.hbm, 1038, rfl⟩
abbrev main_v721 : Ref sig .tc := ⟨.hbm, 1039, rfl⟩
abbrev main_v722 : Ref sig .tc := ⟨.hbm, 1040, rfl⟩
abbrev main_cst_271 : Ref sig .tc := ⟨.hbm, 1041, rfl⟩
abbrev main_call22_v0 : Ref sig .tc := ⟨.hbm, 1042, rfl⟩
abbrev main_call22_v1 : Ref sig .tc := ⟨.hbm, 1043, rfl⟩
abbrev main_v723 : Ref sig .tc := ⟨.hbm, 1044, rfl⟩
abbrev main_v724 : Ref sig .tc := ⟨.hbm, 1045, rfl⟩
abbrev main_cst_272 : Ref sig .tc := ⟨.hbm, 1046, rfl⟩
abbrev main_v725 : Ref sig .tc := ⟨.hbm, 1047, rfl⟩
abbrev main_cst_273 : Ref sig .tc := ⟨.hbm, 1048, rfl⟩
abbrev main_v726 : Ref sig .tc := ⟨.hbm, 1049, rfl⟩
abbrev main_v727 : Ref sig .tc := ⟨.hbm, 1050, rfl⟩
abbrev main_v728 : Ref sig .tc := ⟨.hbm, 1051, rfl⟩
abbrev main_cst_274 : Ref sig .tc := ⟨.hbm, 1052, rfl⟩
abbrev main_v729 : Ref sig .tc := ⟨.hbm, 1053, rfl⟩
abbrev main_v730 : Ref sig .tc := ⟨.hbm, 1054, rfl⟩
abbrev main_v731 : Ref sig .tc := ⟨.hbm, 1055, rfl⟩
abbrev main_cst_275 : Ref sig .tc := ⟨.hbm, 1056, rfl⟩
abbrev main_v732 : Ref sig .tc := ⟨.hbm, 1057, rfl⟩
abbrev main_v733 : Ref sig .tc := ⟨.hbm, 1058, rfl⟩
abbrev main_cst_276 : Ref sig .tc := ⟨.hbm, 1059, rfl⟩
abbrev main_v734 : Ref sig .tc := ⟨.hbm, 1060, rfl⟩
abbrev main_v735 : Ref sig .tc := ⟨.hbm, 1061, rfl⟩
abbrev main_v736 : Ref sig .tc := ⟨.hbm, 1062, rfl⟩
abbrev main_v737 : Ref sig .tc := ⟨.hbm, 1063, rfl⟩
abbrev main_v738 : Ref sig .tc := ⟨.hbm, 1064, rfl⟩
abbrev main_cst_277 : Ref sig .tc := ⟨.hbm, 1065, rfl⟩
abbrev main_v739 : Ref sig .tc := ⟨.hbm, 1066, rfl⟩
abbrev main_v740 : Ref sig .tc := ⟨.hbm, 1067, rfl⟩
abbrev main_cst_278 : Ref sig .tc := ⟨.hbm, 1068, rfl⟩
abbrev main_v741 : Ref sig .tc := ⟨.hbm, 1069, rfl⟩
abbrev main_v742 : Ref sig .tc := ⟨.hbm, 1070, rfl⟩
abbrev main_v743 : Ref sig .tc := ⟨.hbm, 1071, rfl⟩
abbrev main_cst_279 : Ref sig .tc := ⟨.hbm, 1072, rfl⟩
abbrev main_v744 : Ref sig .tc := ⟨.hbm, 1073, rfl⟩
abbrev main_v745 : Ref sig .tc := ⟨.hbm, 1074, rfl⟩
abbrev main_v746 : Ref sig .tc := ⟨.hbm, 1075, rfl⟩
abbrev main_v747 : Ref sig .tc := ⟨.hbm, 1076, rfl⟩
abbrev main_v748 : Ref sig .tc := ⟨.hbm, 1077, rfl⟩
abbrev main_cst_280 : Ref sig .tc := ⟨.hbm, 1078, rfl⟩
abbrev main_v749 : Ref sig .tc := ⟨.hbm, 1079, rfl⟩
abbrev main_cst_281 : Ref sig .tc := ⟨.hbm, 1080, rfl⟩
abbrev main_v750 : Ref sig .tc := ⟨.hbm, 1081, rfl⟩
abbrev main_v751 : Ref sig .tc := ⟨.hbm, 1082, rfl⟩
abbrev main_v752 : Ref sig .tc := ⟨.hbm, 1083, rfl⟩
abbrev main_v753 : Ref sig .tc := ⟨.hbm, 1084, rfl⟩
abbrev main_v754 : Ref sig .tc := ⟨.hbm, 1085, rfl⟩
abbrev main_cst_282 : Ref sig .tc := ⟨.hbm, 1086, rfl⟩
abbrev main_v755 : Ref sig .tc := ⟨.hbm, 1087, rfl⟩
abbrev main_v756 : Ref sig .tc := ⟨.hbm, 1088, rfl⟩
abbrev main_cst_283 : Ref sig .tc := ⟨.hbm, 1089, rfl⟩
abbrev main_call23_v0 : Ref sig .tc := ⟨.hbm, 1090, rfl⟩
abbrev main_call23_v1 : Ref sig .tc := ⟨.hbm, 1091, rfl⟩
abbrev main_v757 : Ref sig .tc := ⟨.hbm, 1092, rfl⟩
abbrev main_v758 : Ref sig .tc := ⟨.hbm, 1093, rfl⟩
abbrev main_cst_284 : Ref sig .tc := ⟨.hbm, 1094, rfl⟩
abbrev main_v759 : Ref sig .tc := ⟨.hbm, 1095, rfl⟩
abbrev main_cst_285 : Ref sig .tc := ⟨.hbm, 1096, rfl⟩
abbrev main_v760 : Ref sig .tc := ⟨.hbm, 1097, rfl⟩
abbrev main_v761 : Ref sig .tc := ⟨.hbm, 1098, rfl⟩
abbrev main_v762 : Ref sig .tc := ⟨.hbm, 1099, rfl⟩
abbrev main_cst_286 : Ref sig .tc := ⟨.hbm, 1100, rfl⟩
abbrev main_v763 : Ref sig .tc := ⟨.hbm, 1101, rfl⟩
abbrev main_v764 : Ref sig .tc := ⟨.hbm, 1102, rfl⟩
abbrev main_v765 : Ref sig .tc := ⟨.hbm, 1103, rfl⟩
abbrev main_cst_287 : Ref sig .tc := ⟨.hbm, 1104, rfl⟩
abbrev main_v766 : Ref sig .tc := ⟨.hbm, 1105, rfl⟩
abbrev main_v767 : Ref sig .tc := ⟨.hbm, 1106, rfl⟩
abbrev main_v768 : Ref sig .tc := ⟨.hbm, 1107, rfl⟩
abbrev main_cst_288 : Ref sig .tc := ⟨.hbm, 1108, rfl⟩
abbrev main_v769 : Ref sig .tc := ⟨.hbm, 1109, rfl⟩
abbrev main_v770 : Ref sig .tc := ⟨.hbm, 1110, rfl⟩
abbrev main_cst_289 : Ref sig .tc := ⟨.hbm, 1111, rfl⟩
abbrev main_v771 : Ref sig .tc := ⟨.hbm, 1112, rfl⟩
abbrev main_v772 : Ref sig .tc := ⟨.hbm, 1113, rfl⟩
abbrev main_v773 : Ref sig .tc := ⟨.hbm, 1114, rfl⟩
abbrev main_v774 : Ref sig .tc := ⟨.hbm, 1115, rfl⟩
abbrev main_v775 : Ref sig .tc := ⟨.hbm, 1116, rfl⟩
abbrev main_cst_290 : Ref sig .tc := ⟨.hbm, 1117, rfl⟩
abbrev main_v776 : Ref sig .tc := ⟨.hbm, 1118, rfl⟩
abbrev main_v777 : Ref sig .tc := ⟨.hbm, 1119, rfl⟩
abbrev main_cst_291 : Ref sig .tc := ⟨.hbm, 1120, rfl⟩
abbrev main_v778 : Ref sig .tc := ⟨.hbm, 1121, rfl⟩
abbrev main_v779 : Ref sig .tc := ⟨.hbm, 1122, rfl⟩
abbrev main_v780 : Ref sig .tc := ⟨.hbm, 1123, rfl⟩
abbrev main_cst_292 : Ref sig .tc := ⟨.hbm, 1124, rfl⟩
abbrev main_v781 : Ref sig .tc := ⟨.hbm, 1125, rfl⟩
abbrev main_v782 : Ref sig .tc := ⟨.hbm, 1126, rfl⟩
abbrev main_v783 : Ref sig .tc := ⟨.hbm, 1127, rfl⟩
abbrev main_v784 : Ref sig .tc := ⟨.hbm, 1128, rfl⟩
abbrev main_v785 : Ref sig .tc := ⟨.hbm, 1129, rfl⟩
abbrev main_cst_293 : Ref sig .tc := ⟨.hbm, 1130, rfl⟩
abbrev main_v786 : Ref sig .tc := ⟨.hbm, 1131, rfl⟩
abbrev main_cst_294 : Ref sig .tc := ⟨.hbm, 1132, rfl⟩
abbrev main_v787 : Ref sig .tc := ⟨.hbm, 1133, rfl⟩
abbrev main_v788 : Ref sig .tc := ⟨.hbm, 1134, rfl⟩
abbrev main_v789 : Ref sig .tc := ⟨.hbm, 1135, rfl⟩
abbrev main_v790 : Ref sig .tc := ⟨.hbm, 1136, rfl⟩
abbrev main_v791 : Ref sig .tc := ⟨.hbm, 1137, rfl⟩
abbrev main_cst_295 : Ref sig .tc := ⟨.hbm, 1138, rfl⟩
abbrev main_v792 : Ref sig .tc := ⟨.hbm, 1139, rfl⟩
abbrev main_v793 : Ref sig .tc := ⟨.hbm, 1140, rfl⟩
abbrev main_cst_296 : Ref sig .tc := ⟨.hbm, 1141, rfl⟩
abbrev main_call24_v0 : Ref sig .tc := ⟨.hbm, 1142, rfl⟩
abbrev main_call24_v1 : Ref sig .tc := ⟨.hbm, 1143, rfl⟩
abbrev main_v794 : Ref sig .tc := ⟨.hbm, 1144, rfl⟩
abbrev main_v795 : Ref sig .tc := ⟨.hbm, 1145, rfl⟩
abbrev main_cst_297 : Ref sig .tc := ⟨.hbm, 1146, rfl⟩
abbrev main_v796 : Ref sig .tc := ⟨.hbm, 1147, rfl⟩
abbrev main_cst_298 : Ref sig .tc := ⟨.hbm, 1148, rfl⟩
abbrev main_v797 : Ref sig .tc := ⟨.hbm, 1149, rfl⟩
abbrev main_v798 : Ref sig .tc := ⟨.hbm, 1150, rfl⟩
abbrev main_v799 : Ref sig .tc := ⟨.hbm, 1151, rfl⟩
abbrev main_cst_299 : Ref sig .tc := ⟨.hbm, 1152, rfl⟩
abbrev main_v800 : Ref sig .tc := ⟨.hbm, 1153, rfl⟩
abbrev main_v801 : Ref sig .tc := ⟨.hbm, 1154, rfl⟩
abbrev main_v802 : Ref sig .tc := ⟨.hbm, 1155, rfl⟩
abbrev main_cst_300 : Ref sig .tc := ⟨.hbm, 1156, rfl⟩
abbrev main_v803 : Ref sig .tc := ⟨.hbm, 1157, rfl⟩
abbrev main_v804 : Ref sig .tc := ⟨.hbm, 1158, rfl⟩
abbrev main_v805 : Ref sig .tc := ⟨.hbm, 1159, rfl⟩
abbrev main_cst_301 : Ref sig .tc := ⟨.hbm, 1160, rfl⟩
abbrev main_v806 : Ref sig .tc := ⟨.hbm, 1161, rfl⟩
abbrev main_v807 : Ref sig .tc := ⟨.hbm, 1162, rfl⟩
abbrev main_cst_302 : Ref sig .tc := ⟨.hbm, 1163, rfl⟩
abbrev main_v808 : Ref sig .tc := ⟨.hbm, 1164, rfl⟩
abbrev main_v809 : Ref sig .tc := ⟨.hbm, 1165, rfl⟩
abbrev main_v810 : Ref sig .tc := ⟨.hbm, 1166, rfl⟩
abbrev main_v811 : Ref sig .tc := ⟨.hbm, 1167, rfl⟩
abbrev main_v812 : Ref sig .tc := ⟨.hbm, 1168, rfl⟩
abbrev main_cst_303 : Ref sig .tc := ⟨.hbm, 1169, rfl⟩
abbrev main_v813 : Ref sig .tc := ⟨.hbm, 1170, rfl⟩
abbrev main_v814 : Ref sig .tc := ⟨.hbm, 1171, rfl⟩
abbrev main_cst_304 : Ref sig .tc := ⟨.hbm, 1172, rfl⟩
abbrev main_v815 : Ref sig .tc := ⟨.hbm, 1173, rfl⟩
abbrev main_v816 : Ref sig .tc := ⟨.hbm, 1174, rfl⟩
abbrev main_v817 : Ref sig .tc := ⟨.hbm, 1175, rfl⟩
abbrev main_cst_305 : Ref sig .tc := ⟨.hbm, 1176, rfl⟩
abbrev main_v818 : Ref sig .tc := ⟨.hbm, 1177, rfl⟩
abbrev main_v819 : Ref sig .tc := ⟨.hbm, 1178, rfl⟩
abbrev main_v820 : Ref sig .tc := ⟨.hbm, 1179, rfl⟩
abbrev main_v821 : Ref sig .tc := ⟨.hbm, 1180, rfl⟩
abbrev main_v822 : Ref sig .tc := ⟨.hbm, 1181, rfl⟩
abbrev main_cst_306 : Ref sig .tc := ⟨.hbm, 1182, rfl⟩
abbrev main_v823 : Ref sig .tc := ⟨.hbm, 1183, rfl⟩
abbrev main_cst_307 : Ref sig .tc := ⟨.hbm, 1184, rfl⟩
abbrev main_v824 : Ref sig .tc := ⟨.hbm, 1185, rfl⟩
abbrev main_v825 : Ref sig .tc := ⟨.hbm, 1186, rfl⟩
abbrev main_v826 : Ref sig .tc := ⟨.hbm, 1187, rfl⟩
abbrev main_v827 : Ref sig .tc := ⟨.hbm, 1188, rfl⟩
abbrev main_v828 : Ref sig .tc := ⟨.hbm, 1189, rfl⟩
abbrev main_cst_308 : Ref sig .tc := ⟨.hbm, 1190, rfl⟩
abbrev main_v829 : Ref sig .tc := ⟨.hbm, 1191, rfl⟩
abbrev main_v830 : Ref sig .tc := ⟨.hbm, 1192, rfl⟩
abbrev main_cst_309 : Ref sig .tc := ⟨.hbm, 1193, rfl⟩
abbrev main_call25_v0 : Ref sig .tc := ⟨.hbm, 1194, rfl⟩
abbrev main_call25_v1 : Ref sig .tc := ⟨.hbm, 1195, rfl⟩
abbrev main_v831 : Ref sig .tc := ⟨.hbm, 1196, rfl⟩
abbrev main_v832 : Ref sig .tc := ⟨.hbm, 1197, rfl⟩
abbrev main_cst_310 : Ref sig .tc := ⟨.hbm, 1198, rfl⟩
abbrev main_v833 : Ref sig .tc := ⟨.hbm, 1199, rfl⟩
abbrev main_cst_311 : Ref sig .tc := ⟨.hbm, 1200, rfl⟩
abbrev main_v834 : Ref sig .tc := ⟨.hbm, 1201, rfl⟩
abbrev main_v835 : Ref sig .tc := ⟨.hbm, 1202, rfl⟩
abbrev main_v836 : Ref sig .tc := ⟨.hbm, 1203, rfl⟩
abbrev main_cst_312 : Ref sig .tc := ⟨.hbm, 1204, rfl⟩
abbrev main_v837 : Ref sig .tc := ⟨.hbm, 1205, rfl⟩
abbrev main_v838 : Ref sig .tc := ⟨.hbm, 1206, rfl⟩
abbrev main_v839 : Ref sig .tc := ⟨.hbm, 1207, rfl⟩
abbrev main_cst_313 : Ref sig .tc := ⟨.hbm, 1208, rfl⟩
abbrev main_v840 : Ref sig .tc := ⟨.hbm, 1209, rfl⟩
abbrev main_v841 : Ref sig .tc := ⟨.hbm, 1210, rfl⟩
abbrev main_v842 : Ref sig .tc := ⟨.hbm, 1211, rfl⟩
abbrev main_cst_314 : Ref sig .tc := ⟨.hbm, 1212, rfl⟩
abbrev main_v843 : Ref sig .tc := ⟨.hbm, 1213, rfl⟩
abbrev main_v844 : Ref sig .tc := ⟨.hbm, 1214, rfl⟩
abbrev main_v845 : Ref sig .tc := ⟨.hbm, 1215, rfl⟩
abbrev main_cst_315 : Ref sig .tc := ⟨.hbm, 1216, rfl⟩
abbrev main_v846 : Ref sig .tc := ⟨.hbm, 1217, rfl⟩
abbrev main_v847 : Ref sig .tc := ⟨.hbm, 1218, rfl⟩
abbrev main_cst_316 : Ref sig .tc := ⟨.hbm, 1219, rfl⟩
abbrev main_v848 : Ref sig .tc := ⟨.hbm, 1220, rfl⟩
abbrev main_v849 : Ref sig .tc := ⟨.hbm, 1221, rfl⟩
abbrev main_cst_317 : Ref sig .tc := ⟨.hbm, 1222, rfl⟩
abbrev main_v850 : Ref sig .tc := ⟨.hbm, 1223, rfl⟩
abbrev main_v851 : Ref sig .tc := ⟨.hbm, 1224, rfl⟩
abbrev main_v852 : Ref sig .tc := ⟨.hbm, 1225, rfl⟩
abbrev main_v853 : Ref sig .tc := ⟨.hbm, 1226, rfl⟩
abbrev main_v854 : Ref sig .tc := ⟨.hbm, 1227, rfl⟩
abbrev main_cst_318 : Ref sig .tc := ⟨.hbm, 1228, rfl⟩
abbrev main_v855 : Ref sig .tc := ⟨.hbm, 1229, rfl⟩
abbrev main_v856 : Ref sig .tc := ⟨.hbm, 1230, rfl⟩
abbrev main_cst_319 : Ref sig .tc := ⟨.hbm, 1231, rfl⟩
abbrev main_v857 : Ref sig .tc := ⟨.hbm, 1232, rfl⟩
abbrev main_v858 : Ref sig .tc := ⟨.hbm, 1233, rfl⟩
abbrev main_v859 : Ref sig .tc := ⟨.hbm, 1234, rfl⟩
abbrev main_cst_320 : Ref sig .tc := ⟨.hbm, 1235, rfl⟩
abbrev main_v860 : Ref sig .tc := ⟨.hbm, 1236, rfl⟩
abbrev main_v861 : Ref sig .tc := ⟨.hbm, 1237, rfl⟩
abbrev main_v862 : Ref sig .tc := ⟨.hbm, 1238, rfl⟩
abbrev main_v863 : Ref sig .tc := ⟨.hbm, 1239, rfl⟩
abbrev main_v864 : Ref sig .tc := ⟨.hbm, 1240, rfl⟩
abbrev main_cst_321 : Ref sig .tc := ⟨.hbm, 1241, rfl⟩
abbrev main_v865 : Ref sig .tc := ⟨.hbm, 1242, rfl⟩
abbrev main_cst_322 : Ref sig .tc := ⟨.hbm, 1243, rfl⟩
abbrev main_v866 : Ref sig .tc := ⟨.hbm, 1244, rfl⟩
abbrev main_v867 : Ref sig .tc := ⟨.hbm, 1245, rfl⟩
abbrev main_v868 : Ref sig .tc := ⟨.hbm, 1246, rfl⟩
abbrev main_v869 : Ref sig .tc := ⟨.hbm, 1247, rfl⟩
abbrev main_v870 : Ref sig .tc := ⟨.hbm, 1248, rfl⟩
abbrev main_cst_323 : Ref sig .tc := ⟨.hbm, 1249, rfl⟩
abbrev main_v871 : Ref sig .tc := ⟨.hbm, 1250, rfl⟩
abbrev main_v872 : Ref sig .tc := ⟨.hbm, 1251, rfl⟩
abbrev main_cst_324 : Ref sig .tc := ⟨.hbm, 1252, rfl⟩
abbrev main_call26_v0 : Ref sig .tc := ⟨.hbm, 1253, rfl⟩
abbrev main_call26_v1 : Ref sig .tc := ⟨.hbm, 1254, rfl⟩
abbrev main_v873 : Ref sig .tc := ⟨.hbm, 1255, rfl⟩
abbrev main_v874 : Ref sig .tc := ⟨.hbm, 1256, rfl⟩
abbrev main_cst_325 : Ref sig .tc := ⟨.hbm, 1257, rfl⟩
abbrev main_v875 : Ref sig .tc := ⟨.hbm, 1258, rfl⟩
abbrev main_cst_326 : Ref sig .tc := ⟨.hbm, 1259, rfl⟩
abbrev main_v876 : Ref sig .tc := ⟨.hbm, 1260, rfl⟩
abbrev main_v877 : Ref sig .tc := ⟨.hbm, 1261, rfl⟩
abbrev main_v878 : Ref sig .tc := ⟨.hbm, 1262, rfl⟩
abbrev main_cst_327 : Ref sig .tc := ⟨.hbm, 1263, rfl⟩
abbrev main_v879 : Ref sig .tc := ⟨.hbm, 1264, rfl⟩
abbrev main_v880 : Ref sig .tc := ⟨.hbm, 1265, rfl⟩
abbrev main_v881 : Ref sig .tc := ⟨.hbm, 1266, rfl⟩
abbrev main_cst_328 : Ref sig .tc := ⟨.hbm, 1267, rfl⟩
abbrev main_v882 : Ref sig .tc := ⟨.hbm, 1268, rfl⟩
abbrev main_v883 : Ref sig .tc := ⟨.hbm, 1269, rfl⟩
abbrev main_v884 : Ref sig .tc := ⟨.hbm, 1270, rfl⟩
abbrev main_cst_329 : Ref sig .tc := ⟨.hbm, 1271, rfl⟩
abbrev main_v885 : Ref sig .tc := ⟨.hbm, 1272, rfl⟩
abbrev main_v886 : Ref sig .tc := ⟨.hbm, 1273, rfl⟩
abbrev main_cst_330 : Ref sig .tc := ⟨.hbm, 1274, rfl⟩
abbrev main_v887 : Ref sig .tc := ⟨.hbm, 1275, rfl⟩
abbrev main_v888 : Ref sig .tc := ⟨.hbm, 1276, rfl⟩
abbrev main_v889 : Ref sig .tc := ⟨.hbm, 1277, rfl⟩
abbrev main_cst_331 : Ref sig .tc := ⟨.hbm, 1278, rfl⟩
abbrev main_v890 : Ref sig .tc := ⟨.hbm, 1279, rfl⟩
abbrev main_v891 : Ref sig .tc := ⟨.hbm, 1280, rfl⟩
abbrev main_v892 : Ref sig .tc := ⟨.hbm, 1281, rfl⟩
abbrev main_cst_332 : Ref sig .tc := ⟨.hbm, 1282, rfl⟩
abbrev main_v893 : Ref sig .tc := ⟨.hbm, 1283, rfl⟩
abbrev main_v894 : Ref sig .tc := ⟨.hbm, 1284, rfl⟩
abbrev main_cst_333 : Ref sig .tc := ⟨.hbm, 1285, rfl⟩
abbrev main_v895 : Ref sig .tc := ⟨.hbm, 1286, rfl⟩
abbrev main_v896 : Ref sig .tc := ⟨.hbm, 1287, rfl⟩
abbrev main_v897 : Ref sig .tc := ⟨.hbm, 1288, rfl⟩
abbrev main_cst_334 : Ref sig .tc := ⟨.hbm, 1289, rfl⟩
abbrev main_v898 : Ref sig .tc := ⟨.hbm, 1290, rfl⟩
abbrev main_v899 : Ref sig .tc := ⟨.hbm, 1291, rfl⟩
abbrev main_cst_335 : Ref sig .tc := ⟨.hbm, 1292, rfl⟩
abbrev main_v900 : Ref sig .tc := ⟨.hbm, 1293, rfl⟩
abbrev main_v901 : Ref sig .tc := ⟨.hbm, 1294, rfl⟩
abbrev main_v902 : Ref sig .tc := ⟨.hbm, 1295, rfl⟩
abbrev main_cst_336 : Ref sig .tc := ⟨.hbm, 1296, rfl⟩
abbrev main_v903 : Ref sig .tc := ⟨.hbm, 1297, rfl⟩
abbrev main_v904 : Ref sig .tc := ⟨.hbm, 1298, rfl⟩
abbrev main_v905 : Ref sig .tc := ⟨.hbm, 1299, rfl⟩
abbrev main_v906 : Ref sig .tc := ⟨.hbm, 1300, rfl⟩
abbrev main_v907 : Ref sig .tc := ⟨.hbm, 1301, rfl⟩
abbrev main_cst_337 : Ref sig .tc := ⟨.hbm, 1302, rfl⟩
abbrev main_v908 : Ref sig .tc := ⟨.hbm, 1303, rfl⟩
abbrev main_cst_338 : Ref sig .tc := ⟨.hbm, 1304, rfl⟩
abbrev main_v909 : Ref sig .tc := ⟨.hbm, 1305, rfl⟩
abbrev main_v910 : Ref sig .tc := ⟨.hbm, 1306, rfl⟩
abbrev main_v911 : Ref sig .tc := ⟨.hbm, 1307, rfl⟩
abbrev main_v912 : Ref sig .tc := ⟨.hbm, 1308, rfl⟩
abbrev main_v913 : Ref sig .tc := ⟨.hbm, 1309, rfl⟩
abbrev main_cst_339 : Ref sig .tc := ⟨.hbm, 1310, rfl⟩
abbrev main_v914 : Ref sig .tc := ⟨.hbm, 1311, rfl⟩
abbrev main_v915 : Ref sig .tc := ⟨.hbm, 1312, rfl⟩
abbrev main_cst_340 : Ref sig .tc := ⟨.hbm, 1313, rfl⟩
abbrev main_call27_v0 : Ref sig .tc := ⟨.hbm, 1314, rfl⟩
abbrev main_call27_v1 : Ref sig .tc := ⟨.hbm, 1315, rfl⟩
abbrev main_v916 : Ref sig .tc := ⟨.hbm, 1316, rfl⟩
abbrev main_v917 : Ref sig .tc := ⟨.hbm, 1317, rfl⟩
abbrev main_cst_341 : Ref sig .tc := ⟨.hbm, 1318, rfl⟩
abbrev main_v918 : Ref sig .tc := ⟨.hbm, 1319, rfl⟩
abbrev main_cst_342 : Ref sig .tc := ⟨.hbm, 1320, rfl⟩
abbrev main_v919 : Ref sig .tc := ⟨.hbm, 1321, rfl⟩
abbrev main_v920 : Ref sig .tc := ⟨.hbm, 1322, rfl⟩
abbrev main_v921 : Ref sig .tc := ⟨.hbm, 1323, rfl⟩
abbrev main_cst_343 : Ref sig .tc := ⟨.hbm, 1324, rfl⟩
abbrev main_v922 : Ref sig .tc := ⟨.hbm, 1325, rfl⟩
abbrev main_v923 : Ref sig .tc := ⟨.hbm, 1326, rfl⟩
abbrev main_v924 : Ref sig .tc := ⟨.hbm, 1327, rfl⟩
abbrev main_cst_344 : Ref sig .tc := ⟨.hbm, 1328, rfl⟩
abbrev main_v925 : Ref sig .tc := ⟨.hbm, 1329, rfl⟩
abbrev main_v926 : Ref sig .tc := ⟨.hbm, 1330, rfl⟩
abbrev main_v927 : Ref sig .tc := ⟨.hbm, 1331, rfl⟩
abbrev main_cst_345 : Ref sig .tc := ⟨.hbm, 1332, rfl⟩
abbrev main_v928 : Ref sig .tc := ⟨.hbm, 1333, rfl⟩
abbrev main_v929 : Ref sig .tc := ⟨.hbm, 1334, rfl⟩
abbrev main_v930 : Ref sig .tc := ⟨.hbm, 1335, rfl⟩
abbrev main_cst_346 : Ref sig .tc := ⟨.hbm, 1336, rfl⟩
abbrev main_v931 : Ref sig .tc := ⟨.hbm, 1337, rfl⟩
abbrev main_v932 : Ref sig .tc := ⟨.hbm, 1338, rfl⟩
abbrev main_cst_347 : Ref sig .tc := ⟨.hbm, 1339, rfl⟩
abbrev main_v933 : Ref sig .tc := ⟨.hbm, 1340, rfl⟩
abbrev main_v934 : Ref sig .tc := ⟨.hbm, 1341, rfl⟩
abbrev main_cst_348 : Ref sig .tc := ⟨.hbm, 1342, rfl⟩
abbrev main_v935 : Ref sig .tc := ⟨.hbm, 1343, rfl⟩
abbrev main_v936 : Ref sig .tc := ⟨.hbm, 1344, rfl⟩
abbrev main_v937 : Ref sig .tc := ⟨.hbm, 1345, rfl⟩
abbrev main_v938 : Ref sig .tc := ⟨.hbm, 1346, rfl⟩
abbrev main_v939 : Ref sig .tc := ⟨.hbm, 1347, rfl⟩
abbrev main_cst_349 : Ref sig .tc := ⟨.hbm, 1348, rfl⟩
abbrev main_v940 : Ref sig .tc := ⟨.hbm, 1349, rfl⟩
abbrev main_v941 : Ref sig .tc := ⟨.hbm, 1350, rfl⟩
abbrev main_cst_350 : Ref sig .tc := ⟨.hbm, 1351, rfl⟩
abbrev main_v942 : Ref sig .tc := ⟨.hbm, 1352, rfl⟩
abbrev main_v943 : Ref sig .tc := ⟨.hbm, 1353, rfl⟩
abbrev main_v944 : Ref sig .tc := ⟨.hbm, 1354, rfl⟩
abbrev main_cst_351 : Ref sig .tc := ⟨.hbm, 1355, rfl⟩
abbrev main_v945 : Ref sig .tc := ⟨.hbm, 1356, rfl⟩
abbrev main_v946 : Ref sig .tc := ⟨.hbm, 1357, rfl⟩
abbrev main_v947 : Ref sig .tc := ⟨.hbm, 1358, rfl⟩
abbrev main_v948 : Ref sig .tc := ⟨.hbm, 1359, rfl⟩
abbrev main_v949 : Ref sig .tc := ⟨.hbm, 1360, rfl⟩
abbrev main_cst_352 : Ref sig .tc := ⟨.hbm, 1361, rfl⟩
abbrev main_v950 : Ref sig .tc := ⟨.hbm, 1362, rfl⟩
abbrev main_cst_353 : Ref sig .tc := ⟨.hbm, 1363, rfl⟩
abbrev main_v951 : Ref sig .tc := ⟨.hbm, 1364, rfl⟩
abbrev main_v952 : Ref sig .tc := ⟨.hbm, 1365, rfl⟩
abbrev main_v953 : Ref sig .tc := ⟨.hbm, 1366, rfl⟩
abbrev main_v954 : Ref sig .tc := ⟨.hbm, 1367, rfl⟩
abbrev main_v955 : Ref sig .tc := ⟨.hbm, 1368, rfl⟩
abbrev main_cst_354 : Ref sig .tc := ⟨.hbm, 1369, rfl⟩
abbrev main_v956 : Ref sig .tc := ⟨.hbm, 1370, rfl⟩
abbrev main_v957 : Ref sig .tc := ⟨.hbm, 1371, rfl⟩
abbrev main_cst_355 : Ref sig .tc := ⟨.hbm, 1372, rfl⟩
abbrev main_call28_v0 : Ref sig .tc := ⟨.hbm, 1373, rfl⟩
abbrev main_call28_v1 : Ref sig .tc := ⟨.hbm, 1374, rfl⟩
abbrev main_v958 : Ref sig .tc := ⟨.hbm, 1375, rfl⟩
abbrev main_v959 : Ref sig .tc := ⟨.hbm, 1376, rfl⟩
abbrev main_cst_356 : Ref sig .tc := ⟨.hbm, 1377, rfl⟩
abbrev main_v960 : Ref sig .tc := ⟨.hbm, 1378, rfl⟩
abbrev main_cst_357 : Ref sig .tc := ⟨.hbm, 1379, rfl⟩
abbrev main_v961 : Ref sig .tc := ⟨.hbm, 1380, rfl⟩
abbrev main_v962 : Ref sig .tc := ⟨.hbm, 1381, rfl⟩
abbrev main_v963 : Ref sig .tc := ⟨.hbm, 1382, rfl⟩
abbrev main_cst_358 : Ref sig .tc := ⟨.hbm, 1383, rfl⟩
abbrev main_v964 : Ref sig .tc := ⟨.hbm, 1384, rfl⟩
abbrev main_v965 : Ref sig .tc := ⟨.hbm, 1385, rfl⟩
abbrev main_v966 : Ref sig .tc := ⟨.hbm, 1386, rfl⟩
abbrev main_cst_359 : Ref sig .tc := ⟨.hbm, 1387, rfl⟩
abbrev main_v967 : Ref sig .tc := ⟨.hbm, 1388, rfl⟩
abbrev main_v968 : Ref sig .tc := ⟨.hbm, 1389, rfl⟩
abbrev main_v969 : Ref sig .tc := ⟨.hbm, 1390, rfl⟩
abbrev main_cst_360 : Ref sig .tc := ⟨.hbm, 1391, rfl⟩
abbrev main_v970 : Ref sig .tc := ⟨.hbm, 1392, rfl⟩
abbrev main_v971 : Ref sig .tc := ⟨.hbm, 1393, rfl⟩
abbrev main_cst_361 : Ref sig .tc := ⟨.hbm, 1394, rfl⟩
abbrev main_v972 : Ref sig .tc := ⟨.hbm, 1395, rfl⟩
abbrev main_v973 : Ref sig .tc := ⟨.hbm, 1396, rfl⟩
abbrev main_v974 : Ref sig .tc := ⟨.hbm, 1397, rfl⟩
abbrev main_v975 : Ref sig .tc := ⟨.hbm, 1398, rfl⟩
abbrev main_v976 : Ref sig .tc := ⟨.hbm, 1399, rfl⟩
abbrev main_cst_362 : Ref sig .tc := ⟨.hbm, 1400, rfl⟩
abbrev main_v977 : Ref sig .tc := ⟨.hbm, 1401, rfl⟩
abbrev main_v978 : Ref sig .tc := ⟨.hbm, 1402, rfl⟩
abbrev main_cst_363 : Ref sig .tc := ⟨.hbm, 1403, rfl⟩
abbrev main_v979 : Ref sig .tc := ⟨.hbm, 1404, rfl⟩
abbrev main_v980 : Ref sig .tc := ⟨.hbm, 1405, rfl⟩
abbrev main_v981 : Ref sig .tc := ⟨.hbm, 1406, rfl⟩
abbrev main_cst_364 : Ref sig .tc := ⟨.hbm, 1407, rfl⟩
abbrev main_v982 : Ref sig .tc := ⟨.hbm, 1408, rfl⟩
abbrev main_v983 : Ref sig .tc := ⟨.hbm, 1409, rfl⟩
abbrev main_v984 : Ref sig .tc := ⟨.hbm, 1410, rfl⟩
abbrev main_v985 : Ref sig .tc := ⟨.hbm, 1411, rfl⟩
abbrev main_v986 : Ref sig .tc := ⟨.hbm, 1412, rfl⟩
abbrev main_cst_365 : Ref sig .tc := ⟨.hbm, 1413, rfl⟩
abbrev main_v987 : Ref sig .tc := ⟨.hbm, 1414, rfl⟩
abbrev main_cst_366 : Ref sig .tc := ⟨.hbm, 1415, rfl⟩
abbrev main_v988 : Ref sig .tc := ⟨.hbm, 1416, rfl⟩
abbrev main_v989 : Ref sig .tc := ⟨.hbm, 1417, rfl⟩
abbrev main_v990 : Ref sig .tc := ⟨.hbm, 1418, rfl⟩
abbrev main_v991 : Ref sig .tc := ⟨.hbm, 1419, rfl⟩
abbrev main_v992 : Ref sig .tc := ⟨.hbm, 1420, rfl⟩
abbrev main_cst_367 : Ref sig .tc := ⟨.hbm, 1421, rfl⟩
abbrev main_v993 : Ref sig .tc := ⟨.hbm, 1422, rfl⟩
abbrev main_v994 : Ref sig .tc := ⟨.hbm, 1423, rfl⟩
abbrev main_cst_368 : Ref sig .tc := ⟨.hbm, 1424, rfl⟩
abbrev main_call29_v0 : Ref sig .tc := ⟨.hbm, 1425, rfl⟩
abbrev main_call29_v1 : Ref sig .tc := ⟨.hbm, 1426, rfl⟩
abbrev main_v995 : Ref sig .tc := ⟨.hbm, 1427, rfl⟩
abbrev main_v996 : Ref sig .tc := ⟨.hbm, 1428, rfl⟩
abbrev main_cst_369 : Ref sig .tc := ⟨.hbm, 1429, rfl⟩
abbrev main_v997 : Ref sig .tc := ⟨.hbm, 1430, rfl⟩
abbrev main_cst_370 : Ref sig .tc := ⟨.hbm, 1431, rfl⟩
abbrev main_v998 : Ref sig .tc := ⟨.hbm, 1432, rfl⟩
abbrev main_v999 : Ref sig .tc := ⟨.hbm, 1433, rfl⟩
abbrev main_v1000 : Ref sig .tc := ⟨.hbm, 1434, rfl⟩
abbrev main_cst_371 : Ref sig .tc := ⟨.hbm, 1435, rfl⟩
abbrev main_v1001 : Ref sig .tc := ⟨.hbm, 1436, rfl⟩
abbrev main_v1002 : Ref sig .tc := ⟨.hbm, 1437, rfl⟩
abbrev main_v1003 : Ref sig .tc := ⟨.hbm, 1438, rfl⟩
abbrev main_cst_372 : Ref sig .tc := ⟨.hbm, 1439, rfl⟩
abbrev main_v1004 : Ref sig .tc := ⟨.hbm, 1440, rfl⟩
abbrev main_v1005 : Ref sig .tc := ⟨.hbm, 1441, rfl⟩
abbrev main_v1006 : Ref sig .tc := ⟨.hbm, 1442, rfl⟩
abbrev main_cst_373 : Ref sig .tc := ⟨.hbm, 1443, rfl⟩
abbrev main_v1007 : Ref sig .tc := ⟨.hbm, 1444, rfl⟩
abbrev main_v1008 : Ref sig .tc := ⟨.hbm, 1445, rfl⟩
abbrev main_cst_374 : Ref sig .tc := ⟨.hbm, 1446, rfl⟩
abbrev main_v1009 : Ref sig .tc := ⟨.hbm, 1447, rfl⟩
abbrev main_v1010 : Ref sig .tc := ⟨.hbm, 1448, rfl⟩
abbrev main_v1011 : Ref sig .tc := ⟨.hbm, 1449, rfl⟩
abbrev main_v1012 : Ref sig .tc := ⟨.hbm, 1450, rfl⟩
abbrev main_v1013 : Ref sig .tc := ⟨.hbm, 1451, rfl⟩
abbrev main_v1014 : Ref sig .tc := ⟨.hbm, 1452, rfl⟩
abbrev main_v1015 : Ref sig .tc := ⟨.hbm, 1453, rfl⟩
abbrev main_v1016 : Ref sig .tc := ⟨.hbm, 1454, rfl⟩
abbrev main_v1017 : Ref sig .tc := ⟨.hbm, 1455, rfl⟩
abbrev main_v1018 : Ref sig .tc := ⟨.hbm, 1456, rfl⟩
abbrev main_v1019 : Ref sig .tc := ⟨.hbm, 1457, rfl⟩
abbrev main_v1020 : Ref sig .tc := ⟨.hbm, 1458, rfl⟩
abbrev main_v1021 : Ref sig .tc := ⟨.hbm, 1459, rfl⟩
abbrev main_v1022 : Ref sig .tc := ⟨.hbm, 1460, rfl⟩
abbrev main_v1023 : Ref sig .tc := ⟨.hbm, 1461, rfl⟩
abbrev main_v1024 : Ref sig .tc := ⟨.hbm, 1462, rfl⟩
abbrev main_v1025 : Ref sig .tc := ⟨.hbm, 1463, rfl⟩
abbrev main_v1026 : Ref sig .tc := ⟨.hbm, 1464, rfl⟩
abbrev main_v1027 : Ref sig .tc := ⟨.hbm, 1465, rfl⟩
abbrev main_v1028 : Ref sig .tc := ⟨.hbm, 1466, rfl⟩
abbrev main_v1029 : Ref sig .tc := ⟨.hbm, 1467, rfl⟩
abbrev main_v1030 : Ref sig .tc := ⟨.hbm, 1468, rfl⟩
abbrev main_v1031 : Ref sig .tc := ⟨.hbm, 1469, rfl⟩
abbrev main_v1032 : Ref sig .tc := ⟨.hbm, 1470, rfl⟩
abbrev main_v1033 : Ref sig .tc := ⟨.hbm, 1471, rfl⟩
abbrev main_v1034 : Ref sig .tc := ⟨.hbm, 1472, rfl⟩
abbrev main_v1035 : Ref sig .tc := ⟨.hbm, 1473, rfl⟩
abbrev main_v1036 : Ref sig .tc := ⟨.hbm, 1474, rfl⟩
abbrev main_v1037 : Ref sig .tc := ⟨.hbm, 1475, rfl⟩
abbrev main_v1038 : Ref sig .tc := ⟨.hbm, 1476, rfl⟩
abbrev main_v1039 : Ref sig .tc := ⟨.hbm, 1477, rfl⟩
abbrev main_v1040 : Ref sig .tc := ⟨.hbm, 1478, rfl⟩
abbrev main_v1041 : Ref sig .tc := ⟨.hbm, 1479, rfl⟩
abbrev main_v1042 : Ref sig .tc := ⟨.hbm, 1480, rfl⟩
abbrev main_v1043 : Ref sig .tc := ⟨.hbm, 1481, rfl⟩
abbrev main_v1044 : Ref sig .tc := ⟨.hbm, 1482, rfl⟩
abbrev main_v1045 : Ref sig .tc := ⟨.hbm, 1483, rfl⟩
abbrev main_v1046 : Ref sig .tc := ⟨.hbm, 1484, rfl⟩
abbrev main_v1047 : Ref sig .tc := ⟨.hbm, 1485, rfl⟩

abbrev nD : Nat := 1
abbrev τ : Topo := Topo.v7x

variable {F : FTy → Type} [FloatOps F]

class Facts₀ : Prop where
  slices_S4096x27x3_S4096x27x1_0_0_0 : S4096x27x3.Slices ![0, 0, 0] S4096x27x1
  shapeCasts_S4096x27x1_S4096x27 : S4096x27x1.ShapeCasts S4096x27
  slices_S4096x27x3_S4096x27x1_0_0_1 : S4096x27x3.Slices ![0, 0, 1] S4096x27x1
  slices_S4096x27x3_S4096x27x1_0_0_2 : S4096x27x3.Slices ![0, 0, 2] S4096x27x1
  bcast_S_S4096x27 : S_.BroadcastsInDim S4096x27 (![] : Fin 0 → Fin S4096x27.rank)
  bcast_S4096x27_S4096x27x1_0_1 : S4096x27.BroadcastsInDim S4096x27x1 (![0, 1] : Fin 2 → Fin S4096x27x1.rank)
  concatenates_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x16_d2 : Shape.Concatenates [S4096x27x1, S4096x27x1, S4096x27x1, S4096x27x1, S4096x27x1, S4096x27x1, S4096x27x1, S4096x27x1, S4096x27x1, S4096x27x1, S4096x27x1, S4096x27x1, S4096x27x1, S4096x27x1, S4096x27x1, S4096x27x1] S4096x27x16 2
  concatenates_S4096x27x1_S4096x27x1_S4096x27x1_S4096x27x1_S4096x27x1_S4096x27x1_S4096x27x1_S4096x27x1_S4096x27x1_S4096x27x1_S4096x27x1_S4096x27x1_S4096x27x1_S4096x27x1_S4096x27x14_d2 : Shape.Concatenates [S4096x27x1, S4096x27x1, S4096x27x1, S4096x27x1, S4096x27x1, S4096x27x1, S4096x27x1, S4096x27x1, S4096x27x1, S4096x27x1, S4096x27x1, S4096x27x1, S4096x27x1, S4096x27x1] S4096x27x14 2
  concatenates_S4096x27x16_S4096x27x14_S4096x27x30_d2 : Shape.Concatenates [S4096x27x16, S4096x27x14] S4096x27x30 2
  dot_S16x16x30_S4096x27x30_S16x16x4096x27_2_2_01_01_n_n_wf : DotDims.WF S16x16x30 S4096x27x30 S16x16x4096x27 [2] [2] [0, 1] [0, 1] [] []

variable [Facts₀]

def dot_S16x16x30_S4096x27x30_S16x16x4096x27_2_2_01_01_n_n : DotDims S16x16x30 S4096x27x30 S16x16x4096x27 where
  lhsContracting := [2]
  rhsContracting := [2]
  lhsNonContracting := [0, 1]
  rhsNonContracting := [0, 1]
  lhsBatch := []
  rhsBatch := []
  wf := dot_S16x16x30_S4096x27x30_S16x16x4096x27_2_2_01_01_n_n_wf

class Facts : Prop extends Facts₀ where

variable [Facts]
-- ==== Proof.KernelPayload.lean ====
import proofs.«118825_j71382356459674_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen

theorem exp_apply {s : Shape} {φ : FTy} (a : FVec Ideal s φ) (i : s.Idx) : exp a i = Ideal.exp (a i) := rfl
theorem cos_apply {s : Shape} {φ : FTy} (a : FVec Ideal s φ) (i : s.Idx) : cos a i = Ideal.cos (a i) := rfl
theorem sin_apply {s : Shape} {φ : FTy} (a : FVec Ideal s φ) (i : s.Idx) : sin a i = Ideal.sin (a i) := rfl
theorem sqrt_apply {s : Shape} {φ : FTy} (a : FVec Ideal s φ) (i : s.Idx) : sqrt a i = Ideal.sqrt (a i) := rfl

theorem unit_col (v : FVec Ideal S4608 .f32) (h : S4608.ShapeCasts S4608x1) (j : Fin 4608) :
    shapeCast S4608x1 v h (ix2 j (0 : Fin 1)) = v (ix1 j) :=
  shapeCast_apply _ _ _ _ (by rw [Shape.rowMajor_val_two, Shape.rowMajor_val_one]; simp)

/-- Column c of the block, cut out and flattened, at row j is the block's entry (j, c). -/
theorem radius_apply (X : Vec Ideal S4608x3 .f32) (j : Fin 4608) : k0_pay4 X (ix1 j) = X (ix2 j 0) := by
  unfold k0_pay4 k0_pay3
  rw [shapeCast_self]
  refine (shapeCast_apply _ _ (ix1 j) (ix2 j (0 : Fin 1)) ?_).trans ?_
  · rw [Shape.rowMajor_val_two, Shape.rowMajor_val_one]; simp
  refine extractStridedSlice_apply _ _ _ _ (ix2 j 0) fun a => ?_
  match a with
  | ⟨0, _⟩ => simp
  | ⟨1, _⟩ => simp

theorem polar_apply (X : Vec Ideal S4608x3 .f32) (j : Fin 4608) : k0_pay5 X (ix1 j) = X (ix2 j 1) := by
  unfold k0_pay5 k0_pay3
  rw [shapeCast_self]
  refine (shapeCast_apply _ _ (ix1 j) (ix2 j (0 : Fin 1)) ?_).trans ?_
  · rw [Shape.rowMajor_val_two, Shape.rowMajor_val_one]; simp
  refine extractStridedSlice_apply _ _ _ _ (ix2 j 1) fun a => ?_
  match a with
  | ⟨0, _⟩ => simp
  | ⟨1, _⟩ => simp

theorem azimuth_apply (X : Vec Ideal S4608x3 .f32) (j : Fin 4608) : k0_pay6 X (ix1 j) = X (ix2 j 2) := by
  unfold k0_pay6 k0_pay3
  rw [shapeCast_self]
  refine (shapeCast_apply _ _ (ix1 j) (ix2 j (0 : Fin 1)) ?_).trans ?_
  · rw [Shape.rowMajor_val_two, Shape.rowMajor_val_one]; simp
  refine extractStridedSlice_apply _ _ _ _ (ix2 j 2) fun a => ?_
  match a with
  | ⟨0, _⟩ => simp
  | ⟨1, _⟩ => simp

abbrev D30 : DotDims S256x30 S4608x30 S256x4608 := dot_S256x30_S4608x30_S256x4608_1_1_0_0_n_n

theorem lhs_row (q : S256x4608.Idx) (k : D30.contr.Idx) : (D30.lhsIdx q k 0).val = (q 0).val := by
  unfold DotDims.lhsIdx
  rw [dif_neg (by decide), dif_pos (by decide)]
  rfl

theorem lhs_k (q : S256x4608.Idx) (k : D30.contr.Idx) : (D30.lhsIdx q k 1).val = (k ⟨0, by decide⟩).val :=
  D30.lhsIdx_val_of_single (cl := 1) rfl q k

theorem rhs_row (q : S256x4608.Idx) (k : D30.contr.Idx) : (D30.rhsIdx q k 0).val = (q 1).val := by
  unfold DotDims.rhsIdx
  rw [dif_neg (by decide), dif_pos (by decide)]
  rfl

theorem rhs_k (q : S256x4608.Idx) (k : D30.contr.Idx) : (D30.rhsIdx q k 1).val = (k ⟨0, by decide⟩).val :=
  D30.rhsIdx_val_of_single (cr := 1) rfl q k

/-- The stored product at (p, j) is the sum over the thirty columns b of C (p, b) · B (j, b). -/
theorem pay2_apply (B : FVec Ideal S4608x30 .f32) (C : Vec Ideal S256x30 .f32) (p : Fin 256) (j : Fin 4608) :
    k0_pay2 B C (ix2 p j) = ∑ b : Fin 30, C (ix2 p b) * B (ix2 j b) := by
  unfold k0_pay2
  simp only [matmul]
  rw [Ideal.matmul_constant_zero_apply]
  rw [← Equiv.sum_comp (contrEquiv1 D30 30 rfl rfl).symm]
  refine Finset.sum_congr rfl fun b _ => ?_
  rw [truncf_apply, truncf_apply, shapeCast_self]
  have hl : D30.lhsIdx (ix2 p j) ((contrEquiv1 D30 30 rfl rfl).symm b) = ix2 p b := by
    funext a; apply Fin.ext
    match a with
    | ⟨0, _⟩ => exact lhs_row _ _
    | ⟨1, _⟩ => exact (lhs_k _ _).trans (contrEquiv1_symm_val D30 30 rfl rfl b)
  have hr : D30.rhsIdx (ix2 p j) ((contrEquiv1 D30 30 rfl rfl).symm b) = ix2 j b := by
    funext a; apply Fin.ext
    match a with
    | ⟨0, _⟩ => exact rhs_row _ _
    | ⟨1, _⟩ => exact (rhs_k _ _).trans (contrEquiv1_symm_val D30 30 rfl rfl b)
  rw [hl, hr]

end Cert.KernelIdeal.Payload

end
-- ==== Proof.BasisTable.lean ====
import Idealize.ShloMosaic.PureOps.Ideal

noncomputable section

namespace Cert.Basis

open Idealize.ShloMosaic

/-- The sine of the polar angle, as both programs compute it: sqrt(max(0, 1 - cos² θ)). -/
def sinPolar (θ : EReal) : EReal :=
  Ideal.sqrt (max (Ideal.ofBits .f32 0x00000000#32) ((Ideal.ofBits .f32 0x3F800000#32) - ((Ideal.cos θ) * (Ideal.cos θ))))

def radial10 (r : EReal) : EReal :=
  (Ideal.ofBits .f32 0x40000000#32) * (Ideal.exp ((Ideal.ofBits .f32 0xBF000000#32) * ((Ideal.ofBits .f32 0x40000000#32) * r)))

def radial20 (r : EReal) : EReal :=
  ((Ideal.ofBits .f32 0x3EB504F3#32) * (Ideal.exp ((Ideal.ofBits .f32 0xBF000000#32) * r))) * (((Ideal.ofBits .f32 0xBF800000#32) * r) + (Ideal.ofBits .f32 0x40000000#32))

def radial21 (r : EReal) : EReal :=
  ((Ideal.ofBits .f32 0x3E5105EC#32) * (Ideal.exp ((Ideal.ofBits .f32 0xBF000000#32) * r))) * r

def radial30 (r : EReal) : EReal :=
  ((Ideal.ofBits .f32 0x3E036117#32) * (Ideal.exp ((Ideal.ofBits .f32 0xBF000000#32) * ((Ideal.ofBits .f32 0x3F2AAAAB#32) * r)))) * (((((Ideal.ofBits .f32 0x3F000000#32) * ((Ideal.ofBits .f32 0x3F2AAAAB#32) * r)) + (Ideal.ofBits .f32 0xC0400000#32)) * ((Ideal.ofBits .f32 0x3F2AAAAB#32) * r)) + (Ideal.ofBits .f32 0x40400000#32))

def radial31 (r : EReal) : EReal :=
  (((Ideal.ofBits .f32 0x3D39CC60#32) * (Ideal.exp ((Ideal.ofBits .f32 0xBF000000#32) * ((Ideal.ofBits .f32 0x3F2AAAAB#32) * r)))) * ((Ideal.ofBits .f32 0x3F2AAAAB#32) * r)) * (((Ideal.ofBits .f32 0xBF800000#32) * ((Ideal.ofBits .f32 0x3F2AAAAB#32) * r)) + (Ideal.ofBits .f32 0x40800000#32))

def radial32 (r : EReal) : EReal :=
  ((Ideal.ofBits .f32 0x3CA62EDE#32) * (Ideal.exp ((Ideal.ofBits .f32 0xBF000000#32) * ((Ideal.ofBits .f32 0x3F2AAAAB#32) * r)))) * (((Ideal.ofBits .f32 0x3F2AAAAB#32) * r) * ((Ideal.ofBits .f32 0x3F2AAAAB#32) * r))

def radial40 (r : EReal) : EReal :=
  ((Ideal.ofBits .f32 0x3D800000#32) * (Ideal.exp ((Ideal.ofBits .f32 0xBF000000#32) * ((Ideal.ofBits .f32 0x3F000000#32) * r)))) * (((((((Ideal.ofBits .f32 0xBE2AAAAB#32) * ((Ideal.ofBits .f32 0x3F000000#32) * r)) + (Ideal.ofBits .f32 0x40000000#32)) * ((Ideal.ofBits .f32 0x3F000000#32) * r)) + (Ideal.ofBits .f32 0xC0C00000#32)) * ((Ideal.ofBits .f32 0x3F000000#32) * r)) + (Ideal.ofBits .f32 0x40800000#32))

def radial41 (r : EReal) : EReal :=
  (((Ideal.ofBits .f32 0x3C8432A5#32) * (Ideal.exp ((Ideal.ofBits .f32 0xBF000000#32) * ((Ideal.ofBits .f32 0x3F000000#32) * r)))) * ((Ideal.ofBits .f32 0x3F000000#32) * r)) * (((((Ideal.ofBits .f32 0x3F000000#32) * ((Ideal.ofBits .f32 0x3F000000#32) * r)) + (Ideal.ofBits .f32 0xC0A00000#32)) * ((Ideal.ofBits .f32 0x3F000000#32) * r)) + (Ideal.ofBits .f32 0x41200000#32))

def radial42 (r : EReal) : EReal :=
  (((Ideal.ofBits .f32 0x3B98A61F#32) * (Ideal.exp ((Ideal.ofBits .f32 0xBF000000#32) * ((Ideal.ofBits .f32 0x3F000000#32) * r)))) * (((Ideal.ofBits .f32 0x3F000000#32) * r) * ((Ideal.ofBits .f32 0x3F000000#32) * r))) * (((Ideal.ofBits .f32 0xBF800000#32) * ((Ideal.ofBits .f32 0x3F000000#32) * r)) + (Ideal.ofBits .f32 0x40C00000#32))

def radial43 (r : EReal) : EReal :=
  ((Ideal.ofBits .f32 0x3AE6C891#32) * (Ideal.exp ((Ideal.ofBits .f32 0xBF000000#32) * ((Ideal.ofBits .f32 0x3F000000#32) * r)))) * ((((Ideal.ofBits .f32 0x3F000000#32) * r) * ((Ideal.ofBits .f32 0x3F000000#32) * r)) * ((Ideal.ofBits .f32 0x3F000000#32) * r))

def harmonic00 (θ φ : EReal) : EReal :=
  Ideal.ofBits .f32 0x3E906EBB#32

def harmonic1m1 (θ φ : EReal) : EReal :=
  ((Ideal.ofBits .f32 0x3EFA2A1C#32) * ((Ideal.ofBits .f32 0xBF800000#32) * (sinPolar θ))) * (Ideal.sin φ)

def harmonic10 (θ φ : EReal) : EReal :=
  (Ideal.ofBits .f32 0x3EFA2A1C#32) * (Ideal.cos θ)

def harmonic1p1 (θ φ : EReal) : EReal :=
  ((Ideal.ofBits .f32 0x3EFA2A1C#32) * ((Ideal.ofBits .f32 0xBF800000#32) * (sinPolar θ))) * (Ideal.cos φ)

def harmonic2m2 (θ φ : EReal) : EReal :=
  ((Ideal.ofBits .f32 0x3E3A762B#32) * ((((Ideal.ofBits .f32 0xBF800000#32) * (sinPolar θ)) * (Ideal.ofBits .f32 0xC0400000#32)) * (sinPolar θ))) * (Ideal.sin ((Ideal.ofBits .f32 0x40000000#32) * φ))

def harmonic2m1 (θ φ : EReal) : EReal :=
  ((Ideal.ofBits .f32 0x3EBA762B#32) * (((Ideal.cos θ) * (Ideal.ofBits .f32 0x40400000#32)) * ((Ideal.ofBits .f32 0xBF800000#32) * (sinPolar θ)))) * (Ideal.sin φ)

def harmonic20 (θ φ : EReal) : EReal :=
  (Ideal.ofBits .f32 0x3F217B01#32) * (Ideal.div ((((Ideal.ofBits .f32 0x40400000#32) * (Ideal.cos θ)) * (Ideal.cos θ)) - (Ideal.ofBits .f32 0x3F800000#32)) (Ideal.ofBits .f32 0x40000000#32))

def harmonic2p1 (θ φ : EReal) : EReal :=
  ((Ideal.ofBits .f32 0x3EBA762B#32) * (((Ideal.cos θ) * (Ideal.ofBits .f32 0x40400000#32)) * ((Ideal.ofBits .f32 0xBF800000#32) * (sinPolar θ)))) * (Ideal.cos φ)

def harmonic2p2 (θ φ : EReal) : EReal :=
  ((Ideal.ofBits .f32 0x3E3A762B#32) * ((((Ideal.ofBits .f32 0xBF800000#32) * (sinPolar θ)) * (Ideal.ofBits .f32 0xC0400000#32)) * (sinPolar θ))) * (Ideal.cos ((Ideal.ofBits .f32 0x40000000#32) * φ))

def harmonic3m3 (θ φ : EReal) : EReal :=
  ((Ideal.ofBits .f32 0x3D211F09#32) * ((((((Ideal.ofBits .f32 0xBF800000#32) * (sinPolar θ)) * (Ideal.ofBits .f32 0xC0400000#32)) * (sinPolar θ)) * (Ideal.ofBits .f32 0xC0A00000#32)) * (sinPolar θ))) * (Ideal.sin ((Ideal.ofBits .f32 0x40400000#32) * φ))

def harmonic3m2 (θ φ : EReal) : EReal :=
  ((Ideal.ofBits .f32 0x3DC55519#32) * (((Ideal.cos θ) * (Ideal.ofBits .f32 0x40A00000#32)) * ((((Ideal.ofBits .f32 0xBF800000#32) * (sinPolar θ)) * (Ideal.ofBits .f32 0xC0400000#32)) * (sinPolar θ)))) * (Ideal.sin ((Ideal.ofBits .f32 0x40000000#32) * φ))

def harmonic3m1 (θ φ : EReal) : EReal :=
  ((Ideal.ofBits .f32 0x3E9C0145#32) * (Ideal.div ((((Ideal.ofBits .f32 0x40A00000#32) * (Ideal.cos θ)) * (((Ideal.cos θ) * (Ideal.ofBits .f32 0x40400000#32)) * ((Ideal.ofBits .f32 0xBF800000#32) * (sinPolar θ)))) - ((Ideal.ofBits .f32 0x40400000#32) * ((Ideal.ofBits .f32 0xBF800000#32) * (sinPolar θ)))) (Ideal.ofBits .f32 0x40000000#32))) * (Ideal.sin φ)

def harmonic30 (θ φ : EReal) : EReal :=
  (Ideal.ofBits .f32 0x3F3F10F8#32) * (Ideal.div ((((Ideal.ofBits .f32 0x40A00000#32) * (Ideal.cos θ)) * (Ideal.div ((((Ideal.ofBits .f32 0x40400000#32) * (Ideal.cos θ)) * (Ideal.cos θ)) - (Ideal.ofBits .f32 0x3F800000#32)) (Ideal.ofBits .f32 0x40000000#32))) - ((Ideal.ofBits .f32 0x40000000#32) * (Ideal.cos θ))) (Ideal.ofBits .f32 0x40400000#32))

def harmonic3p1 (θ φ : EReal) : EReal :=
  ((Ideal.ofBits .f32 0x3E9C0145#32) * (Ideal.div ((((Ideal.ofBits .f32 0x40A00000#32) * (Ideal.cos θ)) * (((Ideal.cos θ) * (Ideal.ofBits .f32 0x40400000#32)) * ((Ideal.ofBits .f32 0xBF800000#32) * (sinPolar θ)))) - ((Ideal.ofBits .f32 0x40400000#32) * ((Ideal.ofBits .f32 0xBF800000#32) * (sinPolar θ)))) (Ideal.ofBits .f32 0x40000000#32))) * (Ideal.cos φ)

def harmonic3p2 (θ φ : EReal) : EReal :=
  ((Ideal.ofBits .f32 0x3DC55519#32) * (((Ideal.cos θ) * (Ideal.ofBits .f32 0x40A00000#32)) * ((((Ideal.ofBits .f32 0xBF800000#32) * (sinPolar θ)) * (Ideal.ofBits .f32 0xC0400000#32)) * (sinPolar θ)))) * (Ideal.cos ((Ideal.ofBits .f32 0x40000000#32) * φ))

def harmonic3p3 (θ φ : EReal) : EReal :=
  ((Ideal.ofBits .f32 0x3D211F09#32) * ((((((Ideal.ofBits .f32 0xBF800000#32) * (sinPolar θ)) * (Ideal.ofBits .f32 0xC0400000#32)) * (sinPolar θ)) * (Ideal.ofBits .f32 0xC0A00000#32)) * (sinPolar θ))) * (Ideal.cos ((Ideal.ofBits .f32 0x40400000#32) * φ))

def hw0 (r θ φ : EReal) : EReal := radial10 r * harmonic00 θ φ
def hw1 (r θ φ : EReal) : EReal := radial20 r * harmonic00 θ φ
def hw2 (r θ φ : EReal) : EReal := radial21 r * harmonic1m1 θ φ
def hw3 (r θ φ : EReal) : EReal := radial21 r * harmonic10 θ φ
def hw4 (r θ φ : EReal) : EReal := radial21 r * harmonic1p1 θ φ
def hw5 (r θ φ : EReal) : EReal := radial30 r * harmonic00 θ φ
def hw6 (r θ φ : EReal) : EReal := radial31 r * harmonic1m1 θ φ
def hw7 (r θ φ : EReal) : EReal := radial31 r * harmonic10 θ φ
def hw8 (r θ φ : EReal) : EReal := radial31 r * harmonic1p1 θ φ
def hw9 (r θ φ : EReal) : EReal := radial32 r * harmonic2m2 θ φ
def hw10 (r θ φ : EReal) : EReal := radial32 r * harmonic2m1 θ φ
def hw11 (r θ φ : EReal) : EReal := radial32 r * harmonic20 θ φ
def hw12 (r θ φ : EReal) : EReal := radial32 r * harmonic2p1 θ φ
def hw13 (r θ φ : EReal) : EReal := radial32 r * harmonic2p2 θ φ
def hw14 (r θ φ : EReal) : EReal := radial40 r * harmonic00 θ φ
def hw15 (r θ φ : EReal) : EReal := radial41 r * harmonic1m1 θ φ
def hw16 (r θ φ : EReal) : EReal := radial41 r * harmonic10 θ φ
def hw17 (r θ φ : EReal) : EReal := radial41 r * harmonic1p1 θ φ
def hw18 (r θ φ : EReal) : EReal := radial42 r * harmonic2m2 θ φ
def hw19 (r θ φ : EReal) : EReal := radial42 r * harmonic2m1 θ φ
def hw20 (r θ φ : EReal) : EReal := radial42 r * harmonic20 θ φ
def hw21 (r θ φ : EReal) : EReal := radial42 r * harmonic2p1 θ φ
def hw22 (r θ φ : EReal) : EReal := radial42 r * harmonic2p2 θ φ
def hw23 (r θ φ : EReal) : EReal := radial43 r * harmonic3m3 θ φ
def hw24 (r θ φ : EReal) : EReal := radial43 r * harmonic3m2 θ φ
def hw25 (r θ φ : EReal) : EReal := radial43 r * harmonic3m1 θ φ
def hw26 (r θ φ : EReal) : EReal := radial43 r * harmonic30 θ φ
def hw27 (r θ φ : EReal) : EReal := radial43 r * harmonic3p1 θ φ
def hw28 (r θ φ : EReal) : EReal := radial43 r * harmonic3p2 θ φ
def hw29 (r θ φ : EReal) : EReal := radial43 r * harmonic3p3 θ φ

/-- Column b of the table: ψ_{n l m} in the order n, then l, then m. -/
def hw : Fin 30 → EReal → EReal → EReal → EReal := fun
  | ⟨0, _⟩ => hw0
  | ⟨1, _⟩ => hw1
  | ⟨2, _⟩ => hw2
  | ⟨3, _⟩ => hw3
  | ⟨4, _⟩ => hw4
  | ⟨5, _⟩ => hw5
  | ⟨6, _⟩ => hw6
  | ⟨7, _⟩ => hw7
  | ⟨8, _⟩ => hw8
  | ⟨9, _⟩ => hw9
  | ⟨10, _⟩ => hw10
  | ⟨11, _⟩ => hw11
  | ⟨12, _⟩ => hw12
  | ⟨13, _⟩ => hw13
  | ⟨14, _⟩ => hw14
  | ⟨15, _⟩ => hw15
  | ⟨16, _⟩ => hw16
  | ⟨17, _⟩ => hw17
  | ⟨18, _⟩ => hw18
  | ⟨19, _⟩ => hw19
  | ⟨20, _⟩ => hw20
  | ⟨21, _⟩ => hw21
  | ⟨22, _⟩ => hw22
  | ⟨23, _⟩ => hw23
  | ⟨24, _⟩ => hw24
  | ⟨25, _⟩ => hw25
  | ⟨26, _⟩ => hw26
  | ⟨27, _⟩ => hw27
  | ⟨28, _⟩ => hw28
  | ⟨29, _⟩ => hw29
  | ⟨_ + 30, h⟩ => absurd h (Nat.not_lt.2 (Nat.le_add_left _ _))

end Cert.Basis

end
-- ==== Proof.Words.lean ====
import Idealize.ShloMosaic.PureOps.Ideal
import Idealize.ShloMosaic.PureOps.Ideal.Laws

noncomputable section

namespace Cert.Words

open Idealize.ShloMosaic

/-- The word of 1.0 (biased exponent 127, fraction 0) denotes 1; on the extended reals 1 · x = x and 0 + x = x also at ±∞. -/
theorem one_word : Ideal.ofBits .f32 0x3F800000#32 = 1 := by
  simp [Ideal.ofBits, Ideal.ieee, -EReal.coe_mul]; norm_num

theorem zero_word : Ideal.ofBits .f32 0x00000000#32 = 0 := Ideal.ofBits_zero_f32

theorem one_word_mul (x : EReal) : Ideal.ofBits .f32 0x3F800000#32 * x = x := by rw [one_word, one_mul]

theorem mul_one_word (x : EReal) : x * Ideal.ofBits .f32 0x3F800000#32 = x := by rw [one_word, mul_one]

theorem zero_word_add (x : EReal) : Ideal.ofBits .f32 0x00000000#32 + x = x := by rw [zero_word, zero_add]

theorem add_zero_word (x : EReal) : x + Ideal.ofBits .f32 0x00000000#32 = x := by rw [zero_word, add_zero]

theorem max_zero_word (x : EReal) :
    max x (Ideal.ofBits .f32 0x00000000#32) = max (Ideal.ofBits .f32 0x00000000#32) x := max_comm _ _

end Cert.Words

end
-- ==== Proof.KernelBlock.lean ====
import proofs.«118825_j71382356459674_1_alg».proof.Proof.FrameKernelIdeal
import proofs.«118825_j71382356459674_1_alg».proof.Proof.KernelPayload
import proofs.«118825_j71382356459674_1_alg».proof.Proof.BasisTable
import proofs.«118825_j71382356459674_1_alg».proof.Proof.Words

noncomputable section

open scoped BigOperators

namespace Cert.KernelIdeal.HandValue

open Idealize.ShloMosaic Idealize.ShloMosaic.ValueIdx Cert.KernelIdeal Cert.KernelIdeal.Gen Cert.KernelIdeal.Payload Cert.Basis

/-- Column `b` of the block's basis matrix, as a matrix [4608, 1]. -/
def column (X : Vec Ideal S4608x3 .f32) : Fin 30 → FVec Ideal S4608x1 .f32 := fun
  | ⟨0, _⟩ => k0_pay88 (k0_pay7 X)
  | ⟨1, _⟩ => k0_pay89 (k0_pay9 (k0_pay8 X) (Scalar.ofBits .f32 0x3F800000#32))
  | ⟨2, _⟩ => k0_pay90 (k0_pay10 (k0_pay4 X) (k0_pay5 X) (k0_pay6 X))
  | ⟨3, _⟩ => k0_pay91 (k0_pay13 (k0_pay5 X) (k0_pay11 (k0_pay4 X)) (k0_pay12 (k0_pay4 X)) (Scalar.ofBits .f32 0x3F800000#32))
  | ⟨4, _⟩ => k0_pay92 (k0_pay17 (k0_pay6 X) (k0_pay14 (k0_pay4 X)) (k0_pay15 (k0_pay5 X)) (k0_pay16 (F := Ideal)))
  | ⟨5, _⟩ => k0_pay93 (k0_pay18 (k0_pay4 X))
  | ⟨6, _⟩ => k0_pay94 (k0_pay22 (k0_pay5 X) (k0_pay6 X) (k0_pay20 (k0_pay4 X)) (k0_pay21 (k0_pay4 X)))
  | ⟨7, _⟩ => k0_pay95 (k0_pay23 (k0_pay4 X) (k0_pay5 X))
  | ⟨8, _⟩ => k0_pay96 (k0_pay24 (k0_pay4 X) (k0_pay5 X) (k0_pay6 X))
  | ⟨9, _⟩ => k0_pay97 (k0_pay28 (k0_pay5 X) (k0_pay6 X) (k0_pay25 (k0_pay4 X)) (k0_pay26 (k0_pay4 X)) (k0_pay27 (F := Ideal)))
  | ⟨10, _⟩ => k0_pay98 (k0_pay32 (k0_pay6 X) (k0_pay29 (k0_pay4 X)) (k0_pay30 (k0_pay5 X)) (k0_pay31 (k0_pay5 X)))
  | ⟨11, _⟩ => k0_pay99 (k0_pay37 (k0_pay33 (k0_pay4 X)) (k0_pay34 (F := Ideal)) (k0_pay35 (k0_pay5 X)) (k0_pay36 (F := Ideal)))
  | ⟨12, _⟩ => k0_pay100 (k0_pay38 (k0_pay4 X) (k0_pay5 X) (k0_pay6 X))
  | ⟨13, _⟩ => k0_pay101 (k0_pay40 (k0_pay4 X) (k0_pay5 X) (k0_pay6 X) (k0_pay39 (F := Ideal)))
  | ⟨14, _⟩ => k0_pay102 (k0_pay43 (k0_pay41 (k0_pay4 X)) (k0_pay42 (k0_pay4 X)))
  | ⟨15, _⟩ => k0_pay103 (k0_pay46 (k0_pay6 X) (k0_pay44 (k0_pay4 X)) (k0_pay45 (k0_pay5 X)))
  | ⟨16, _⟩ => k0_pay104 (k0_pay47 (k0_pay4 X) (k0_pay5 X))
  | ⟨17, _⟩ => k0_pay105 (k0_pay50 (k0_pay5 X) (k0_pay6 X) (k0_pay48 (k0_pay4 X)) (k0_pay49 (F := Ideal)))
  | ⟨18, _⟩ => k0_pay106 (k0_pay54 (k0_pay5 X) (k0_pay6 X) (k0_pay51 (k0_pay4 X)) (k0_pay52 (k0_pay4 X)) (k0_pay53 (k0_pay4 X)))
  | ⟨19, _⟩ => k0_pay107 (k0_pay58 (k0_pay5 X) (k0_pay6 X) (k0_pay55 (k0_pay4 X)) (k0_pay56 (k0_pay4 X)) (k0_pay57 (F := Ideal)))
  | ⟨20, _⟩ => k0_pay108 (k0_pay61 (k0_pay59 (k0_pay4 X)) (k0_pay60 (k0_pay5 X)) (Scalar.ofBits .f32 0x3F800000#32))
  | ⟨21, _⟩ => shapeCast S4608x1 (k0_pay65 (k0_pay6 X) (k0_pay62 (k0_pay4 X)) (k0_pay63 (k0_pay5 X)) (k0_pay64 (k0_pay5 X))) shapeCasts_S4608_S4608x1
  | ⟨22, _⟩ => shapeCast S4608x1 (k0_pay68 (k0_pay6 X) (k0_pay66 (k0_pay4 X)) (k0_pay67 (k0_pay5 X))) shapeCasts_S4608_S4608x1
  | ⟨23, _⟩ => shapeCast S4608x1 (k0_pay69 (k0_pay4 X) (k0_pay5 X) (k0_pay6 X)) shapeCasts_S4608_S4608x1
  | ⟨24, _⟩ => shapeCast S4608x1 (k0_pay70 (k0_pay4 X) (k0_pay5 X) (k0_pay6 X)) shapeCasts_S4608_S4608x1
  | ⟨25, _⟩ => shapeCast S4608x1 (k0_pay73 (k0_pay5 X) (k0_pay6 X) (k0_pay71 (k0_pay4 X)) (k0_pay72 (k0_pay4 X))) shapeCasts_S4608_S4608x1
  | ⟨26, _⟩ => shapeCast S4608x1 (k0_pay76 (k0_pay5 X) (k0_pay74 (k0_pay4 X)) (k0_pay75 (F := Ideal))) shapeCasts_S4608_S4608x1
  | ⟨27, _⟩ => shapeCast S4608x1 (k0_pay79 (k0_pay5 X) (k0_pay6 X) (k0_pay77 (k0_pay4 X)) (k0_pay78 (k0_pay4 X))) shapeCasts_S4608_S4608x1
  | ⟨28, _⟩ => shapeCast S4608x1 (k0_pay83 (k0_pay5 X) (k0_pay6 X) (k0_pay80 (k0_pay4 X)) (k0_pay81 (k0_pay4 X)) (k0_pay82 (F := Ideal))) shapeCasts_S4608_S4608x1
  | ⟨29, _⟩ => shapeCast S4608x1 (k0_pay87 (k0_pay5 X) (k0_pay6 X) (k0_pay85 (k0_pay4 X)) (k0_pay86 (k0_pay4 X))) shapeCasts_S4608_S4608x1
  | ⟨_ + 30, h⟩ => absurd h (Nat.not_lt.2 (Nat.le_add_left _ _))

def basisBlock (X : Vec Ideal S4608x3 .f32) : FVec Ideal S4608x30 .f32 :=
  k0_pay1 (k0_pay65 (k0_pay6 X) (k0_pay62 (k0_pay4 X)) (k0_pay63 (k0_pay5 X)) (k0_pay64 (k0_pay5 X))) (k0_pay68 (k0_pay6 X) (k0_pay66 (k0_pay4 X)) (k0_pay67 (k0_pay5 X))) (k0_pay69 (k0_pay4 X) (k0_pay5 X) (k0_pay6 X)) (k0_pay70 (k0_pay4 X) (k0_pay5 X) (k0_pay6 X)) (k0_pay73 (k0_pay5 X) (k0_pay6 X) (k0_pay71 (k0_pay4 X)) (k0_pay72 (k0_pay4 X))) (k0_pay76 (k0_pay5 X) (k0_pay74 (k0_pay4 X)) (k0_pay75 (F := Ideal))) (k0_pay79 (k0_pay5 X) (k0_pay6 X) (k0_pay77 (k0_pay4 X)) (k0_pay78 (k0_pay4 X))) (k0_pay83 (k0_pay5 X) (k0_pay6 X) (k0_pay80 (k0_pay4 X)) (k0_pay81 (k0_pay4 X)) (k0_pay82 (F := Ideal))) (k0_pay87 (k0_pay5 X) (k0_pay6 X) (k0_pay85 (k0_pay4 X)) (k0_pay86 (k0_pay4 X))) (k0_pay88 (k0_pay7 X)) (k0_pay89 (k0_pay9 (k0_pay8 X) (Scalar.ofBits .f32 0x3F800000#32))) (k0_pay90 (k0_pay10 (k0_pay4 X) (k0_pay5 X) (k0_pay6 X))) (k0_pay91 (k0_pay13 (k0_pay5 X) (k0_pay11 (k0_pay4 X)) (k0_pay12 (k0_pay4 X)) (Scalar.ofBits .f32 0x3F800000#32))) (k0_pay92 (k0_pay17 (k0_pay6 X) (k0_pay14 (k0_pay4 X)) (k0_pay15 (k0_pay5 X)) (k0_pay16 (F := Ideal)))) (k0_pay93 (k0_pay18 (k0_pay4 X))) (k0_pay94 (k0_pay22 (k0_pay5 X) (k0_pay6 X) (k0_pay20 (k0_pay4 X)) (k0_pay21 (k0_pay4 X)))) (k0_pay95 (k0_pay23 (k0_pay4 X) (k0_pay5 X))) (k0_pay96 (k0_pay24 (k0_pay4 X) (k0_pay5 X) (k0_pay6 X))) (k0_pay97 (k0_pay28 (k0_pay5 X) (k0_pay6 X) (k0_pay25 (k0_pay4 X)) (k0_pay26 (k0_pay4 X)) (k0_pay27 (F := Ideal)))) (k0_pay98 (k0_pay32 (k0_pay6 X) (k0_pay29 (k0_pay4 X)) (k0_pay30 (k0_pay5 X)) (k0_pay31 (k0_pay5 X)))) (k0_pay99 (k0_pay37 (k0_pay33 (k0_pay4 X)) (k0_pay34 (F := Ideal)) (k0_pay35 (k0_pay5 X)) (k0_pay36 (F := Ideal)))) (k0_pay100 (k0_pay38 (k0_pay4 X) (k0_pay5 X) (k0_pay6 X))) (k0_pay101 (k0_pay40 (k0_pay4 X) (k0_pay5 X) (k0_pay6 X) (k0_pay39 (F := Ideal)))) (k0_pay102 (k0_pay43 (k0_pay41 (k0_pay4 X)) (k0_pay42 (k0_pay4 X)))) (k0_pay103 (k0_pay46 (k0_pay6 X) (k0_pay44 (k0_pay4 X)) (k0_pay45 (k0_pay5 X)))) (k0_pay104 (k0_pay47 (k0_pay4 X) (k0_pay5 X))) (k0_pay105 (k0_pay50 (k0_pay5 X) (k0_pay6 X) (k0_pay48 (k0_pay4 X)) (k0_pay49 (F := Ideal)))) (k0_pay106 (k0_pay54 (k0_pay5 X) (k0_pay6 X) (k0_pay51 (k0_pay4 X)) (k0_pay52 (k0_pay4 X)) (k0_pay53 (k0_pay4 X)))) (k0_pay107 (k0_pay58 (k0_pay5 X) (k0_pay6 X) (k0_pay55 (k0_pay4 X)) (k0_pay56 (k0_pay4 X)) (k0_pay57 (F := Ideal)))) (k0_pay108 (k0_pay61 (k0_pay59 (k0_pay4 X)) (k0_pay60 (k0_pay5 X)) (Scalar.ofBits .f32 0x3F800000#32)))

theorem basisBlock_apply (X : Vec Ideal S4608x3 .f32) (j : Fin 4608) (b : Fin 30) :
    basisBlock X (ix2 j b) = column X b (ix2 j (0 : Fin 1)) := by
  unfold basisBlock k0_pay1
  exact concatenate_ofFn_unit_apply (t := S4608x30) (s₁ := S4608x1) (1 : Fin 2) (column X) concatenates_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x1_S4608x30_d1 rfl rfl (ix2 j b) b rfl (ix2 j (0 : Fin 1))
    (fun a ha => by
      match a with
      | ⟨0, _⟩ => rfl
      | ⟨1, _⟩ => exact absurd rfl ha)

/-- Column `b` at row `j` is ψ_b of the row's three entries: every operation acts entry by entry, and factors 1.0, summands 0.0
    and the order of a maximum's operands do not matter. -/
theorem column_apply (X : Vec Ideal S4608x3 .f32) (j : Fin 4608) (b : Fin 30) :
    column X b (ix2 j (0 : Fin 1)) = hw b (X (ix2 j 0)) (X (ix2 j 1)) (X (ix2 j 2)) := by
  fin_cases b <;> simp only [column, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108,
    unit_col, mulf_apply, addf_apply, subf_apply, divf_apply, maximumf_apply, exp_apply, cos_apply, sin_apply, sqrt_apply, broadcast_apply,
    radius_apply, polar_apply, azimuth_apply,
    Ideal.ofBits_def, Cert.Words.one_word_mul, Cert.Words.mul_one_word, Cert.Words.zero_word_add, Cert.Words.add_zero_word, Cert.Words.max_zero_word,
    sinPolar, radial10, radial20, radial21, radial30, radial31, radial32, radial40, radial41, radial42, radial43, harmonic00, harmonic1m1, harmonic10, harmonic1p1, harmonic2m2, harmonic2m1, harmonic20, harmonic2p1, harmonic2p2, harmonic3m3, harmonic3m2, harmonic3m1, harmonic30, harmonic3p1, harmonic3p2, harmonic3p3,
    hw, hw0, hw1, hw2, hw3, hw4, hw5, hw6, hw7, hw8, hw9, hw10, hw11, hw12, hw13, hw14, hw15, hw16, hw17, hw18, hw19, hw20, hw21, hw22, hw23, hw24, hw25, hw26, hw27, hw28, hw29]

theorem zero_offsets : (![0, 0] : Fin 2 → Nat) = fun _ => 0 := funext fun a => by fin_cases a <;> rfl

/-- The stored block at (p, j): the sum over b of C (p, b) · ψ_b at row j of the loaded block. -/
theorem out_apply (x0 : Vec Ideal S4608x3 .f32) (x1 : Vec Ideal S256x30 .f32) (p : Fin 256) (j : Fin 4608) :
    GenP.out0_2 x0 x1 (ix2 p j) = ∑ b : Fin 30, x1 (ix2 p b) * hw b (x0 (ix2 j 0)) (x0 (ix2 j 1)) (x0 (ix2 j 2)) := by
  unfold GenP.out0_2
  rw [View.canon_unit_zero zero_offsets]
  simp only [View.ld_unit_zero (S := S4608x3) zero_offsets, View.ld_unit_zero (S := S256x30) zero_offsets]
  show k0_pay2 (basisBlock x0) x1 (ix2 p j) = _
  rw [pay2_apply]
  refine Finset.sum_congr rfl fun b _ => ?_
  rw [basisBlock_apply, column_apply]

end Cert.KernelIdeal.HandValue

end
-- ==== Proof.Spec.lean ====
import Idealize.ShloMosaic.Lib.ValueIdx
import proofs.«118825_j71382356459674_1_alg».proof.Proof.BasisTable

noncomputable section

open scoped BigOperators

namespace Cert.Spec

open Idealize.ShloMosaic Idealize.ShloMosaic.ValueIdx Cert.Basis

/-- The result at (o, i, x, n): the coefficients at (o, i, ·) against the thirty basis functions at the three coordinates of (x, n). -/
def outAt (P : (⟨3, ![4096, 27, 3]⟩ : Shape).Idx → EReal) (C : (⟨3, ![16, 16, 30]⟩ : Shape).Idx → EReal)
    (o i : Fin 16) (x : Fin 4096) (n : Fin 27) : EReal :=
  ∑ b : Fin 30, C (ix3 o i b) * hw b (P (ix3 x n 0)) (P (ix3 x n 1)) (P (ix3 x n 2))

def out (P : (⟨3, ![4096, 27, 3]⟩ : Shape).Idx → EReal) (C : (⟨3, ![16, 16, 30]⟩ : Shape).Idx → EReal) :
    (⟨4, ![16, 16, 4096, 27]⟩ : Shape).Idx → EReal :=
  fun q => outAt P C (q 0) (q 1) (q 2) (q 3)

theorem out_apply (P : (⟨3, ![4096, 27, 3]⟩ : Shape).Idx → EReal) (C : (⟨3, ![16, 16, 30]⟩ : Shape).Idx → EReal)
    (o i : Fin 16) (x : Fin 4096) (n : Fin 27) : out P C (ix4 o i x n) = outAt P C o i x n := rfl

end Cert.Spec

end
-- ==== Proof.KernelValue.lean ====
import proofs.«118825_j71382356459674_1_alg».proof.Proof.KernelBlock
import proofs.«118825_j71382356459674_1_alg».proof.Proof.Spec
import Idealize.ShloMosaic.Lib.Pipeline.Value

noncomputable section

open scoped BigOperators

namespace Cert.KernelIdeal.HandValue

open Cert.KernelIdeal Cert.KernelIdeal.Gen Cert.KernelIdeal.GenP Idealize.ShloMosaic Idealize.ShloMosaic.TcCoe Idealize.SL.Sem
open Idealize.ShloMosaic.ValueIdx Cert.Basis
open Idealize.ShloMosaic.Pipeline (Dat)

variable (m : (ℓ : Loc nD τ sig) → Buf (Elt Ideal) ℓ) (ρ : Dev nD → PrngReg)

/-- The flat result [256, 110592] at row r (a channel pair) and column J (a grid point with a stencil offset). -/
def flatAt (P2 : S110592x3.Idx → EReal) (C2 : S256x30.Idx → EReal) (r : Fin 256) (J : Fin 110592) : EReal :=
  ∑ b : Fin 30, C2 (ix2 r b) * hw b (P2 (ix2 J 0)) (P2 (ix2 J 1)) (P2 (ix2 J 2))

def flat (P2 : S110592x3.Idx → EReal) (C2 : S256x30.Idx → EReal) : S256x110592.Idx → EReal :=
  fun q => flatAt P2 C2 (q 0) (q 1)

theorem point_lt (t : Fin cfg0.N) : t.val < 24 := lt_of_lt_of_eq t.isLt N_0

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

def col (t : Fin cfg0.N) (q : Fin 4608) : Fin 110592 := ⟨t.val * 4608 + q.val, by have := point_lt t; omega⟩

theorem emb_pos (t : Fin cfg0.N) (q : Fin 4608) (k : Fin 3) :
    ((cfg0.win 0).blk t).view.emb (ix2 q k) = ix2 (col t q) k := by
  obtain ⟨e0, e1, -, -, -, -⟩ := idx_facts t
  funext a; apply Fin.ext
  match a with
  | ⟨0, _⟩ => show win0_0.index t (0 : Fin 2) * 4608 + 1 * q.val = t.val * 4608 + q.val; omega
  | ⟨1, _⟩ => show win0_0.index t (1 : Fin 2) * 3 + 1 * k.val = k.val; omega

theorem emb_coef (t : Fin cfg0.N) (p : Fin 256) (b : Fin 30) :
    ((cfg0.win 1).blk t).view.emb (ix2 p b) = ix2 p b := by
  obtain ⟨-, -, e0, e1, -, -⟩ := idx_facts t
  funext a; apply Fin.ext
  match a with
  | ⟨0, _⟩ => show win0_1.index t (0 : Fin 2) * 256 + 1 * p.val = p.val; omega
  | ⟨1, _⟩ => show win0_1.index t (1 : Fin 2) * 30 + 1 * b.val = b.val; omega

theorem emb_out (t : Fin cfg0.N) (p : Fin 256) (q : Fin 4608) :
    ((cfg0.win 2).blk t).view.emb (ix2 p q) = ix2 p (col t q) := by
  obtain ⟨-, -, -, -, e0, e1⟩ := idx_facts t
  funext a; apply Fin.ext
  match a with
  | ⟨0, _⟩ => show win0_2.index t (0 : Fin 2) * 256 + 1 * p.val = p.val; omega
  | ⟨1, _⟩ => show win0_2.index t (1 : Fin 2) * 4608 + 1 * q.val = t.val * 4608 + q.val; omega

abbrev posFlat (c : Dev nD) : S110592x3.Idx → EReal := V m c main_v0

abbrev coefFlat (c : Dev nD) : S256x30.Idx → EReal := V m c main_v1

/-- What point t writes back is block t of the flat result. -/
theorem flushed_eq (c : Dev nD) (t : Fin cfg0.N) :
    (dats m 0 c).flushed 2 t = ((cfg0.win 2).blk t).view.read (Elt Ideal) (flat (posFlat m c) (coefFlat m c)) := by
  show (cfg0.win 2).cut (grid0.coords t) ((dats m 0 c).after 2 t) = _
  rw [after0_2]
  funext y
  obtain ⟨p, q, rfl⟩ : ∃ (p : Fin 256) (q : Fin 4608), y = ix2 p q := ⟨y 0, y 1, eq_ix2 y⟩
  show out0_2 (iblk m c 0 t) (iblk m c 1 t) (ix2 p q) = flat (posFlat m c) (coefFlat m c) (((cfg0.win 2).blk t).view.emb (ix2 p q))
  refine (out_apply (iblk m c 0 t) (iblk m c 1 t) p q).trans ?_
  rw [emb_out]
  show _ = flatAt (posFlat m c) (coefFlat m c) p (col t q)
  unfold flatAt
  refine Finset.sum_congr rfl fun b _ => ?_
  show coefFlat m c (((cfg0.win 1).blk t).view.emb (ix2 p b)) * hw b (posFlat m c (((cfg0.win 0).blk t).view.emb (ix2 q 0))) (posFlat m c (((cfg0.win 0).blk t).view.emb (ix2 q 1))) (posFlat m c (((cfg0.win 0).blk t).view.emb (ix2 q 2))) = _
  rw [emb_coef, emb_pos, emb_pos, emb_pos]

theorem mem_blk (t : Fin cfg0.N) (i : S256x110592.Idx) :
    i ∈ ((cfg0.win 2).blk t).view.set ↔ ∀ a : Fin 2, win0_2.index t a * S256x4608.size a ≤ (i a).val ∧ (i a).val < win0_2.index t a * S256x4608.size a + S256x4608.size a := by
  show i ∈ ((View.whole main_v2).slice (win0_2.rect t)).set ↔ _
  rw [View.set_slice_whole, Rect.mem_set_unit]
  exact Iff.rfl

/-- The 24 blocks of 4608 columns cover the 110592 columns: column J lies in block J / 4608. -/
theorem cover (i : S256x110592.Idx) : ∃ t : Fin cfg0.N, (cfg0.win 2).flush t = true ∧ i ∈ ((cfg0.win 2).blk t).view.set := by
  have h0 : (i 0).val < 256 := (i 0).isLt
  have h1 : (i 1).val < 110592 := (i 1).isLt
  have ht : (i 1).val / 4608 < cfg0.N := by rw [show cfg0.N = 24 from N_0]; omega
  obtain ⟨-, -, -, -, e0, e1⟩ := idx_facts ⟨(i 1).val / 4608, ht⟩
  have e1' : win0_2.index ⟨(i 1).val / 4608, ht⟩ (1 : Fin 2) = (i 1).val / 4608 := e1
  refine ⟨⟨(i 1).val / 4608, ht⟩, flush0_2 _, ?_⟩
  rw [mem_blk]
  intro a
  match a with
  | ⟨0, _⟩ => show win0_2.index ⟨(i 1).val / 4608, ht⟩ (0 : Fin 2) * 256 ≤ (i 0).val ∧ (i 0).val < win0_2.index ⟨(i 1).val / 4608, ht⟩ (0 : Fin 2) * 256 + 256; omega
  | ⟨1, _⟩ => show win0_2.index ⟨(i 1).val / 4608, ht⟩ (1 : Fin 2) * 4608 ≤ (i 1).val ∧ (i 1).val < win0_2.index ⟨(i 1).val / 4608, ht⟩ (1 : Fin 2) * 4608 + 4608; omega

theorem final (c : Dev nD) : (dats m 0 c).arrAt 2 cfg0.N = flat (posFlat m c) (coefFlat m c) :=
  (dats m 0 c).arrAt_eq_of_cover 2 (flat (posFlat m c) (coefFlat m c)) (fun t _ => flushed_eq m c t) cover

theorem posFlat_eq (c : Dev nD) :
    posFlat m c = shapeCast S110592x3 (m ((c : Thread nD τ).loc main_arg0)) shapeCasts_S4096x27x3_S110592x3 := by
  show StableHlo.after hostOps0 (fun b => m (c, b)) (Proc.devRef .tc main_v0) = _
  after_results
  rfl

theorem coefFlat_eq (c : Dev nD) :
    coefFlat m c = shapeCast S256x30 (m ((c : Thread nD τ).loc main_arg1)) shapeCasts_S16x16x30_S256x30 := by
  show StableHlo.after hostOps0 (fun b => m (c, b)) (Proc.devRef .tc main_v1) = _
  after_results
  rfl

theorem posFlat_apply (c : Dev nD) (x : Fin 4096) (n : Fin 27) (k : Fin 3) (J : Fin 110592) (hJ : J.val = 27 * x.val + n.val) :
    posFlat m c (ix2 J k) = m ((c : Thread nD τ).loc main_arg0) (ix3 x n k) := by
  rw [posFlat_eq]
  refine shapeCast_apply _ _ (ix2 J k) (ix3 x n k) ?_
  rw [Shape.rowMajor_val_three, Shape.rowMajor_val_two]
  show (x.val * 27 + n.val) * 3 + k.val = J.val * 3 + k.val
  omega

theorem coefFlat_apply (c : Dev nD) (o i : Fin 16) (b : Fin 30) (r : Fin 256) (hr : r.val = 16 * o.val + i.val) :
    coefFlat m c (ix2 r b) = m ((c : Thread nD τ).loc main_arg1) (ix3 o i b) := by
  rw [coefFlat_eq]
  refine shapeCast_apply _ _ (ix2 r b) (ix3 o i b) ?_
  rw [Shape.rowMajor_val_three, Shape.rowMajor_val_two]
  show (o.val * 16 + i.val) * 30 + b.val = r.val * 30 + b.val
  omega

theorem tail_eq (c : Dev nD) :
    Pipeline.afterTail₀ cfgs (dats m) 0 (V0 m) [hostOps1] c main_v3
      = shapeCast S16x16x4096x27 (flat (posFlat m c) (coefFlat m c)) shapeCasts_S256x110592_S16x16x4096x27 := by
  unfold Pipeline.afterTail₀
  show StableHlo.after hostOps1 _ (Proc.devRef .tc main_v3) = _
  after_results
  exact congrArg (fun A : S256x110592.Idx → EReal => shapeCast S16x16x4096x27 A shapeCasts_S256x110592_S16x16x4096x27)
    ((Pipeline.withArrays_arr spec0 launch0.win.arr_inj c _ _ 2).trans (final m c))

/-- The three views keep row-major order: entry (o, i, x, n) is the flat result at (16 o + i, 27 x + n). -/
theorem result_apply (c : Dev nD) (o i : Fin 16) (x : Fin 4096) (n : Fin 27) :
    shapeCast S16x16x4096x27 (flat (posFlat m c) (coefFlat m c)) shapeCasts_S256x110592_S16x16x4096x27 (ix4 o i x n)
      = Cert.Spec.outAt (m ((c : Thread nD τ).loc main_arg0)) (m ((c : Thread nD τ).loc main_arg1)) o i x n := by
  have hr : 16 * o.val + i.val < 256 := by omega
  have hJ : 27 * x.val + n.val < 110592 := by omega
  refine (shapeCast_apply _ _ (ix4 o i x n) (ix2 (⟨16 * o.val + i.val, hr⟩ : Fin 256) (⟨27 * x.val + n.val, hJ⟩ : Fin 110592)) ?_).trans ?_
  · rw [Shape.rowMajor_val_two, Shape.rowMajor_val_four]
    show (16 * o.val + i.val) * 110592 + (27 * x.val + n.val) = ((o.val * 16 + i.val) * 4096 + x.val) * 27 + n.val
    omega
  show flatAt (posFlat m c) (coefFlat m c) ⟨16 * o.val + i.val, hr⟩ ⟨27 * x.val + n.val, hJ⟩ = _
  unfold flatAt Cert.Spec.outAt
  refine Finset.sum_congr rfl fun b _ => ?_
  rw [coefFlat_apply m c o i b _ rfl, posFlat_apply m c x n 0 _ rfl, posFlat_apply m c x n 1 _ rfl, posFlat_apply m c x n 2 _ rfl]

theorem result_eq (c : Dev nD) :
    Pipeline.afterTail₀ cfgs (dats m) 0 (V0 m) [hostOps1] c main_v3
      = Cert.Spec.out (m ((c : Thread nD τ).loc main_arg0)) (m ((c : Thread nD τ).loc main_arg1)) := by
  rw [tail_eq]
  funext y
  obtain ⟨o, i, x, n, rfl⟩ : ∃ (o i : Fin 16) (x : Fin 4096) (n : Fin 27), y = ix4 o i x n := ⟨y 0, y 1, y 2, y 3, eq_ix4 y⟩
  rw [Cert.Spec.out_apply]
  exact result_apply m c o i x n

theorem run : θ_run (Cert.KernelIdeal.defs (F := Ideal)) (onTc (τ := τ) (main (F := Ideal))) ⟨m, fun _ => 0, ρ⟩ fun r => ∀ c : Dev nD,
      r.2.mem ((c.tc : Thread nD τ).loc main_v3) = Cert.Spec.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.HandValue

end
-- ==== Proof.RefChunk.lean ====
import proofs.«118825_j71382356459674_1_alg».proof.Proof.Gen.ReferenceIdeal
import proofs.«118825_j71382356459674_1_alg».proof.Proof.BasisTable
import proofs.«118825_j71382356459674_1_alg».proof.Proof.Words
import Idealize.ShloMosaic.Lib.StableHlo.Run
import Idealize.ShloMosaic.Lib.ValueIdx
import Idealize.ShloMosaic.PureOps.Ideal.Laws

noncomputable section

namespace Cert.RefChunk

open Idealize.ShloMosaic Idealize.ShloMosaic.StableHlo Idealize.ShloMosaic.ValueIdx

variable {τ : Topo} {sig : RefSig} {Val : EltTy → Type}

/-- What the run needs of a stretch of operations: every buffer they touch is one the run holds, none allocates, and each
    writes only a buffer of `refs`. -/
structure Stretch (ops : List (HloOp τ sig Val)) (refs : List (Ref sig .tc)) : Prop where
  sub : ops.Forall fun op => op.bufs ⊆ tcRefs τ sig
  fresh : ∀ op ∈ ops, op.fresh = ∅
  writes : ops.Forall fun op => op.writes ⊆ (refs.map (Proc.devRef (τ := τ) .tc)).toFinset

/-- A buffer outside the list is left as it was. -/
theorem Stretch.keep {ops : List (HloOp τ sig Val)} {refs : List (Ref sig .tc)} (h : Stretch ops refs)
    (W : Valuation τ sig Val) {r : Ref sig .tc} (hr : r ∉ refs) :
    after ops W (no_index (Proc.devRef .tc r)) = W (Proc.devRef .tc r) := after_of_writes_sub ops W h.writes hr

theorem Stretch.append {l₁ l₂ : List (HloOp τ sig Val)} {r₁ r₂ : List (Ref sig .tc)} (h₁ : Stretch l₁ r₁) (h₂ : Stretch l₂ r₂) :
    Stretch (l₁ ++ l₂) (r₁ ++ r₂) where
  sub := List.forall_iff_forall_mem.2 fun op h => (List.mem_append.1 h).elim
    (List.forall_iff_forall_mem.1 h₁.sub op) (List.forall_iff_forall_mem.1 h₂.sub op)
  fresh := fun op h => (List.mem_append.1 h).elim (h₁.fresh op) (h₂.fresh op)
  writes := List.forall_iff_forall_mem.2 fun op h => (List.mem_append.1 h).elim
    (fun h => (List.forall_iff_forall_mem.1 h₁.writes op h).trans fun d hd =>
      List.mem_toFinset.2 (List.map_append ▸ List.mem_append_left _ (List.mem_toFinset.1 hd)))
    (fun h => (List.forall_iff_forall_mem.1 h₂.writes op h).trans fun d hd =>
      List.mem_toFinset.2 (List.map_append ▸ List.mem_append_right _ (List.mem_toFinset.1 hd)))

macro "stretch_facts" : tactic =>
  `(tactic| (refine ⟨?_, List.forall_iff_forall_mem.1 ?_, ?_⟩
             · simp only [List.Forall, nullary_bufs_sub, unary_bufs_sub, binary_bufs_sub, reshape_bufs_sub, nary_bufs_sub, and_self]
             · repeat' apply And.intro
               all_goals rfl
             · simp only [List.Forall, nullary_writes, unary_writes, binary_writes, reshape_writes, nary_writes,
                 Finset.singleton_subset_iff, List.mem_toFinset]
               repeat' apply And.intro
               all_goals exact List.mem_map_of_mem (by decide)))

variable {s : Shape} {φ : FTy}

theorem host_exp_apply (a : FVec Ideal s φ) (i : s.Idx) : Host.exp a i = Ideal.exp (a i) := rfl
theorem host_cos_apply (a : FVec Ideal s φ) (i : s.Idx) : Host.cos a i = Ideal.cos (a i) := rfl
theorem host_sin_apply (a : FVec Ideal s φ) (i : s.Idx) : Host.sin a i = Ideal.sin (a i) := rfl
theorem host_sqrt_apply (a : FVec Ideal s φ) (i : s.Idx) : Host.sqrt a i = Ideal.sqrt (a i) := rfl
theorem host_divf_apply (a b : FVec Ideal s φ) (i : s.Idx) : Host.divf a b i = Ideal.div (a i) (b i) := rfl

macro "pointwise_value" : tactic =>
  `(tactic| (after_results_simp
             simp only [mulf_apply, addf_apply, subf_apply, maximumf_apply, host_exp_apply, host_cos_apply, host_sin_apply,
               host_sqrt_apply, host_divf_apply, broadcastInDim, constant, Ideal.ofBits_def, id, TRef.ofBuf, TRef.toBuf, cast_eq,
               Cert.Words.one_word_mul, Cert.Words.mul_one_word, Cert.Words.zero_word_add, Cert.Words.add_zero_word,
               Cert.Basis.sinPolar, Cert.Basis.radial10, Cert.Basis.radial20, Cert.Basis.radial21, Cert.Basis.radial30,
               Cert.Basis.radial31, Cert.Basis.radial32, Cert.Basis.radial40, Cert.Basis.radial41, Cert.Basis.radial42,
               Cert.Basis.radial43, Cert.Basis.harmonic00, Cert.Basis.harmonic1m1, Cert.Basis.harmonic10, Cert.Basis.harmonic1p1,
               Cert.Basis.harmonic2m2, Cert.Basis.harmonic2m1, Cert.Basis.harmonic20, Cert.Basis.harmonic2p1, Cert.Basis.harmonic2p2,
               Cert.Basis.harmonic3m3, Cert.Basis.harmonic3m2, Cert.Basis.harmonic3m1, Cert.Basis.harmonic30, Cert.Basis.harmonic3p1,
               Cert.Basis.harmonic3p2, Cert.Basis.harmonic3p3]))

end Cert.RefChunk

end
-- ==== Proof.RefHeadOps.lean ====
import proofs.«118825_j71382356459674_1_alg».proof.Proof.RefChunk

noncomputable section

namespace Cert.ReferenceIdeal.Head

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [unary main_arg0 main_v0 ((extractStridedSlice S4096x27x1 ![0, 0, 0] · slices_S4096x27x3_S4096x27x1_0_0_0) : (⟨S4096x27x3, .f32⟩ : BufTy).Contents (Elt F) → (⟨S4096x27x1, .f32⟩ : BufTy).Contents (Elt F)),
   reshape main_v0 main_v1 rfl shapeCasts_S4096x27x1_S4096x27,
   unary main_arg0 main_v2 ((extractStridedSlice S4096x27x1 ![0, 0, 1] · slices_S4096x27x3_S4096x27x1_0_0_1) : (⟨S4096x27x3, .f32⟩ : BufTy).Contents (Elt F) → (⟨S4096x27x1, .f32⟩ : BufTy).Contents (Elt F)),
   reshape main_v2 main_v3 rfl shapeCasts_S4096x27x1_S4096x27,
   unary main_arg0 main_v4 ((extractStridedSlice S4096x27x1 ![0, 0, 2] · slices_S4096x27x3_S4096x27x1_0_0_2) : (⟨S4096x27x3, .f32⟩ : BufTy).Contents (Elt F) → (⟨S4096x27x1, .f32⟩ : BufTy).Contents (Elt F)),
   reshape main_v4 main_v5 rfl shapeCasts_S4096x27x1_S4096x27]

def refs : List (Ref sig .tc) :=
  [main_v0, main_v1, main_v2, main_v3, main_v4, main_v5]

theorem facts {F : FTy → Type} [FloatOps F] : Stretch (ops (F := F)) refs := by unfold ops refs; stretch_facts

end Cert.ReferenceIdeal.Head

end
-- ==== Proof.RefHead.lean ====
import proofs.«118825_j71382356459674_1_alg».proof.Proof.RefHeadOps
import Idealize.ShloMosaic.Lib.Pipeline.Value

noncomputable section

namespace Cert.ReferenceIdeal.Head

open Cert.ReferenceIdeal Cert.ReferenceIdeal.Gen Idealize.ShloMosaic Idealize.ShloMosaic.TcCoe Idealize.SL.Sem Idealize.ShloMosaic.StableHlo Idealize.ShloMosaic.ValueIdx

/-- Coordinate array c (a unit-width slice of the last axis, the unit axis dropped) at (x, n) is the position at (x, n, c). -/
theorem radius (V : Valuation τ sig (Elt Ideal)) (x : Fin 4096) (n : Fin 27) :
    after (ops (F := Ideal)) V (no_index (Proc.devRef .tc main_v1)) (ix2 x n) = V (Proc.devRef .tc main_arg0) (ix3 x n 0) := by
  unfold ops
  after_results
  refine (shapeCast_apply _ _ (ix2 x n) (ix3 x n (0 : Fin 1)) ?_).trans ?_
  · rw [Shape.rowMajor_val_three, Shape.rowMajor_val_two]; simp
  refine extractStridedSlice_apply _ _ _ _ (ix3 x n 0) fun a => ?_
  match a with
  | ⟨0, _⟩ => simp
  | ⟨1, _⟩ => simp
  | ⟨2, _⟩ => simp

theorem polar (V : Valuation τ sig (Elt Ideal)) (x : Fin 4096) (n : Fin 27) :
    after (ops (F := Ideal)) V (no_index (Proc.devRef .tc main_v3)) (ix2 x n) = V (Proc.devRef .tc main_arg0) (ix3 x n 1) := by
  unfold ops
  after_results
  refine (shapeCast_apply _ _ (ix2 x n) (ix3 x n (0 : Fin 1)) ?_).trans ?_
  · rw [Shape.rowMajor_val_three, Shape.rowMajor_val_two]; simp
  refine extractStridedSlice_apply _ _ _ _ (ix3 x n 1) fun a => ?_
  match a with
  | ⟨0, _⟩ => simp
  | ⟨1, _⟩ => simp
  | ⟨2, _⟩ => simp

theorem azimuth (V : Valuation τ sig (Elt Ideal)) (x : Fin 4096) (n : Fin 27) :
    after (ops (F := Ideal)) V (no_index (Proc.devRef .tc main_v5)) (ix2 x n) = V (Proc.devRef .tc main_arg0) (ix3 x n 2) := by
  unfold ops
  after_results
  refine (shapeCast_apply _ _ (ix2 x n) (ix3 x n (0 : Fin 1)) ?_).trans ?_
  · rw [Shape.rowMajor_val_three, Shape.rowMajor_val_two]; simp
  refine extractStridedSlice_apply _ _ _ _ (ix3 x n 2) fun a => ?_
  match a with
  | ⟨0, _⟩ => simp
  | ⟨1, _⟩ => simp
  | ⟨2, _⟩ => simp

end Cert.ReferenceIdeal.Head

end
-- ==== Proof.RefTailOps.lean ====
import proofs.«118825_j71382356459674_1_alg».proof.Proof.RefChunk

noncomputable section

namespace Cert.ReferenceIdeal.Tail

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [unary main_v28 main_v1014 (broadcastInDim S4096x27x1 ![0, 1] bcast_S4096x27_S4096x27x1_0_1),
   unary main_v54 main_v1015 (broadcastInDim S4096x27x1 ![0, 1] bcast_S4096x27_S4096x27x1_0_1),
   unary main_v83 main_v1016 (broadcastInDim S4096x27x1 ![0, 1] bcast_S4096x27_S4096x27x1_0_1),
   unary main_v108 main_v1017 (broadcastInDim S4096x27x1 ![0, 1] bcast_S4096x27_S4096x27x1_0_1),
   unary main_v137 main_v1018 (broadcastInDim S4096x27x1 ![0, 1] bcast_S4096x27_S4096x27x1_0_1),
   unary main_v166 main_v1019 (broadcastInDim S4096x27x1 ![0, 1] bcast_S4096x27_S4096x27x1_0_1),
   unary main_v198 main_v1020 (broadcastInDim S4096x27x1 ![0, 1] bcast_S4096x27_S4096x27x1_0_1),
   unary main_v226 main_v1021 (broadcastInDim S4096x27x1 ![0, 1] bcast_S4096x27_S4096x27x1_0_1),
   unary main_v258 main_v1022 (broadcastInDim S4096x27x1 ![0, 1] bcast_S4096x27_S4096x27x1_0_1),
   unary main_v291 main_v1023 (broadcastInDim S4096x27x1 ![0, 1] bcast_S4096x27_S4096x27x1_0_1),
   unary main_v324 main_v1024 (broadcastInDim S4096x27x1 ![0, 1] bcast_S4096x27_S4096x27x1_0_1),
   unary main_v358 main_v1025 (broadcastInDim S4096x27x1 ![0, 1] bcast_S4096x27_S4096x27x1_0_1),
   unary main_v391 main_v1026 (broadcastInDim S4096x27x1 ![0, 1] bcast_S4096x27_S4096x27x1_0_1),
   unary main_v424 main_v1027 (broadcastInDim S4096x27x1 ![0, 1] bcast_S4096x27_S4096x27x1_0_1),
   unary main_v456 main_v1028 (broadcastInDim S4096x27x1 ![0, 1] bcast_S4096x27_S4096x27x1_0_1),
   unary main_v491 main_v1029 (broadcastInDim S4096x27x1 ![0, 1] bcast_S4096x27_S4096x27x1_0_1),
   unary main_v522 main_v1030 (broadcastInDim S4096x27x1 ![0, 1] bcast_S4096x27_S4096x27x1_0_1),
   unary main_v557 main_v1031 (broadcastInDim S4096x27x1 ![0, 1] bcast_S4096x27_S4096x27x1_0_1),
   unary main_v593 main_v1032 (broadcastInDim S4096x27x1 ![0, 1] bcast_S4096x27_S4096x27x1_0_1),
   unary main_v629 main_v1033 (broadcastInDim S4096x27x1 ![0, 1] bcast_S4096x27_S4096x27x1_0_1),
   unary main_v666 main_v1034 (broadcastInDim S4096x27x1 ![0, 1] bcast_S4096x27_S4096x27x1_0_1),
   unary main_v702 main_v1035 (broadcastInDim S4096x27x1 ![0, 1] bcast_S4096x27_S4096x27x1_0_1),
   unary main_v738 main_v1036 (broadcastInDim S4096x27x1 ![0, 1] bcast_S4096x27_S4096x27x1_0_1),
   unary main_v775 main_v1037 (broadcastInDim S4096x27x1 ![0, 1] bcast_S4096x27_S4096x27x1_0_1),
   unary main_v812 main_v1038 (broadcastInDim S4096x27x1 ![0, 1] bcast_S4096x27_S4096x27x1_0_1),
   unary main_v854 main_v1039 (broadcastInDim S4096x27x1 ![0, 1] bcast_S4096x27_S4096x27x1_0_1),
   unary main_v897 main_v1040 (broadcastInDim S4096x27x1 ![0, 1] bcast_S4096x27_S4096x27x1_0_1),
   unary main_v939 main_v1041 (broadcastInDim S4096x27x1 ![0, 1] bcast_S4096x27_S4096x27x1_0_1),
   unary main_v976 main_v1042 (broadcastInDim S4096x27x1 ![0, 1] bcast_S4096x27_S4096x27x1_0_1),
   unary main_v1013 main_v1043 (broadcastInDim S4096x27x1 ![0, 1] bcast_S4096x27_S4096x27x1_0_1),
   nary ![main_v1014, main_v1015, main_v1016, main_v1017, main_v1018, main_v1019, main_v1020, main_v1021, main_v1022, main_v1023, main_v1024, main_v1025, main_v1026, main_v1027, main_v1028, main_v1029] main_v1044 (fun u => concatenate S4096x27x16 2 [⟨S4096x27x1, u 0⟩, ⟨S4096x27x1, u 1⟩, ⟨S4096x27x1, u 2⟩, ⟨S4096x27x1, u 3⟩, ⟨S4096x27x1, u 4⟩, ⟨S4096x27x1, u 5⟩, ⟨S4096x27x1, u 6⟩, ⟨S4096x27x1, u 7⟩, ⟨S4096x27x1, u 8⟩, ⟨S4096x27x1, u 9⟩, ⟨S4096x27x1, u 10⟩, ⟨S4096x27x1, u 11⟩, ⟨S4096x27x1, u 12⟩, ⟨S4096x27x1, u 13⟩, ⟨S4096x27x1, u 14⟩, ⟨S4096x27x1, u 15⟩] concatenates_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x16_d2),
   nary ![main_v1030, main_v1031, main_v1032, main_v1033, main_v1034, main_v1035, main_v1036, main_v1037, main_v1038, main_v1039, main_v1040, main_v1041, main_v1042, main_v1043] main_v1045 (fun u => concatenate S4096x27x14 2 [⟨S4096x27x1, u 0⟩, ⟨S4096x27x1, u 1⟩, ⟨S4096x27x1, u 2⟩, ⟨S4096x27x1, u 3⟩, ⟨S4096x27x1, u 4⟩, ⟨S4096x27x1, u 5⟩, ⟨S4096x27x1, u 6⟩, ⟨S4096x27x1, u 7⟩, ⟨S4096x27x1, u 8⟩, ⟨S4096x27x1, u 9⟩, ⟨S4096x27x1, u 10⟩, ⟨S4096x27x1, u 11⟩, ⟨S4096x27x1, u 12⟩, ⟨S4096x27x1, u 13⟩] concatenates_S4096x27x1_S4096x27x1_S4096x27x1_S4096x27x1_S4096x27x1_S4096x27x1_S4096x27x1_S4096x27x1_S4096x27x1_S4096x27x1_S4096x27x1_S4096x27x1_S4096x27x1_S4096x27x1_S4096x27x14_d2),
   binary main_v1044 main_v1045 main_v1046 ((fun a b => concatenate S4096x27x30 2 [⟨S4096x27x16, a⟩, ⟨S4096x27x14, b⟩] concatenates_S4096x27x16_S4096x27x14_S4096x27x30_d2) : (⟨S4096x27x16, .f32⟩ : BufTy).Contents (Elt F) → (⟨S4096x27x14, .f32⟩ : BufTy).Contents (Elt F) → (⟨S4096x27x30, .f32⟩ : BufTy).Contents (Elt F)),
   binary main_arg1 main_v1046 main_v1047 ((fun l r => Host.dotGeneral dot_S16x16x30_S4096x27x30_S16x16x4096x27_2_2_01_01_n_n none l r) : (⟨S16x16x30, .f32⟩ : BufTy).Contents (Elt F) → (⟨S4096x27x30, .f32⟩ : BufTy).Contents (Elt F) → (⟨S16x16x4096x27, .f32⟩ : BufTy).Contents (Elt F))]

def refs : List (Ref sig .tc) :=
  [main_v1014, main_v1015, main_v1016, main_v1017, main_v1018, main_v1019, main_v1020, main_v1021, main_v1022, main_v1023, main_v1024, main_v1025, main_v1026, main_v1027, main_v1028, main_v1029, main_v1030, main_v1031, main_v1032, main_v1033, main_v1034, main_v1035, main_v1036, main_v1037, main_v1038, main_v1039, main_v1040, main_v1041, main_v1042, main_v1043, main_v1044, main_v1045, main_v1046, main_v1047]

theorem facts {F : FTy → Type} [FloatOps F] : Stretch (ops (F := F)) refs := by unfold ops refs; stretch_facts

end Cert.ReferenceIdeal.Tail

end
-- ==== Proof.RefDot.lean ====
import proofs.«118825_j71382356459674_1_alg».proof.Proof.Gen.ReferenceIdeal
import Idealize.ShloMosaic.Lib.ValueIdx
import Idealize.ShloMosaic.PureOps.Ideal.Laws

noncomputable section

open scoped BigOperators

namespace Cert.ReferenceIdeal.Dot

open Cert.ReferenceIdeal Cert.ReferenceIdeal.Gen Idealize.ShloMosaic Idealize.ShloMosaic.ValueIdx

abbrev DR : DotDims S16x16x30 S4096x27x30 S16x16x4096x27 := dot_S16x16x30_S4096x27x30_S16x16x4096x27_2_2_01_01_n_n

theorem lhs_0 (q : S16x16x4096x27.Idx) (k : DR.contr.Idx) : (DR.lhsIdx q k 0).val = (q 0).val := by
  unfold DotDims.lhsIdx
  rw [dif_neg (by decide), dif_pos (by decide)]
  rfl
theorem lhs_1 (q : S16x16x4096x27.Idx) (k : DR.contr.Idx) : (DR.lhsIdx q k 1).val = (q 1).val := by
  unfold DotDims.lhsIdx
  rw [dif_neg (by decide), dif_pos (by decide)]
  rfl
theorem lhs_2 (q : S16x16x4096x27.Idx) (k : DR.contr.Idx) : (DR.lhsIdx q k 2).val = (k ⟨0, by decide⟩).val :=
  DR.lhsIdx_val_of_single (cl := 2) rfl q k
theorem rhs_0 (q : S16x16x4096x27.Idx) (k : DR.contr.Idx) : (DR.rhsIdx q k 0).val = (q 2).val := by
  unfold DotDims.rhsIdx
  rw [dif_neg (by decide), dif_pos (by decide)]
  rfl
theorem rhs_1 (q : S16x16x4096x27.Idx) (k : DR.contr.Idx) : (DR.rhsIdx q k 1).val = (q 3).val := by
  unfold DotDims.rhsIdx
  rw [dif_neg (by decide), dif_pos (by decide)]
  rfl
theorem rhs_2 (q : S16x16x4096x27.Idx) (k : DR.contr.Idx) : (DR.rhsIdx q k 2).val = (k ⟨0, by decide⟩).val :=
  DR.rhsIdx_val_of_single (cr := 2) rfl q k

/-- Contracting [16,16,30] with [4096,27,30] over the last axes: at (o, i, x, n) the sum over b of C (o, i, b) · B (x, n, b). -/
theorem dot_apply (C : FVec Ideal S16x16x30 .f32) (B : FVec Ideal S4096x27x30 .f32) (o i : Fin 16) (x : Fin 4096) (n : Fin 27) :
    Host.dotGeneral DR none C B (ix4 o i x n) = ∑ b : Fin 30, C (ix3 o i b) * B (ix3 x n b) := by
  simp only [Host.dotGeneral]
  rw [Ideal.dotGeneral_apply]
  rw [← Equiv.sum_comp (contrEquiv1 DR 30 rfl rfl).symm]
  refine Finset.sum_congr rfl fun b _ => ?_
  have hl : DR.lhsIdx (ix4 o i x n) ((contrEquiv1 DR 30 rfl rfl).symm b) = ix3 o i b := by
    funext a; apply Fin.ext
    match a with
    | ⟨0, _⟩ => exact lhs_0 _ _
    | ⟨1, _⟩ => exact lhs_1 _ _
    | ⟨2, _⟩ => exact (lhs_2 _ _).trans (contrEquiv1_symm_val DR 30 rfl rfl b)
  have hr : DR.rhsIdx (ix4 o i x n) ((contrEquiv1 DR 30 rfl rfl).symm b) = ix3 x n b := by
    funext a; apply Fin.ext
    match a with
    | ⟨0, _⟩ => exact rhs_0 _ _
    | ⟨1, _⟩ => exact rhs_1 _ _
    | ⟨2, _⟩ => exact (rhs_2 _ _).trans (contrEquiv1_symm_val DR 30 rfl rfl b)
  rw [hl, hr]

end Cert.ReferenceIdeal.Dot
end
-- ==== Proof.RefTailValue.lean ====
import proofs.«118825_j71382356459674_1_alg».proof.Proof.RefTailOps
import proofs.«118825_j71382356459674_1_alg».proof.Proof.RefDot
import Idealize.ShloMosaic.Lib.Pipeline.Value
import Idealize.ShloMosaic.Lib.Pipeline.Frame

noncomputable section

open scoped BigOperators

namespace Cert.ReferenceIdeal.Line

open Idealize.ShloMosaic Idealize.ShloMosaic.StableHlo

variable {τ : Topo} {sig : RefSig} {Val : EltTy → Type}

/-- A line run up to its operation `k`, then that operation, then the rest. -/
theorem after_split : ∀ (l : List (HloOp τ sig Val)) (k : Nat) (hk : k < l.length) (V : Valuation τ sig Val),
    after l V = after (l.drop (k + 1)) ((l[k]'hk).result (after (l.take k) V))
  | [], _, hk, _ => absurd hk (Nat.not_lt_zero _)
  | _ :: _, 0, _, _ => rfl
  | op :: l, k + 1, hk, V => after_split l k (Nat.lt_of_succ_lt_succ hk) (op.result V)

/-- Operation `k` of the line writes at most reference `k` of the list: every buffer is written once. -/
structure Writes (l : List (HloOp τ sig Val)) (R : List (Ref sig .tc)) : Prop where
  len : l.length = R.length
  sub : ∀ (k : Nat) (h₁ : k < l.length) (h₂ : k < R.length), (l[k]'h₁).writes ⊆ {Proc.devRef (τ := τ) .tc (R[k]'h₂)}

theorem Writes.not_mem {l : List (HloOp τ sig Val)} {R : List (Ref sig .tc)} (h : Writes l R) (j : Nat) {r : Ref sig .tc}
    (hr : r ∉ R.drop j) : ∀ op ∈ l.drop j, Proc.devRef (τ := τ) .tc r ∉ op.writes := by
  intro op hop hw
  obtain ⟨i, hi, rfl⟩ := List.getElem_of_mem hop
  have hl : j + i < l.length := by rw [List.length_drop] at hi; omega
  have hR : j + i < R.length := h.len ▸ hl
  rw [List.getElem_drop] at hw
  have e : r = R[j + i]'hR := Proc.devRef_injective _ (Finset.mem_singleton.mp (h.sub (j + i) hl hR hw))
  refine hr ?_
  rw [e, ← List.getElem_drop (h := by rw [List.length_drop]; omega)]
  exact List.getElem_mem _

theorem after_keep {l : List (HloOp τ sig Val)} {R : List (Ref sig .tc)} (h : Writes l R) {r : Ref sig .tc} (hr : r ∉ R)
    (V : Valuation τ sig Val) : after l V (Proc.devRef .tc r) = V (Proc.devRef .tc r) :=
  after_of_forall_not_mem l V (by simpa using h.not_mem 0 (by simpa using hr))

theorem after_eq_take {l : List (HloOp τ sig Val)} {R : List (Ref sig .tc)} (h : Writes l R) (k : Nat) {r : Ref sig .tc}
    (hr : r ∉ R.drop k) (V : Valuation τ sig Val) :
    after l V (Proc.devRef .tc r) = after (l.take k) V (Proc.devRef .tc r) :=
  calc after l V (Proc.devRef .tc r) = after (l.take k ++ l.drop k) V (Proc.devRef .tc r) := by rw [List.take_append_drop]
    _ = after (l.drop k) (after (l.take k) V) (Proc.devRef .tc r) := by rw [after_append]
    _ = after (l.take k) V (Proc.devRef .tc r) := after_of_forall_not_mem _ _ (h.not_mem k hr)

/-- If nothing after operation `k` writes its buffer again, the buffer ends at what operation `k` left there. -/
theorem after_at {l : List (HloOp τ sig Val)} {R : List (Ref sig .tc)} (h : Writes l R) (k : Nat) (hk : k < l.length) {y : Ref sig .tc}
    (hy : y ∉ R.drop (k + 1)) (V : Valuation τ sig Val) :
    after l V (Proc.devRef .tc y) = (l[k]'hk).result (after (l.take k) V) (Proc.devRef .tc y) :=
  (congrFun (after_split l k hk V) (Proc.devRef .tc y)).trans (after_of_forall_not_mem _ _ (h.not_mem (k + 1) hy))

/-- In such a line a buffer ends at its operation's function of the FINAL contents of the operands. -/
theorem after_unary {l : List (HloOp τ sig Val)} {R : List (Ref sig .tc)} (h : Writes l R) (k : Nat) (hk : k < l.length)
    {x y : Ref sig .tc} {f : x.ty.Contents Val → y.ty.Contents Val}
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hop : l[k]'hk = unary x y f hx hy) (hx' : x ∉ R.drop k) (hy' : y ∉ R.drop (k + 1)) (V : Valuation τ sig Val) :
    after l V (Proc.devRef .tc y) = f (after l V (Proc.devRef .tc x)) := by
  rw [after_at h k hk hy' V, hop, unary_result, after_eq_take h k hx' V]

theorem after_binary {l : List (HloOp τ sig Val)} {R : List (Ref sig .tc)} (h : Writes l R) (k : Nat) (hk : k < l.length)
    {a b y : Ref sig .tc} {f : a.ty.Contents Val → b.ty.Contents Val → y.ty.Contents Val}
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hop : l[k]'hk = binary a b y f ha hb hy) (ha' : a ∉ R.drop k) (hb' : b ∉ R.drop k) (hy' : y ∉ R.drop (k + 1))
    (V : Valuation τ sig Val) :
    after l V (Proc.devRef .tc y) = f (after l V (Proc.devRef .tc a)) (after l V (Proc.devRef .tc b)) := by
  rw [after_at h k hk hy' V, hop, binary_result, after_eq_take h k ha' V, after_eq_take h k hb' V]

theorem after_nary {l : List (HloOp τ sig Val)} {R : List (Ref sig .tc)} (h : Writes l R) (k : Nat) (hk : k < l.length)
    {n : Nat} {xs : Fin n → Ref sig .tc} {y : Ref sig .tc} {f : ((j : Fin n) → (xs j).ty.Contents Val) → y.ty.Contents Val}
    (hxs : ∀ j, (xs j).space ≠ .host ∧ (Proc.devRef (τ := τ) .tc (xs j)).isScoped = false := by decide)
    (hy : y.space ≠ .host ∧ (Proc.devRef (τ := τ) .tc y).isScoped = false := by exact ⟨by decide, rfl⟩)
    (hop : l[k]'hk = nary xs y f hxs hy) (hxs' : ∀ j, xs j ∉ R.drop k) (hy' : y ∉ R.drop (k + 1)) (V : Valuation τ sig Val) :
    after l V (Proc.devRef .tc y) = f (fun j => after l V (Proc.devRef .tc (xs j))) := by
  rw [after_at h k hk hy' V, hop, nary_result]
  exact congrArg f (funext fun j => (after_eq_take h k (hxs' j) V).symm)

end Cert.ReferenceIdeal.Line

namespace Cert.ReferenceIdeal.Tail

open Cert.ReferenceIdeal Cert.ReferenceIdeal.Gen Idealize.ShloMosaic Idealize.ShloMosaic.TcCoe Idealize.SL.Sem Idealize.ShloMosaic.StableHlo Idealize.ShloMosaic.ValueIdx
open Cert.ReferenceIdeal.Line Cert.ReferenceIdeal.Dot

def colVal (W : Valuation τ sig (Elt Ideal)) : Fin 30 → (S4096x27.Idx → EReal) := fun
  | ⟨0, _⟩ => W (Proc.devRef .tc main_v28)
  | ⟨1, _⟩ => W (Proc.devRef .tc main_v54)
  | ⟨2, _⟩ => W (Proc.devRef .tc main_v83)
  | ⟨3, _⟩ => W (Proc.devRef .tc main_v108)
  | ⟨4, _⟩ => W (Proc.devRef .tc main_v137)
  | ⟨5, _⟩ => W (Proc.devRef .tc main_v166)
  | ⟨6, _⟩ => W (Proc.devRef .tc main_v198)
  | ⟨7, _⟩ => W (Proc.devRef .tc main_v226)
  | ⟨8, _⟩ => W (Proc.devRef .tc main_v258)
  | ⟨9, _⟩ => W (Proc.devRef .tc main_v291)
  | ⟨10, _⟩ => W (Proc.devRef .tc main_v324)
  | ⟨11, _⟩ => W (Proc.devRef .tc main_v358)
  | ⟨12, _⟩ => W (Proc.devRef .tc main_v391)
  | ⟨13, _⟩ => W (Proc.devRef .tc main_v424)
  | ⟨14, _⟩ => W (Proc.devRef .tc main_v456)
  | ⟨15, _⟩ => W (Proc.devRef .tc main_v491)
  | ⟨16, _⟩ => W (Proc.devRef .tc main_v522)
  | ⟨17, _⟩ => W (Proc.devRef .tc main_v557)
  | ⟨18, _⟩ => W (Proc.devRef .tc main_v593)
  | ⟨19, _⟩ => W (Proc.devRef .tc main_v629)
  | ⟨20, _⟩ => W (Proc.devRef .tc main_v666)
  | ⟨21, _⟩ => W (Proc.devRef .tc main_v702)
  | ⟨22, _⟩ => W (Proc.devRef .tc main_v738)
  | ⟨23, _⟩ => W (Proc.devRef .tc main_v775)
  | ⟨24, _⟩ => W (Proc.devRef .tc main_v812)
  | ⟨25, _⟩ => W (Proc.devRef .tc main_v854)
  | ⟨26, _⟩ => W (Proc.devRef .tc main_v897)
  | ⟨27, _⟩ => W (Proc.devRef .tc main_v939)
  | ⟨28, _⟩ => W (Proc.devRef .tc main_v976)
  | ⟨29, _⟩ => W (Proc.devRef .tc main_v1013)
  | ⟨_ + 30, h⟩ => absurd h (Nat.not_lt.2 (Nat.le_add_left _ _))

abbrev coef (W : Valuation τ sig (Elt Ideal)) : S16x16x30.Idx → EReal := W (Proc.devRef .tc main_arg1)

def unitCol (W : Valuation τ sig (Elt Ideal)) (b : Fin 30) : S4096x27x1.Idx → EReal :=
  broadcastInDim S4096x27x1 ![0, 1] bcast_S4096x27_S4096x27x1_0_1 (colVal W b)

theorem unitCol_apply (W : Valuation τ sig (Elt Ideal)) (b : Fin 30) (x : Fin 4096) (n : Fin 27) :
    unitCol W b (ix3 x n (0 : Fin 1)) = colVal W b (ix2 x n) := by
  refine broadcastInDim_apply _ _ _ (ix3 x n (0 : Fin 1)) (ix2 x n) fun a => ?_
  match a with
  | ⟨0, _⟩ => show x.val = if (4096 : ℕ) = 1 then 0 else x.val; exact (if_neg (by decide)).symm
  | ⟨1, _⟩ => show n.val = if (27 : ℕ) = 1 then 0 else n.val; exact (if_neg (by decide)).symm

def stack (c : Fin 30 → (S4096x27x1.Idx → EReal)) : S4096x27x30.Idx → EReal :=
  concatenate S4096x27x30 2
    [⟨S4096x27x16, concatenate S4096x27x16 2 [⟨S4096x27x1, c 0⟩, ⟨S4096x27x1, c 1⟩, ⟨S4096x27x1, c 2⟩, ⟨S4096x27x1, c 3⟩, ⟨S4096x27x1, c 4⟩, ⟨S4096x27x1, c 5⟩, ⟨S4096x27x1, c 6⟩, ⟨S4096x27x1, c 7⟩, ⟨S4096x27x1, c 8⟩, ⟨S4096x27x1, c 9⟩, ⟨S4096x27x1, c 10⟩, ⟨S4096x27x1, c 11⟩, ⟨S4096x27x1, c 12⟩, ⟨S4096x27x1, c 13⟩, ⟨S4096x27x1, c 14⟩, ⟨S4096x27x1, c 15⟩] concatenates_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x16_d2⟩,
     ⟨S4096x27x14, concatenate S4096x27x14 2 [⟨S4096x27x1, c 16⟩, ⟨S4096x27x1, c 17⟩, ⟨S4096x27x1, c 18⟩, ⟨S4096x27x1, c 19⟩, ⟨S4096x27x1, c 20⟩, ⟨S4096x27x1, c 21⟩, ⟨S4096x27x1, c 22⟩, ⟨S4096x27x1, c 23⟩, ⟨S4096x27x1, c 24⟩, ⟨S4096x27x1, c 25⟩, ⟨S4096x27x1, c 26⟩, ⟨S4096x27x1, c 27⟩, ⟨S4096x27x1, c 28⟩, ⟨S4096x27x1, c 29⟩] concatenates_S4096x27x1_S4096x27x1_S4096x27x1_S4096x27x1_S4096x27x1_S4096x27x1_S4096x27x1_S4096x27x1_S4096x27x1_S4096x27x1_S4096x27x1_S4096x27x1_S4096x27x1_S4096x27x1_S4096x27x14_d2⟩]
    concatenates_S4096x27x16_S4096x27x14_S4096x27x30_d2

/-- Sixteen and fourteen one-entry-deep arrays stacked, then the two stacks: at (x, n, b) the b-th array at (x, n, 0). -/
theorem stack_apply (c : Fin 30 → (S4096x27x1.Idx → EReal)) (x : Fin 4096) (n : Fin 27) (b : Fin 30) :
    stack c (ix3 x n b) = c b (ix3 x n (0 : Fin 1)) := by
  unfold stack
  by_cases hb : b.val < 16
  · refine (concatenate_pair_apply_left (t := S4096x27x30) (s₁ := S4096x27x16) (s₂ := S4096x27x14) (2 : Fin 3) _ _ concatenates_S4096x27x16_S4096x27x14_S4096x27x30_d2 (ix3 x n b) rfl
      (ix3 x n (⟨b.val, hb⟩ : Fin 16)) (fun a => by
        match a with
        | ⟨0, _⟩ => rfl
        | ⟨1, _⟩ => rfl
        | ⟨2, _⟩ => rfl)).trans ?_
    exact concatenate_ofFn_unit_apply (t := S4096x27x16) (s₁ := S4096x27x1) (2 : Fin 3) (fun k : Fin 16 => c ⟨k.val, by have := k.isLt; omega⟩)
      concatenates_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x16_d2 rfl rfl (ix3 x n (⟨b.val, hb⟩ : Fin 16)) ⟨b.val, hb⟩ rfl (ix3 x n (0 : Fin 1)) (fun a ha => by
        match a with
        | ⟨0, _⟩ => rfl
        | ⟨1, _⟩ => rfl
        | ⟨2, _⟩ => exact absurd rfl ha)
  · have hb' : b.val - 16 < 14 := by have := b.isLt; omega
    refine (concatenate_pair_apply_right (t := S4096x27x30) (s₁ := S4096x27x16) (s₂ := S4096x27x14) (2 : Fin 3) _ _ concatenates_S4096x27x16_S4096x27x14_S4096x27x30_d2 (ix3 x n b) rfl rfl
      (ix3 x n (⟨b.val - 16, hb'⟩ : Fin 14)) (fun a ha => by
        match a with
        | ⟨0, _⟩ => rfl
        | ⟨1, _⟩ => rfl
        | ⟨2, _⟩ => exact absurd rfl ha) (by show b.val - 16 + 16 = b.val; omega)).trans ?_
    have e : (⟨16 + (b.val - 16), by omega⟩ : Fin 30) = b := Fin.ext (by show 16 + (b.val - 16) = b.val; omega)
    refine (concatenate_ofFn_unit_apply (t := S4096x27x14) (s₁ := S4096x27x1) (2 : Fin 3) (fun k : Fin 14 => c ⟨16 + k.val, by have := k.isLt; omega⟩)
      concatenates_S4096x27x1_S4096x27x1_S4096x27x1_S4096x27x1_S4096x27x1_S4096x27x1_S4096x27x1_S4096x27x1_S4096x27x1_S4096x27x1_S4096x27x1_S4096x27x1_S4096x27x1_S4096x27x1_S4096x27x14_d2 rfl rfl (ix3 x n (⟨b.val - 16, hb'⟩ : Fin 14)) ⟨b.val - 16, hb'⟩ rfl (ix3 x n (0 : Fin 1)) (fun a ha => by
        match a with
        | ⟨0, _⟩ => rfl
        | ⟨1, _⟩ => rfl
        | ⟨2, _⟩ => exact absurd rfl ha)).trans ?_
    show c ⟨16 + (b.val - 16), _⟩ (ix3 x n (0 : Fin 1)) = c b (ix3 x n (0 : Fin 1))
    rw [e]

theorem aligned : Writes (ops (F := Ideal)) refs where
  len := rfl
  sub := by
    intro k h₁ h₂
    have hk : k < 34 := h₂
    interval_cases k <;> exact Finset.Subset.refl _

theorem unit_eq (W : Valuation τ sig (Elt Ideal)) :
    after (ops (F := Ideal)) W (Proc.devRef .tc main_v1014) = unitCol W 0 ∧
    after (ops (F := Ideal)) W (Proc.devRef .tc main_v1015) = unitCol W 1 ∧
    after (ops (F := Ideal)) W (Proc.devRef .tc main_v1016) = unitCol W 2 ∧
    after (ops (F := Ideal)) W (Proc.devRef .tc main_v1017) = unitCol W 3 ∧
    after (ops (F := Ideal)) W (Proc.devRef .tc main_v1018) = unitCol W 4 ∧
    after (ops (F := Ideal)) W (Proc.devRef .tc main_v1019) = unitCol W 5 ∧
    after (ops (F := Ideal)) W (Proc.devRef .tc main_v1020) = unitCol W 6 ∧
    after (ops (F := Ideal)) W (Proc.devRef .tc main_v1021) = unitCol W 7 ∧
    after (ops (F := Ideal)) W (Proc.devRef .tc main_v1022) = unitCol W 8 ∧
    after (ops (F := Ideal)) W (Proc.devRef .tc main_v1023) = unitCol W 9 ∧
    after (ops (F := Ideal)) W (Proc.devRef .tc main_v1024) = unitCol W 10 ∧
    after (ops (F := Ideal)) W (Proc.devRef .tc main_v1025) = unitCol W 11 ∧
    after (ops (F := Ideal)) W (Proc.devRef .tc main_v1026) = unitCol W 12 ∧
    after (ops (F := Ideal)) W (Proc.devRef .tc main_v1027) = unitCol W 13 ∧
    after (ops (F := Ideal)) W (Proc.devRef .tc main_v1028) = unitCol W 14 ∧
    after (ops (F := Ideal)) W (Proc.devRef .tc main_v1029) = unitCol W 15 ∧
    after (ops (F := Ideal)) W (Proc.devRef .tc main_v1030) = unitCol W 16 ∧
    after (ops (F := Ideal)) W (Proc.devRef .tc main_v1031) = unitCol W 17 ∧
    after (ops (F := Ideal)) W (Proc.devRef .tc main_v1032) = unitCol W 18 ∧
    after (ops (F := Ideal)) W (Proc.devRef .tc main_v1033) = unitCol W 19 ∧
    after (ops (F := Ideal)) W (Proc.devRef .tc main_v1034) = unitCol W 20 ∧
    after (ops (F := Ideal)) W (Proc.devRef .tc main_v1035) = unitCol W 21 ∧
    after (ops (F := Ideal)) W (Proc.devRef .tc main_v1036) = unitCol W 22 ∧
    after (ops (F := Ideal)) W (Proc.devRef .tc main_v1037) = unitCol W 23 ∧
    after (ops (F := Ideal)) W (Proc.devRef .tc main_v1038) = unitCol W 24 ∧
    after (ops (F := Ideal)) W (Proc.devRef .tc main_v1039) = unitCol W 25 ∧
    after (ops (F := Ideal)) W (Proc.devRef .tc main_v1040) = unitCol W 26 ∧
    after (ops (F := Ideal)) W (Proc.devRef .tc main_v1041) = unitCol W 27 ∧
    after (ops (F := Ideal)) W (Proc.devRef .tc main_v1042) = unitCol W 28 ∧
    after (ops (F := Ideal)) W (Proc.devRef .tc main_v1043) = unitCol W 29 := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact (after_unary aligned 0 (by decide) (hop := rfl) (hx' := by decide) (hy' := by decide) (V := W)).trans (congrArg _ (after_keep aligned (r := main_v28) (by decide) W))
  · exact (after_unary aligned 1 (by decide) (hop := rfl) (hx' := by decide) (hy' := by decide) (V := W)).trans (congrArg _ (after_keep aligned (r := main_v54) (by decide) W))
  · exact (after_unary aligned 2 (by decide) (hop := rfl) (hx' := by decide) (hy' := by decide) (V := W)).trans (congrArg _ (after_keep aligned (r := main_v83) (by decide) W))
  · exact (after_unary aligned 3 (by decide) (hop := rfl) (hx' := by decide) (hy' := by decide) (V := W)).trans (congrArg _ (after_keep aligned (r := main_v108) (by decide) W))
  · exact (after_unary aligned 4 (by decide) (hop := rfl) (hx' := by decide) (hy' := by decide) (V := W)).trans (congrArg _ (after_keep aligned (r := main_v137) (by decide) W))
  · exact (after_unary aligned 5 (by decide) (hop := rfl) (hx' := by decide) (hy' := by decide) (V := W)).trans (congrArg _ (after_keep aligned (r := main_v166) (by decide) W))
  · exact (after_unary aligned 6 (by decide) (hop := rfl) (hx' := by decide) (hy' := by decide) (V := W)).trans (congrArg _ (after_keep aligned (r := main_v198) (by decide) W))
  · exact (after_unary aligned 7 (by decide) (hop := rfl) (hx' := by decide) (hy' := by decide) (V := W)).trans (congrArg _ (after_keep aligned (r := main_v226) (by decide) W))
  · exact (after_unary aligned 8 (by decide) (hop := rfl) (hx' := by decide) (hy' := by decide) (V := W)).trans (congrArg _ (after_keep aligned (r := main_v258) (by decide) W))
  · exact (after_unary aligned 9 (by decide) (hop := rfl) (hx' := by decide) (hy' := by decide) (V := W)).trans (congrArg _ (after_keep aligned (r := main_v291) (by decide) W))
  · exact (after_unary aligned 10 (by decide) (hop := rfl) (hx' := by decide) (hy' := by decide) (V := W)).trans (congrArg _ (after_keep aligned (r := main_v324) (by decide) W))
  · exact (after_unary aligned 11 (by decide) (hop := rfl) (hx' := by decide) (hy' := by decide) (V := W)).trans (congrArg _ (after_keep aligned (r := main_v358) (by decide) W))
  · exact (after_unary aligned 12 (by decide) (hop := rfl) (hx' := by decide) (hy' := by decide) (V := W)).trans (congrArg _ (after_keep aligned (r := main_v391) (by decide) W))
  · exact (after_unary aligned 13 (by decide) (hop := rfl) (hx' := by decide) (hy' := by decide) (V := W)).trans (congrArg _ (after_keep aligned (r := main_v424) (by decide) W))
  · exact (after_unary aligned 14 (by decide) (hop := rfl) (hx' := by decide) (hy' := by decide) (V := W)).trans (congrArg _ (after_keep aligned (r := main_v456) (by decide) W))
  · exact (after_unary aligned 15 (by decide) (hop := rfl) (hx' := by decide) (hy' := by decide) (V := W)).trans (congrArg _ (after_keep aligned (r := main_v491) (by decide) W))
  · exact (after_unary aligned 16 (by decide) (hop := rfl) (hx' := by decide) (hy' := by decide) (V := W)).trans (congrArg _ (after_keep aligned (r := main_v522) (by decide) W))
  · exact (after_unary aligned 17 (by decide) (hop := rfl) (hx' := by decide) (hy' := by decide) (V := W)).trans (congrArg _ (after_keep aligned (r := main_v557) (by decide) W))
  · exact (after_unary aligned 18 (by decide) (hop := rfl) (hx' := by decide) (hy' := by decide) (V := W)).trans (congrArg _ (after_keep aligned (r := main_v593) (by decide) W))
  · exact (after_unary aligned 19 (by decide) (hop := rfl) (hx' := by decide) (hy' := by decide) (V := W)).trans (congrArg _ (after_keep aligned (r := main_v629) (by decide) W))
  · exact (after_unary aligned 20 (by decide) (hop := rfl) (hx' := by decide) (hy' := by decide) (V := W)).trans (congrArg _ (after_keep aligned (r := main_v666) (by decide) W))
  · exact (after_unary aligned 21 (by decide) (hop := rfl) (hx' := by decide) (hy' := by decide) (V := W)).trans (congrArg _ (after_keep aligned (r := main_v702) (by decide) W))
  · exact (after_unary aligned 22 (by decide) (hop := rfl) (hx' := by decide) (hy' := by decide) (V := W)).trans (congrArg _ (after_keep aligned (r := main_v738) (by decide) W))
  · exact (after_unary aligned 23 (by decide) (hop := rfl) (hx' := by decide) (hy' := by decide) (V := W)).trans (congrArg _ (after_keep aligned (r := main_v775) (by decide) W))
  · exact (after_unary aligned 24 (by decide) (hop := rfl) (hx' := by decide) (hy' := by decide) (V := W)).trans (congrArg _ (after_keep aligned (r := main_v812) (by decide) W))
  · exact (after_unary aligned 25 (by decide) (hop := rfl) (hx' := by decide) (hy' := by decide) (V := W)).trans (congrArg _ (after_keep aligned (r := main_v854) (by decide) W))
  · exact (after_unary aligned 26 (by decide) (hop := rfl) (hx' := by decide) (hy' := by decide) (V := W)).trans (congrArg _ (after_keep aligned (r := main_v897) (by decide) W))
  · exact (after_unary aligned 27 (by decide) (hop := rfl) (hx' := by decide) (hy' := by decide) (V := W)).trans (congrArg _ (after_keep aligned (r := main_v939) (by decide) W))
  · exact (after_unary aligned 28 (by decide) (hop := rfl) (hx' := by decide) (hy' := by decide) (V := W)).trans (congrArg _ (after_keep aligned (r := main_v976) (by decide) W))
  · exact (after_unary aligned 29 (by decide) (hop := rfl) (hx' := by decide) (hy' := by decide) (V := W)).trans (congrArg _ (after_keep aligned (r := main_v1013) (by decide) W))

theorem stack_eq (W : Valuation τ sig (Elt Ideal)) :
    after (ops (F := Ideal)) W (Proc.devRef .tc main_v1046) = stack (unitCol W) := by
  obtain ⟨c0, c1, c2, c3, c4, c5, c6, c7, c8, c9, c10, c11, c12, c13, c14, c15, c16, c17, c18, c19, c20, c21, c22, c23, c24, c25, c26, c27, c28, c29⟩ := unit_eq W
  refine (after_binary aligned 32 (by decide) (a := main_v1044) (b := main_v1045) (y := main_v1046)
    (f := ((fun a b => concatenate S4096x27x30 2 [⟨S4096x27x16, a⟩, ⟨S4096x27x14, b⟩] concatenates_S4096x27x16_S4096x27x14_S4096x27x30_d2) : (⟨S4096x27x16, .f32⟩ : BufTy).Contents (Elt Ideal) → (⟨S4096x27x14, .f32⟩ : BufTy).Contents (Elt Ideal) → (⟨S4096x27x30, .f32⟩ : BufTy).Contents (Elt Ideal))) (hop := rfl) (ha' := by decide) (hb' := by decide) (hy' := by decide) (V := W)).trans ?_
  rw [after_nary aligned 30 (by decide) (xs := ![main_v1014, main_v1015, main_v1016, main_v1017, main_v1018, main_v1019, main_v1020, main_v1021, main_v1022, main_v1023, main_v1024, main_v1025, main_v1026, main_v1027, main_v1028, main_v1029]) (y := main_v1044)
      (f := (fun u => concatenate S4096x27x16 2 [⟨S4096x27x1, u 0⟩, ⟨S4096x27x1, u 1⟩, ⟨S4096x27x1, u 2⟩, ⟨S4096x27x1, u 3⟩, ⟨S4096x27x1, u 4⟩, ⟨S4096x27x1, u 5⟩, ⟨S4096x27x1, u 6⟩, ⟨S4096x27x1, u 7⟩, ⟨S4096x27x1, u 8⟩, ⟨S4096x27x1, u 9⟩, ⟨S4096x27x1, u 10⟩, ⟨S4096x27x1, u 11⟩, ⟨S4096x27x1, u 12⟩, ⟨S4096x27x1, u 13⟩, ⟨S4096x27x1, u 14⟩, ⟨S4096x27x1, u 15⟩] concatenates_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x16_d2)) (hop := rfl) (hxs' := by decide) (hy' := by decide) (V := W),
    after_nary aligned 31 (by decide) (xs := ![main_v1030, main_v1031, main_v1032, main_v1033, main_v1034, main_v1035, main_v1036, main_v1037, main_v1038, main_v1039, main_v1040, main_v1041, main_v1042, main_v1043]) (y := main_v1045)
      (f := (fun u => concatenate S4096x27x14 2 [⟨S4096x27x1, u 0⟩, ⟨S4096x27x1, u 1⟩, ⟨S4096x27x1, u 2⟩, ⟨S4096x27x1, u 3⟩, ⟨S4096x27x1, u 4⟩, ⟨S4096x27x1, u 5⟩, ⟨S4096x27x1, u 6⟩, ⟨S4096x27x1, u 7⟩, ⟨S4096x27x1, u 8⟩, ⟨S4096x27x1, u 9⟩, ⟨S4096x27x1, u 10⟩, ⟨S4096x27x1, u 11⟩, ⟨S4096x27x1, u 12⟩, ⟨S4096x27x1, u 13⟩] concatenates_S4096x27x1_S4096x27x1_S4096x27x1_S4096x27x1_S4096x27x1_S4096x27x1_S4096x27x1_S4096x27x1_S4096x27x1_S4096x27x1_S4096x27x1_S4096x27x1_S4096x27x1_S4096x27x1_S4096x27x14_d2)) (hop := rfl) (hxs' := by decide) (hy' := by decide) (V := W)]
  show concatenate S4096x27x30 2
      [⟨S4096x27x16, concatenate S4096x27x16 2 [⟨S4096x27x1, after (ops (F := Ideal)) W (Proc.devRef .tc main_v1014)⟩, ⟨S4096x27x1, after (ops (F := Ideal)) W (Proc.devRef .tc main_v1015)⟩, ⟨S4096x27x1, after (ops (F := Ideal)) W (Proc.devRef .tc main_v1016)⟩, ⟨S4096x27x1, after (ops (F := Ideal)) W (Proc.devRef .tc main_v1017)⟩, ⟨S4096x27x1, after (ops (F := Ideal)) W (Proc.devRef .tc main_v1018)⟩, ⟨S4096x27x1, after (ops (F := Ideal)) W (Proc.devRef .tc main_v1019)⟩, ⟨S4096x27x1, after (ops (F := Ideal)) W (Proc.devRef .tc main_v1020)⟩, ⟨S4096x27x1, after (ops (F := Ideal)) W (Proc.devRef .tc main_v1021)⟩, ⟨S4096x27x1, after (ops (F := Ideal)) W (Proc.devRef .tc main_v1022)⟩, ⟨S4096x27x1, after (ops (F := Ideal)) W (Proc.devRef .tc main_v1023)⟩, ⟨S4096x27x1, after (ops (F := Ideal)) W (Proc.devRef .tc main_v1024)⟩, ⟨S4096x27x1, after (ops (F := Ideal)) W (Proc.devRef .tc main_v1025)⟩, ⟨S4096x27x1, after (ops (F := Ideal)) W (Proc.devRef .tc main_v1026)⟩, ⟨S4096x27x1, after (ops (F := Ideal)) W (Proc.devRef .tc main_v1027)⟩, ⟨S4096x27x1, after (ops (F := Ideal)) W (Proc.devRef .tc main_v1028)⟩, ⟨S4096x27x1, after (ops (F := Ideal)) W (Proc.devRef .tc main_v1029)⟩] concatenates_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x16_d2⟩,
       ⟨S4096x27x14, concatenate S4096x27x14 2 [⟨S4096x27x1, after (ops (F := Ideal)) W (Proc.devRef .tc main_v1030)⟩, ⟨S4096x27x1, after (ops (F := Ideal)) W (Proc.devRef .tc main_v1031)⟩, ⟨S4096x27x1, after (ops (F := Ideal)) W (Proc.devRef .tc main_v1032)⟩, ⟨S4096x27x1, after (ops (F := Ideal)) W (Proc.devRef .tc main_v1033)⟩, ⟨S4096x27x1, after (ops (F := Ideal)) W (Proc.devRef .tc main_v1034)⟩, ⟨S4096x27x1, after (ops (F := Ideal)) W (Proc.devRef .tc main_v1035)⟩, ⟨S4096x27x1, after (ops (F := Ideal)) W (Proc.devRef .tc main_v1036)⟩, ⟨S4096x27x1, after (ops (F := Ideal)) W (Proc.devRef .tc main_v1037)⟩, ⟨S4096x27x1, after (ops (F := Ideal)) W (Proc.devRef .tc main_v1038)⟩, ⟨S4096x27x1, after (ops (F := Ideal)) W (Proc.devRef .tc main_v1039)⟩, ⟨S4096x27x1, after (ops (F := Ideal)) W (Proc.devRef .tc main_v1040)⟩, ⟨S4096x27x1, after (ops (F := Ideal)) W (Proc.devRef .tc main_v1041)⟩, ⟨S4096x27x1, after (ops (F := Ideal)) W (Proc.devRef .tc main_v1042)⟩, ⟨S4096x27x1, after (ops (F := Ideal)) W (Proc.devRef .tc main_v1043)⟩] concatenates_S4096x27x1_S4096x27x1_S4096x27x1_S4096x27x1_S4096x27x1_S4096x27x1_S4096x27x1_S4096x27x1_S4096x27x1_S4096x27x1_S4096x27x1_S4096x27x1_S4096x27x1_S4096x27x1_S4096x27x14_d2⟩]
      concatenates_S4096x27x16_S4096x27x14_S4096x27x30_d2 = _
  rw [c0, c1, c2, c3, c4, c5, c6, c7, c8, c9, c10, c11, c12, c13, c14, c15, c16, c17, c18, c19, c20, c21, c22, c23, c24, c25, c26, c27, c28, c29]
  rfl

/-- The tail's result at (o, i, x, n): the sum over b of the coefficient at (o, i, b) times basis array b at (x, n). -/
theorem value_apply (W : Valuation τ sig (Elt Ideal)) (o i : Fin 16) (x : Fin 4096) (n : Fin 27) :
    after (ops (F := Ideal)) W (Proc.devRef .tc main_v1047) (ix4 o i x n)
      = ∑ b : Fin 30, coef W (ix3 o i b) * colVal W b (ix2 x n) := by
  have e47 := after_binary aligned 33 (by decide) (a := main_arg1) (b := main_v1046) (y := main_v1047)
    (f := ((fun l r => Host.dotGeneral (F := Ideal) dot_S16x16x30_S4096x27x30_S16x16x4096x27_2_2_01_01_n_n none l r) : (⟨S16x16x30, .f32⟩ : BufTy).Contents (Elt Ideal) → (⟨S4096x27x30, .f32⟩ : BufTy).Contents (Elt Ideal) → (⟨S16x16x4096x27, .f32⟩ : BufTy).Contents (Elt Ideal))) (hop := rfl) (ha' := by decide) (hb' := by decide) (hy' := by decide) (V := W)
  rw [stack_eq W, after_keep aligned (r := main_arg1) (by decide) W] at e47
  rw [e47]
  refine (dot_apply (coef W) (stack (unitCol W)) o i x n).trans ?_
  refine Finset.sum_congr rfl fun b _ => ?_
  rw [stack_apply, unitCol_apply]

end Cert.ReferenceIdeal.Tail

end
-- ==== Proof.RefCol0.lean ====
import proofs.«118825_j71382356459674_1_alg».proof.Proof.RefChunk

noncomputable section

namespace Cert.ReferenceIdeal.Col0

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst (constant S_ .f32 0x40000000#32),
   unary main_cst main_v6 (broadcastInDim S4096x27 ![] bcast_S_S4096x27),
   binary main_v6 main_v1 main_v7 mulf,
   nullary main_cst_0 (constant S_ .f32 0xBF000000#32),
   unary main_cst_0 main_v8 (broadcastInDim S4096x27 ![] bcast_S_S4096x27),
   binary main_v8 main_v7 main_v9 mulf,
   unary main_v9 main_v10 Host.exp,
   nullary main_cst_1 (constant S_ .f32 0x40000000#32),
   unary main_cst_1 main_v11 (broadcastInDim S4096x27 ![] bcast_S_S4096x27),
   binary main_v11 main_v10 main_v12 mulf,
   nullary main_cst_2 (constant S_ .f32 0x3F800000#32),
   unary main_cst_2 main_v13 (broadcastInDim S4096x27 ![] bcast_S_S4096x27),
   binary main_v12 main_v13 main_v14 mulf,
   nullary main_cst_3 (constant S_ .f32 0x00000000#32),
   unary main_cst_3 main_v15 (broadcastInDim S4096x27 ![] bcast_S_S4096x27),
   nullary main_cst_4 (constant S_ .f32 0x3F800000#32),
   unary main_cst_4 main_v16 (broadcastInDim S4096x27 ![] bcast_S_S4096x27),
   binary main_v15 main_v16 main_v17 addf,
   binary main_v14 main_v17 main_v18 mulf,
   unary main_v3 main_v19 Host.cos,
   binary main_v19 main_v19 main_v20 mulf,
   nullary main_cst_5 (constant S_ .f32 0x3F800000#32),
   unary main_cst_5 main_v21 (broadcastInDim S4096x27 ![] bcast_S_S4096x27),
   binary main_v21 main_v20 main_v22 subf,
   nullary main_cst_6 (constant S_ .f32 0x00000000#32),
   TRef.unary (.of main_cst_6) main_call0.v0 id,
   TRef.unary main_call0.v0 main_call0.v1 (broadcastInDim S4096x27 ![] bcast_S_S4096x27),
   TRef.binary main_call0.v1 (.of main_v22) main_call0.v2 maximumf,
   unary main_v23 main_v24 Host.sqrt,
   nullary main_cst_7 (constant S_ .f32 0x3F800000#32),
   unary main_cst_7 main_v25 (broadcastInDim S4096x27 ![] bcast_S_S4096x27),
   nullary main_cst_8 (constant S_ .f32 0x3E906EBB#32),
   unary main_cst_8 main_v26 (broadcastInDim S4096x27 ![] bcast_S_S4096x27),
   binary main_v26 main_v25 main_v27 mulf,
   binary main_v18 main_v27 main_v28 mulf]

def refs : List (Ref sig .tc) :=
  [main_cst, main_v6, main_v7, main_cst_0, main_v8, main_v9, main_v10, main_cst_1, main_v11, main_v12, main_cst_2, main_v13, main_v14, main_cst_3, main_v15, main_cst_4, main_v16, main_v17, main_v18, main_v19, main_v20, main_cst_5, main_v21, main_v22, main_cst_6, main_call0_v0, main_call0_v1, main_v23, main_v24, main_cst_7, main_v25, main_cst_8, main_v26, main_v27, main_v28]

theorem facts {F : FTy → Type} [FloatOps F] : Stretch (ops (F := F)) refs := by unfold ops refs; stretch_facts

theorem value (W : Valuation τ sig (Elt Ideal)) :
    after (ops (F := Ideal)) W (no_index (Proc.devRef .tc main_v28)) = fun q : S4096x27.Idx =>
      Cert.Basis.hw0 (W (Proc.devRef .tc main_v1) q) (W (Proc.devRef .tc main_v3) q) (W (Proc.devRef .tc main_v5) q) := by
  funext q; unfold ops Cert.Basis.hw0; pointwise_value

end Cert.ReferenceIdeal.Col0

end
-- ==== Proof.RefCol1.lean ====
import proofs.«118825_j71382356459674_1_alg».proof.Proof.RefChunk

noncomputable section

namespace Cert.ReferenceIdeal.Col1

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_9 (constant S_ .f32 0x3F800000#32),
   unary main_cst_9 main_v29 (broadcastInDim S4096x27 ![] bcast_S_S4096x27),
   binary main_v29 main_v1 main_v30 mulf,
   nullary main_cst_10 (constant S_ .f32 0xBF000000#32),
   unary main_cst_10 main_v31 (broadcastInDim S4096x27 ![] bcast_S_S4096x27),
   binary main_v31 main_v30 main_v32 mulf,
   unary main_v32 main_v33 Host.exp,
   nullary main_cst_11 (constant S_ .f32 0x3EB504F3#32),
   unary main_cst_11 main_v34 (broadcastInDim S4096x27 ![] bcast_S_S4096x27),
   binary main_v34 main_v33 main_v35 mulf,
   nullary main_cst_12 (constant S_ .f32 0x3F800000#32),
   unary main_cst_12 main_v36 (broadcastInDim S4096x27 ![] bcast_S_S4096x27),
   binary main_v35 main_v36 main_v37 mulf,
   nullary main_cst_13 (constant S_ .f32 0x00000000#32),
   unary main_cst_13 main_v38 (broadcastInDim S4096x27 ![] bcast_S_S4096x27),
   nullary main_cst_14 (constant S_ .f32 0xBF800000#32),
   unary main_cst_14 main_v39 (broadcastInDim S4096x27 ![] bcast_S_S4096x27),
   binary main_v38 main_v39 main_v40 addf,
   binary main_v40 main_v30 main_v41 mulf,
   nullary main_cst_15 (constant S_ .f32 0x40000000#32),
   unary main_cst_15 main_v42 (broadcastInDim S4096x27 ![] bcast_S_S4096x27),
   binary main_v41 main_v42 main_v43 addf,
   binary main_v37 main_v43 main_v44 mulf,
   unary main_v3 main_v45 Host.cos,
   binary main_v45 main_v45 main_v46 mulf,
   nullary main_cst_16 (constant S_ .f32 0x3F800000#32),
   unary main_cst_16 main_v47 (broadcastInDim S4096x27 ![] bcast_S_S4096x27),
   binary main_v47 main_v46 main_v48 subf,
   nullary main_cst_17 (constant S_ .f32 0x00000000#32),
   TRef.unary (.of main_cst_17) main_call1.v0 id,
   TRef.unary main_call1.v0 main_call1.v1 (broadcastInDim S4096x27 ![] bcast_S_S4096x27),
   TRef.binary main_call1.v1 (.of main_v48) main_call1.v2 maximumf,
   unary main_v49 main_v50 Host.sqrt,
   nullary main_cst_18 (constant S_ .f32 0x3F800000#32),
   unary main_cst_18 main_v51 (broadcastInDim S4096x27 ![] bcast_S_S4096x27),
   nullary main_cst_19 (constant S_ .f32 0x3E906EBB#32),
   unary main_cst_19 main_v52 (broadcastInDim S4096x27 ![] bcast_S_S4096x27),
   binary main_v52 main_v51 main_v53 mulf,
   binary main_v44 main_v53 main_v54 mulf]

def refs : List (Ref sig .tc) :=
  [main_cst_9, main_v29, main_v30, main_cst_10, main_v31, main_v32, main_v33, main_cst_11, main_v34, main_v35, main_cst_12, main_v36, main_v37, main_cst_13, main_v38, main_cst_14, main_v39, main_v40, main_v41, main_cst_15, main_v42, main_v43, main_v44, main_v45, main_v46, main_cst_16, main_v47, main_v48, main_cst_17, main_call1_v0, main_call1_v1, main_v49, main_v50, main_cst_18, main_v51, main_cst_19, main_v52, main_v53, main_v54]

theorem facts {F : FTy → Type} [FloatOps F] : Stretch (ops (F := F)) refs := by unfold ops refs; stretch_facts

theorem value (W : Valuation τ sig (Elt Ideal)) :
    after (ops (F := Ideal)) W (no_index (Proc.devRef .tc main_v54)) = fun q : S4096x27.Idx =>
      Cert.Basis.hw1 (W (Proc.devRef .tc main_v1) q) (W (Proc.devRef .tc main_v3) q) (W (Proc.devRef .tc main_v5) q) := by
  funext q; unfold ops Cert.Basis.hw1; pointwise_value

end Cert.ReferenceIdeal.Col1

end
-- ==== Proof.RefCol2.lean ====
import proofs.«118825_j71382356459674_1_alg».proof.Proof.RefChunk

noncomputable section

namespace Cert.ReferenceIdeal.Col2

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_20 (constant S_ .f32 0x3F800000#32),
   unary main_cst_20 main_v55 (broadcastInDim S4096x27 ![] bcast_S_S4096x27),
   binary main_v55 main_v1 main_v56 mulf,
   nullary main_cst_21 (constant S_ .f32 0xBF000000#32),
   unary main_cst_21 main_v57 (broadcastInDim S4096x27 ![] bcast_S_S4096x27),
   binary main_v57 main_v56 main_v58 mulf,
   unary main_v58 main_v59 Host.exp,
   nullary main_cst_22 (constant S_ .f32 0x3E5105EC#32),
   unary main_cst_22 main_v60 (broadcastInDim S4096x27 ![] bcast_S_S4096x27),
   binary main_v60 main_v59 main_v61 mulf,
   binary main_v61 main_v56 main_v62 mulf,
   nullary main_cst_23 (constant S_ .f32 0x00000000#32),
   unary main_cst_23 main_v63 (broadcastInDim S4096x27 ![] bcast_S_S4096x27),
   nullary main_cst_24 (constant S_ .f32 0x3F800000#32),
   unary main_cst_24 main_v64 (broadcastInDim S4096x27 ![] bcast_S_S4096x27),
   binary main_v63 main_v64 main_v65 addf,
   binary main_v62 main_v65 main_v66 mulf,
   unary main_v3 main_v67 Host.cos,
   binary main_v67 main_v67 main_v68 mulf,
   nullary main_cst_25 (constant S_ .f32 0x3F800000#32),
   unary main_cst_25 main_v69 (broadcastInDim S4096x27 ![] bcast_S_S4096x27),
   binary main_v69 main_v68 main_v70 subf,
   nullary main_cst_26 (constant S_ .f32 0x00000000#32),
   TRef.unary (.of main_cst_26) main_call2.v0 id,
   TRef.unary main_call2.v0 main_call2.v1 (broadcastInDim S4096x27 ![] bcast_S_S4096x27),
   TRef.binary main_call2.v1 (.of main_v70) main_call2.v2 maximumf,
   unary main_v71 main_v72 Host.sqrt,
   nullary main_cst_27 (constant S_ .f32 0x3F800000#32),
   unary main_cst_27 main_v73 (broadcastInDim S4096x27 ![] bcast_S_S4096x27),
   nullary main_cst_28 (constant S_ .f32 0xBF800000#32),
   unary main_cst_28 main_v74 (broadcastInDim S4096x27 ![] bcast_S_S4096x27),
   binary main_v73 main_v74 main_v75 mulf,
   binary main_v75 main_v72 main_v76 mulf,
   nullary main_cst_29 (constant S_ .f32 0x3EFA2A1C#32),
   unary main_cst_29 main_v77 (broadcastInDim S4096x27 ![] bcast_S_S4096x27),
   binary main_v77 main_v76 main_v78 mulf,
   nullary main_cst_30 (constant S_ .f32 0x3F800000#32),
   unary main_cst_30 main_v79 (broadcastInDim S4096x27 ![] bcast_S_S4096x27),
   binary main_v79 main_v5 main_v80 mulf,
   unary main_v80 main_v81 Host.sin,
   binary main_v78 main_v81 main_v82 mulf,
   binary main_v66 main_v82 main_v83 mulf]

def refs : List (Ref sig .tc) :=
  [main_cst_20, main_v55, main_v56, main_cst_21, main_v57, main_v58, main_v59, main_cst_22, main_v60, main_v61, main_v62, main_cst_23, main_v63, main_cst_24, main_v64, main_v65, main_v66, main_v67, main_v68, main_cst_25, main_v69, main_v70, main_cst_26, main_call2_v0, main_call2_v1, main_v71, main_v72, main_cst_27, main_v73, main_cst_28, main_v74, main_v75, main_v76, main_cst_29, main_v77, main_v78, main_cst_30, main_v79, main_v80, main_v81, main_v82, main_v83]

theorem facts {F : FTy → Type} [FloatOps F] : Stretch (ops (F := F)) refs := by unfold ops refs; stretch_facts

theorem value (W : Valuation τ sig (Elt Ideal)) :
    after (ops (F := Ideal)) W (no_index (Proc.devRef .tc main_v83)) = fun q : S4096x27.Idx =>
      Cert.Basis.hw2 (W (Proc.devRef .tc main_v1) q) (W (Proc.devRef .tc main_v3) q) (W (Proc.devRef .tc main_v5) q) := by
  funext q; unfold ops Cert.Basis.hw2; pointwise_value

end Cert.ReferenceIdeal.Col2

end
-- ==== Proof.RefCol3.lean ====
import proofs.«118825_j71382356459674_1_alg».proof.Proof.RefChunk

noncomputable section

namespace Cert.ReferenceIdeal.Col3

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_31 (constant S_ .f32 0x3F800000#32),
   unary main_cst_31 main_v84 (broadcastInDim S4096x27 ![] bcast_S_S4096x27),
   binary main_v84 main_v1 main_v85 mulf,
   nullary main_cst_32 (constant S_ .f32 0xBF000000#32),
   unary main_cst_32 main_v86 (broadcastInDim S4096x27 ![] bcast_S_S4096x27),
   binary main_v86 main_v85 main_v87 mulf,
   unary main_v87 main_v88 Host.exp,
   nullary main_cst_33 (constant S_ .f32 0x3E5105EC#32),
   unary main_cst_33 main_v89 (broadcastInDim S4096x27 ![] bcast_S_S4096x27),
   binary main_v89 main_v88 main_v90 mulf,
   binary main_v90 main_v85 main_v91 mulf,
   nullary main_cst_34 (constant S_ .f32 0x00000000#32),
   unary main_cst_34 main_v92 (broadcastInDim S4096x27 ![] bcast_S_S4096x27),
   nullary main_cst_35 (constant S_ .f32 0x3F800000#32),
   unary main_cst_35 main_v93 (broadcastInDim S4096x27 ![] bcast_S_S4096x27),
   binary main_v92 main_v93 main_v94 addf,
   binary main_v91 main_v94 main_v95 mulf,
   unary main_v3 main_v96 Host.cos,
   binary main_v96 main_v96 main_v97 mulf,
   nullary main_cst_36 (constant S_ .f32 0x3F800000#32),
   unary main_cst_36 main_v98 (broadcastInDim S4096x27 ![] bcast_S_S4096x27),
   binary main_v98 main_v97 main_v99 subf,
   nullary main_cst_37 (constant S_ .f32 0x00000000#32),
   TRef.unary (.of main_cst_37) main_call3.v0 id,
   TRef.unary main_call3.v0 main_call3.v1 (broadcastInDim S4096x27 ![] bcast_S_S4096x27),
   TRef.binary main_call3.v1 (.of main_v99) main_call3.v2 maximumf,
   unary main_v100 main_v101 Host.sqrt,
   nullary main_cst_38 (constant S_ .f32 0x3F800000#32),
   unary main_cst_38 main_v102 (broadcastInDim S4096x27 ![] bcast_S_S4096x27),
   nullary main_cst_39 (constant S_ .f32 0x3F800000#32),
   unary main_cst_39 main_v103 (broadcastInDim S4096x27 ![] bcast_S_S4096x27),
   binary main_v96 main_v103 main_v104 mulf,
   binary main_v104 main_v102 main_v105 mulf,
   nullary main_cst_40 (constant S_ .f32 0x3EFA2A1C#32),
   unary main_cst_40 main_v106 (broadcastInDim S4096x27 ![] bcast_S_S4096x27),
   binary main_v106 main_v105 main_v107 mulf,
   binary main_v95 main_v107 main_v108 mulf]

def refs : List (Ref sig .tc) :=
  [main_cst_31, main_v84, main_v85, main_cst_32, main_v86, main_v87, main_v88, main_cst_33, main_v89, main_v90, main_v91, main_cst_34, main_v92, main_cst_35, main_v93, main_v94, main_v95, main_v96, main_v97, main_cst_36, main_v98, main_v99, main_cst_37, main_call3_v0, main_call3_v1, main_v100, main_v101, main_cst_38, main_v102, main_cst_39, main_v103, main_v104, main_v105, main_cst_40, main_v106, main_v107, main_v108]

theorem facts {F : FTy → Type} [FloatOps F] : Stretch (ops (F := F)) refs := by unfold ops refs; stretch_facts

theorem value (W : Valuation τ sig (Elt Ideal)) :
    after (ops (F := Ideal)) W (no_index (Proc.devRef .tc main_v108)) = fun q : S4096x27.Idx =>
      Cert.Basis.hw3 (W (Proc.devRef .tc main_v1) q) (W (Proc.devRef .tc main_v3) q) (W (Proc.devRef .tc main_v5) q) := by
  funext q; unfold ops Cert.Basis.hw3; pointwise_value

end Cert.ReferenceIdeal.Col3

end
-- ==== Proof.RefCol4.lean ====
import proofs.«118825_j71382356459674_1_alg».proof.Proof.RefChunk

noncomputable section

namespace Cert.ReferenceIdeal.Col4

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_41 (constant S_ .f32 0x3F800000#32),
   unary main_cst_41 main_v109 (broadcastInDim S4096x27 ![] bcast_S_S4096x27),
   binary main_v109 main_v1 main_v110 mulf,
   nullary main_cst_42 (constant S_ .f32 0xBF000000#32),
   unary main_cst_42 main_v111 (broadcastInDim S4096x27 ![] bcast_S_S4096x27),
   binary main_v111 main_v110 main_v112 mulf,
   unary main_v112 main_v113 Host.exp,
   nullary main_cst_43 (constant S_ .f32 0x3E5105EC#32),
   unary main_cst_43 main_v114 (broadcastInDim S4096x27 ![] bcast_S_S4096x27),
   binary main_v114 main_v113 main_v115 mulf,
   binary main_v115 main_v110 main_v116 mulf,
   nullary main_cst_44 (constant S_ .f32 0x00000000#32),
   unary main_cst_44 main_v117 (broadcastInDim S4096x27 ![] bcast_S_S4096x27),
   nullary main_cst_45 (constant S_ .f32 0x3F800000#32),
   unary main_cst_45 main_v118 (broadcastInDim S4096x27 ![] bcast_S_S4096x27),
   binary main_v117 main_v118 main_v119 addf,
   binary main_v116 main_v119 main_v120 mulf,
   unary main_v3 main_v121 Host.cos,
   binary main_v121 main_v121 main_v122 mulf,
   nullary main_cst_46 (constant S_ .f32 0x3F800000#32),
   unary main_cst_46 main_v123 (broadcastInDim S4096x27 ![] bcast_S_S4096x27),
   binary main_v123 main_v122 main_v124 subf,
   nullary main_cst_47 (constant S_ .f32 0x00000000#32),
   TRef.unary (.of main_cst_47) main_call4.v0 id,
   TRef.unary main_call4.v0 main_call4.v1 (broadcastInDim S4096x27 ![] bcast_S_S4096x27),
   TRef.binary main_call4.v1 (.of main_v124) main_call4.v2 maximumf,
   unary main_v125 main_v126 Host.sqrt,
   nullary main_cst_48 (constant S_ .f32 0x3F800000#32),
   unary main_cst_48 main_v127 (broadcastInDim S4096x27 ![] bcast_S_S4096x27),
   nullary main_cst_49 (constant S_ .f32 0xBF800000#32),
   unary main_cst_49 main_v128 (broadcastInDim S4096x27 ![] bcast_S_S4096x27),
   binary main_v127 main_v128 main_v129 mulf,
   binary main_v129 main_v126 main_v130 mulf,
   nullary main_cst_50 (constant S_ .f32 0x3EFA2A1C#32),
   unary main_cst_50 main_v131 (broadcastInDim S4096x27 ![] bcast_S_S4096x27),
   binary main_v131 main_v130 main_v132 mulf,
   nullary main_cst_51 (constant S_ .f32 0x3F800000#32),
   unary main_cst_51 main_v133 (broadcastInDim S4096x27 ![] bcast_S_S4096x27),
   binary main_v133 main_v5 main_v134 mulf,
   unary main_v134 main_v135 Host.cos,
   binary main_v132 main_v135 main_v136 mulf,
   binary main_v120 main_v136 main_v137 mulf]

def refs : List (Ref sig .tc) :=
  [main_cst_41, main_v109, main_v110, main_cst_42, main_v111, main_v112, main_v113, main_cst_43, main_v114, main_v115, main_v116, main_cst_44, main_v117, main_cst_45, main_v118, main_v119, main_v120, main_v121, main_v122, main_cst_46, main_v123, main_v124, main_cst_47, main_call4_v0, main_call4_v1, main_v125, main_v126, main_cst_48, main_v127, main_cst_49, main_v128, main_v129, main_v130, main_cst_50, main_v131, main_v132, main_cst_51, main_v133, main_v134, main_v135, main_v136, main_v137]

theorem facts {F : FTy → Type} [FloatOps F] : Stretch (ops (F := F)) refs := by unfold ops refs; stretch_facts

theorem value (W : Valuation τ sig (Elt Ideal)) :
    after (ops (F := Ideal)) W (no_index (Proc.devRef .tc main_v137)) = fun q : S4096x27.Idx =>
      Cert.Basis.hw4 (W (Proc.devRef .tc main_v1) q) (W (Proc.devRef .tc main_v3) q) (W (Proc.devRef .tc main_v5) q) := by
  funext q; unfold ops Cert.Basis.hw4; pointwise_value

end Cert.ReferenceIdeal.Col4

end
-- ==== Proof.RefCol5.lean ====
import proofs.«118825_j71382356459674_1_alg».proof.Proof.RefChunk

noncomputable section

namespace Cert.ReferenceIdeal.Col5

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_52 (constant S_ .f32 0x3F2AAAAB#32),
   unary main_cst_52 main_v138 (broadcastInDim S4096x27 ![] bcast_S_S4096x27),
   binary main_v138 main_v1 main_v139 mulf,
   nullary main_cst_53 (constant S_ .f32 0xBF000000#32),
   unary main_cst_53 main_v140 (broadcastInDim S4096x27 ![] bcast_S_S4096x27),
   binary main_v140 main_v139 main_v141 mulf,
   unary main_v141 main_v142 Host.exp,
   nullary main_cst_54 (constant S_ .f32 0x3E036117#32),
   unary main_cst_54 main_v143 (broadcastInDim S4096x27 ![] bcast_S_S4096x27),
   binary main_v143 main_v142 main_v144 mulf,
   nullary main_cst_55 (constant S_ .f32 0x3F800000#32),
   unary main_cst_55 main_v145 (broadcastInDim S4096x27 ![] bcast_S_S4096x27),
   binary main_v144 main_v145 main_v146 mulf,
   nullary main_cst_56 (constant S_ .f32 0x00000000#32),
   unary main_cst_56 main_v147 (broadcastInDim S4096x27 ![] bcast_S_S4096x27),
   nullary main_cst_57 (constant S_ .f32 0x3F000000#32),
   unary main_cst_57 main_v148 (broadcastInDim S4096x27 ![] bcast_S_S4096x27),
   binary main_v147 main_v148 main_v149 addf,
   binary main_v149 main_v139 main_v150 mulf,
   nullary main_cst_58 (constant S_ .f32 0xC0400000#32),
   unary main_cst_58 main_v151 (broadcastInDim S4096x27 ![] bcast_S_S4096x27),
   binary main_v150 main_v151 main_v152 addf,
   binary main_v152 main_v139 main_v153 mulf,
   nullary main_cst_59 (constant S_ .f32 0x40400000#32),
   unary main_cst_59 main_v154 (broadcastInDim S4096x27 ![] bcast_S_S4096x27),
   binary main_v153 main_v154 main_v155 addf,
   binary main_v146 main_v155 main_v156 mulf,
   unary main_v3 main_v157 Host.cos,
   binary main_v157 main_v157 main_v158 mulf,
   nullary main_cst_60 (constant S_ .f32 0x3F800000#32),
   unary main_cst_60 main_v159 (broadcastInDim S4096x27 ![] bcast_S_S4096x27),
   binary main_v159 main_v158 main_v160 subf,
   nullary main_cst_61 (constant S_ .f32 0x00000000#32),
   TRef.unary (.of main_cst_61) main_call5.v0 id,
   TRef.unary main_call5.v0 main_call5.v1 (broadcastInDim S4096x27 ![] bcast_S_S4096x27),
   TRef.binary main_call5.v1 (.of main_v160) main_call5.v2 maximumf,
   unary main_v161 main_v162 Host.sqrt,
   nullary main_cst_62 (constant S_ .f32 0x3F800000#32),
   unary main_cst_62 main_v163 (broadcastInDim S4096x27 ![] bcast_S_S4096x27),
   nullary main_cst_63 (constant S_ .f32 0x3E906EBB#32),
   unary main_cst_63 main_v164 (broadcastInDim S4096x27 ![] bcast_S_S4096x27),
   binary main_v164 main_v163 main_v165 mulf,
   binary main_v156 main_v165 main_v166 mulf]

def refs : List (Ref sig .tc) :=
  [main_cst_52, main_v138, main_v139, main_cst_53, main_v140, main_v141, main_v142, main_cst_54, main_v143, main_v144, main_cst_55, main_v145, main_v146, main_cst_56, main_v147, main_cst_57, main_v148, main_v149, main_v150, main_cst_58, main_v151, main_v152, main_v153, main_cst_59, main_v154, main_v155, main_v156, main_v157, main_v158, main_cst_60, main_v159, main_v160, main_cst_61, main_call5_v0, main_call5_v1, main_v161, main_v162, main_cst_62, main_v163, main_cst_63, main_v164, main_v165, main_v166]

theorem facts {F : FTy → Type} [FloatOps F] : Stretch (ops (F := F)) refs := by unfold ops refs; stretch_facts

theorem value (W : Valuation τ sig (Elt Ideal)) :
    after (ops (F := Ideal)) W (no_index (Proc.devRef .tc main_v166)) = fun q : S4096x27.Idx =>
      Cert.Basis.hw5 (W (Proc.devRef .tc main_v1) q) (W (Proc.devRef .tc main_v3) q) (W (Proc.devRef .tc main_v5) q) := by
  funext q; unfold ops Cert.Basis.hw5; pointwise_value

end Cert.ReferenceIdeal.Col5

end
-- ==== Proof.RefCol6.lean ====
import proofs.«118825_j71382356459674_1_alg».proof.Proof.RefChunk

noncomputable section

namespace Cert.ReferenceIdeal.Col6

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_64 (constant S_ .f32 0x3F2AAAAB#32),
   unary main_cst_64 main_v167 (broadcastInDim S4096x27 ![] bcast_S_S4096x27),
   binary main_v167 main_v1 main_v168 mulf,
   nullary main_cst_65 (constant S_ .f32 0xBF000000#32),
   unary main_cst_65 main_v169 (broadcastInDim S4096x27 ![] bcast_S_S4096x27),
   binary main_v169 main_v168 main_v170 mulf,
   unary main_v170 main_v171 Host.exp,
   nullary main_cst_66 (constant S_ .f32 0x3D39CC60#32),
   unary main_cst_66 main_v172 (broadcastInDim S4096x27 ![] bcast_S_S4096x27),
   binary main_v172 main_v171 main_v173 mulf,
   binary main_v173 main_v168 main_v174 mulf,
   nullary main_cst_67 (constant S_ .f32 0x00000000#32),
   unary main_cst_67 main_v175 (broadcastInDim S4096x27 ![] bcast_S_S4096x27),
   nullary main_cst_68 (constant S_ .f32 0xBF800000#32),
   unary main_cst_68 main_v176 (broadcastInDim S4096x27 ![] bcast_S_S4096x27),
   binary main_v175 main_v176 main_v177 addf,
   binary main_v177 main_v168 main_v178 mulf,
   nullary main_cst_69 (constant S_ .f32 0x40800000#32),
   unary main_cst_69 main_v179 (broadcastInDim S4096x27 ![] bcast_S_S4096x27),
   binary main_v178 main_v179 main_v180 addf,
   binary main_v174 main_v180 main_v181 mulf,
   unary main_v3 main_v182 Host.cos,
   binary main_v182 main_v182 main_v183 mulf,
   nullary main_cst_70 (constant S_ .f32 0x3F800000#32),
   unary main_cst_70 main_v184 (broadcastInDim S4096x27 ![] bcast_S_S4096x27),
   binary main_v184 main_v183 main_v185 subf,
   nullary main_cst_71 (constant S_ .f32 0x00000000#32),
   TRef.unary (.of main_cst_71) main_call6.v0 id,
   TRef.unary main_call6.v0 main_call6.v1 (broadcastInDim S4096x27 ![] bcast_S_S4096x27),
   TRef.binary main_call6.v1 (.of main_v185) main_call6.v2 maximumf,
   unary main_v186 main_v187 Host.sqrt,
   nullary main_cst_72 (constant S_ .f32 0x3F800000#32),
   unary main_cst_72 main_v188 (broadcastInDim S4096x27 ![] bcast_S_S4096x27),
   nullary main_cst_73 (constant S_ .f32 0xBF800000#32),
   unary main_cst_73 main_v189 (broadcastInDim S4096x27 ![] bcast_S_S4096x27),
   binary main_v188 main_v189 main_v190 mulf,
   binary main_v190 main_v187 main_v191 mulf,
   nullary main_cst_74 (constant S_ .f32 0x3EFA2A1C#32),
   unary main_cst_74 main_v192 (broadcastInDim S4096x27 ![] bcast_S_S4096x27),
   binary main_v192 main_v191 main_v193 mulf,
   nullary main_cst_75 (constant S_ .f32 0x3F800000#32),
   unary main_cst_75 main_v194 (broadcastInDim S4096x27 ![] bcast_S_S4096x27),
   binary main_v194 main_v5 main_v195 mulf,
   unary main_v195 main_v196 Host.sin,
   binary main_v193 main_v196 main_v197 mulf,
   binary main_v181 main_v197 main_v198 mulf]

def refs : List (Ref sig .tc) :=
  [main_cst_64, main_v167, main_v168, main_cst_65, main_v169, main_v170, main_v171, main_cst_66, main_v172, main_v173, main_v174, main_cst_67, main_v175, main_cst_68, main_v176, main_v177, main_v178, main_cst_69, main_v179, main_v180, main_v181, main_v182, main_v183, main_cst_70, main_v184, main_v185, main_cst_71, main_call6_v0, main_call6_v1, main_v186, main_v187, main_cst_72, main_v188, main_cst_73, main_v189, main_v190, main_v191, main_cst_74, main_v192, main_v193, main_cst_75, main_v194, main_v195, main_v196, main_v197, main_v198]

theorem facts {F : FTy → Type} [FloatOps F] : Stretch (ops (F := F)) refs := by unfold ops refs; stretch_facts

theorem value (W : Valuation τ sig (Elt Ideal)) :
    after (ops (F := Ideal)) W (no_index (Proc.devRef .tc main_v198)) = fun q : S4096x27.Idx =>
      Cert.Basis.hw6 (W (Proc.devRef .tc main_v1) q) (W (Proc.devRef .tc main_v3) q) (W (Proc.devRef .tc main_v5) q) := by
  funext q; unfold ops Cert.Basis.hw6; pointwise_value

end Cert.ReferenceIdeal.Col6

end
-- ==== Proof.RefCol7.lean ====
import proofs.«118825_j71382356459674_1_alg».proof.Proof.RefChunk

noncomputable section

namespace Cert.ReferenceIdeal.Col7

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_76 (constant S_ .f32 0x3F2AAAAB#32),
   unary main_cst_76 main_v199 (broadcastInDim S4096x27 ![] bcast_S_S4096x27),
   binary main_v199 main_v1 main_v200 mulf,
   nullary main_cst_77 (constant S_ .f32 0xBF000000#32),
   unary main_cst_77 main_v201 (broadcastInDim S4096x27 ![] bcast_S_S4096x27),
   binary main_v201 main_v200 main_v202 mulf,
   unary main_v202 main_v203 Host.exp,
   nullary main_cst_78 (constant S_ .f32 0x3D39CC60#32),
   unary main_cst_78 main_v204 (broadcastInDim S4096x27 ![] bcast_S_S4096x27),
   binary main_v204 main_v203 main_v205 mulf,
   binary main_v205 main_v200 main_v206 mulf,
   nullary main_cst_79 (constant S_ .f32 0x00000000#32),
   unary main_cst_79 main_v207 (broadcastInDim S4096x27 ![] bcast_S_S4096x27),
   nullary main_cst_80 (constant S_ .f32 0xBF800000#32),
   unary main_cst_80 main_v208 (broadcastInDim S4096x27 ![] bcast_S_S4096x27),
   binary main_v207 main_v208 main_v209 addf,
   binary main_v209 main_v200 main_v210 mulf,
   nullary main_cst_81 (constant S_ .f32 0x40800000#32),
   unary main_cst_81 main_v211 (broadcastInDim S4096x27 ![] bcast_S_S4096x27),
   binary main_v210 main_v211 main_v212 addf,
   binary main_v206 main_v212 main_v213 mulf,
   unary main_v3 main_v214 Host.cos,
   binary main_v214 main_v214 main_v215 mulf,
   nullary main_cst_82 (constant S_ .f32 0x3F800000#32),
   unary main_cst_82 main_v216 (broadcastInDim S4096x27 ![] bcast_S_S4096x27),
   binary main_v216 main_v215 main_v217 subf,
   nullary main_cst_83 (constant S_ .f32 0x00000000#32),
   TRef.unary (.of main_cst_83) main_call7.v0 id,
   TRef.unary main_call7.v0 main_call7.v1 (broadcastInDim S4096x27 ![] bcast_S_S4096x27),
   TRef.binary main_call7.v1 (.of main_v217) main_call7.v2 maximumf,
   unary main_v218 main_v219 Host.sqrt,
   nullary main_cst_84 (constant S_ .f32 0x3F800000#32),
   unary main_cst_84 main_v220 (broadcastInDim S4096x27 ![] bcast_S_S4096x27),
   nullary main_cst_85 (constant S_ .f32 0x3F800000#32),
   unary main_cst_85 main_v221 (broadcastInDim S4096x27 ![] bcast_S_S4096x27),
   binary main_v214 main_v221 main_v222 mulf,
   binary main_v222 main_v220 main_v223 mulf,
   nullary main_cst_86 (constant S_ .f32 0x3EFA2A1C#32),
   unary main_cst_86 main_v224 (broadcastInDim S4096x27 ![] bcast_S_S4096x27),
   binary main_v224 main_v223 main_v225 mulf,
   binary main_v213 main_v225 main_v226 mulf]

def refs : List (Ref sig .tc) :=
  [main_cst_76, main_v199, main_v200, main_cst_77, main_v201, main_v202, main_v203, main_cst_78, main_v204, main_v205, main_v206, main_cst_79, main_v207, main_cst_80, main_v208, main_v209, main_v210, main_cst_81, main_v211, main_v212, main_v213, main_v214, main_v215, main_cst_82, main_v216, main_v217, main_cst_83, main_call7_v0, main_call7_v1, main_v218, main_v219, main_cst_84, main_v220, main_cst_85, main_v221, main_v222, main_v223, main_cst_86, main_v224, main_v225, main_v226]

theorem facts {F : FTy → Type} [FloatOps F] : Stretch (ops (F := F)) refs := by unfold ops refs; stretch_facts

theorem value (W : Valuation τ sig (Elt Ideal)) :
    after (ops (F := Ideal)) W (no_index (Proc.devRef .tc main_v226)) = fun q : S4096x27.Idx =>
      Cert.Basis.hw7 (W (Proc.devRef .tc main_v1) q) (W (Proc.devRef .tc main_v3) q) (W (Proc.devRef .tc main_v5) q) := by
  funext q; unfold ops Cert.Basis.hw7; pointwise_value

end Cert.ReferenceIdeal.Col7

end
-- ==== Proof.RefCol8.lean ====
import proofs.«118825_j71382356459674_1_alg».proof.Proof.RefChunk

noncomputable section

namespace Cert.ReferenceIdeal.Col8

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_87 (constant S_ .f32 0x3F2AAAAB#32),
   unary main_cst_87 main_v227 (broadcastInDim S4096x27 ![] bcast_S_S4096x27),
   binary main_v227 main_v1 main_v228 mulf,
   nullary main_cst_88 (constant S_ .f32 0xBF000000#32),
   unary main_cst_88 main_v229 (broadcastInDim S4096x27 ![] bcast_S_S4096x27),
   binary main_v229 main_v228 main_v230 mulf,
   unary main_v230 main_v231 Host.exp,
   nullary main_cst_89 (constant S_ .f32 0x3D39CC60#32),
   unary main_cst_89 main_v232 (broadcastInDim S4096x27 ![] bcast_S_S4096x27),
   binary main_v232 main_v231 main_v233 mulf,
   binary main_v233 main_v228 main_v234 mulf,
   nullary main_cst_90 (constant S_ .f32 0x00000000#32),
   unary main_cst_90 main_v235 (broadcastInDim S4096x27 ![] bcast_S_S4096x27),
   nullary main_cst_91 (constant S_ .f32 0xBF800000#32),
   unary main_cst_91 main_v236 (broadcastInDim S4096x27 ![] bcast_S_S4096x27),
   binary main_v235 main_v236 main_v237 addf,
   binary main_v237 main_v228 main_v238 mulf,
   nullary main_cst_92 (constant S_ .f32 0x40800000#32),
   unary main_cst_92 main_v239 (broadcastInDim S4096x27 ![] bcast_S_S4096x27),
   binary main_v238 main_v239 main_v240 addf,
   binary main_v234 main_v240 main_v241 mulf,
   unary main_v3 main_v242 Host.cos,
   binary main_v242 main_v242 main_v243 mulf,
   nullary main_cst_93 (constant S_ .f32 0x3F800000#32),
   unary main_cst_93 main_v244 (broadcastInDim S4096x27 ![] bcast_S_S4096x27),
   binary main_v244 main_v243 main_v245 subf,
   nullary main_cst_94 (constant S_ .f32 0x00000000#32),
   TRef.unary (.of main_cst_94) main_call8.v0 id,
   TRef.unary main_call8.v0 main_call8.v1 (broadcastInDim S4096x27 ![] bcast_S_S4096x27),
   TRef.binary main_call8.v1 (.of main_v245) main_call8.v2 maximumf,
   unary main_v246 main_v247 Host.sqrt,
   nullary main_cst_95 (constant S_ .f32 0x3F800000#32),
   unary main_cst_95 main_v248 (broadcastInDim S4096x27 ![] bcast_S_S4096x27),
   nullary main_cst_96 (constant S_ .f32 0xBF800000#32),
   unary main_cst_96 main_v249 (broadcastInDim S4096x27 ![] bcast_S_S4096x27),
   binary main_v248 main_v249 main_v250 mulf,
   binary main_v250 main_v247 main_v251 mulf,
   nullary main_cst_97 (constant S_ .f32 0x3EFA2A1C#32),
   unary main_cst_97 main_v252 (broadcastInDim S4096x27 ![] bcast_S_S4096x27),
   binary main_v252 main_v251 main_v253 mulf,
   nullary main_cst_98 (constant S_ .f32 0x3F800000#32),
   unary main_cst_98 main_v254 (broadcastInDim S4096x27 ![] bcast_S_S4096x27),
   binary main_v254 main_v5 main_v255 mulf,
   unary main_v255 main_v256 Host.cos,
   binary main_v253 main_v256 main_v257 mulf,
   binary main_v241 main_v257 main_v258 mulf]

def refs : List (Ref sig .tc) :=
  [main_cst_87, main_v227, main_v228, main_cst_88, main_v229, main_v230, main_v231, main_cst_89, main_v232, main_v233, main_v234, main_cst_90, main_v235, main_cst_91, main_v236, main_v237, main_v238, main_cst_92, main_v239, main_v240, main_v241, main_v242, main_v243, main_cst_93, main_v244, main_v245, main_cst_94, main_call8_v0, main_call8_v1, main_v246, main_v247, main_cst_95, main_v248, main_cst_96, main_v249, main_v250, main_v251, main_cst_97, main_v252, main_v253, main_cst_98, main_v254, main_v255, main_v256, main_v257, main_v258]

theorem facts {F : FTy → Type} [FloatOps F] : Stretch (ops (F := F)) refs := by unfold ops refs; stretch_facts

theorem value (W : Valuation τ sig (Elt Ideal)) :
    after (ops (F := Ideal)) W (no_index (Proc.devRef .tc main_v258)) = fun q : S4096x27.Idx =>
      Cert.Basis.hw8 (W (Proc.devRef .tc main_v1) q) (W (Proc.devRef .tc main_v3) q) (W (Proc.devRef .tc main_v5) q) := by
  funext q; unfold ops Cert.Basis.hw8; pointwise_value

end Cert.ReferenceIdeal.Col8

end
-- ==== Proof.RefCol9.lean ====
import proofs.«118825_j71382356459674_1_alg».proof.Proof.RefChunk

noncomputable section

namespace Cert.ReferenceIdeal.Col9

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_99 (constant S_ .f32 0x3F2AAAAB#32),
   unary main_cst_99 main_v259 (broadcastInDim S4096x27 ![] bcast_S_S4096x27),
   binary main_v259 main_v1 main_v260 mulf,
   nullary main_cst_100 (constant S_ .f32 0xBF000000#32),
   unary main_cst_100 main_v261 (broadcastInDim S4096x27 ![] bcast_S_S4096x27),
   binary main_v261 main_v260 main_v262 mulf,
   unary main_v262 main_v263 Host.exp,
   nullary main_cst_101 (constant S_ .f32 0x3CA62EDE#32),
   unary main_cst_101 main_v264 (broadcastInDim S4096x27 ![] bcast_S_S4096x27),
   binary main_v264 main_v263 main_v265 mulf,
   binary main_v260 main_v260 main_v266 mulf,
   binary main_v265 main_v266 main_v267 mulf,
   nullary main_cst_102 (constant S_ .f32 0x00000000#32),
   unary main_cst_102 main_v268 (broadcastInDim S4096x27 ![] bcast_S_S4096x27),
   nullary main_cst_103 (constant S_ .f32 0x3F800000#32),
   unary main_cst_103 main_v269 (broadcastInDim S4096x27 ![] bcast_S_S4096x27),
   binary main_v268 main_v269 main_v270 addf,
   binary main_v267 main_v270 main_v271 mulf,
   unary main_v3 main_v272 Host.cos,
   binary main_v272 main_v272 main_v273 mulf,
   nullary main_cst_104 (constant S_ .f32 0x3F800000#32),
   unary main_cst_104 main_v274 (broadcastInDim S4096x27 ![] bcast_S_S4096x27),
   binary main_v274 main_v273 main_v275 subf,
   nullary main_cst_105 (constant S_ .f32 0x00000000#32),
   TRef.unary (.of main_cst_105) main_call9.v0 id,
   TRef.unary main_call9.v0 main_call9.v1 (broadcastInDim S4096x27 ![] bcast_S_S4096x27),
   TRef.binary main_call9.v1 (.of main_v275) main_call9.v2 maximumf,
   unary main_v276 main_v277 Host.sqrt,
   nullary main_cst_106 (constant S_ .f32 0x3F800000#32),
   unary main_cst_106 main_v278 (broadcastInDim S4096x27 ![] bcast_S_S4096x27),
   nullary main_cst_107 (constant S_ .f32 0xBF800000#32),
   unary main_cst_107 main_v279 (broadcastInDim S4096x27 ![] bcast_S_S4096x27),
   binary main_v278 main_v279 main_v280 mulf,
   binary main_v280 main_v277 main_v281 mulf,
   nullary main_cst_108 (constant S_ .f32 0xC0400000#32),
   unary main_cst_108 main_v282 (broadcastInDim S4096x27 ![] bcast_S_S4096x27),
   binary main_v281 main_v282 main_v283 mulf,
   binary main_v283 main_v277 main_v284 mulf,
   nullary main_cst_109 (constant S_ .f32 0x3E3A762B#32),
   unary main_cst_109 main_v285 (broadcastInDim S4096x27 ![] bcast_S_S4096x27),
   binary main_v285 main_v284 main_v286 mulf,
   nullary main_cst_110 (constant S_ .f32 0x40000000#32),
   unary main_cst_110 main_v287 (broadcastInDim S4096x27 ![] bcast_S_S4096x27),
   binary main_v287 main_v5 main_v288 mulf,
   unary main_v288 main_v289 Host.sin,
   binary main_v286 main_v289 main_v290 mulf,
   binary main_v271 main_v290 main_v291 mulf]

def refs : List (Ref sig .tc) :=
  [main_cst_99, main_v259, main_v260, main_cst_100, main_v261, main_v262, main_v263, main_cst_101, main_v264, main_v265, main_v266, main_v267, main_cst_102, main_v268, main_cst_103, main_v269, main_v270, main_v271, main_v272, main_v273, main_cst_104, main_v274, main_v275, main_cst_105, main_call9_v0, main_call9_v1, main_v276, main_v277, main_cst_106, main_v278, main_cst_107, main_v279, main_v280, main_v281, main_cst_108, main_v282, main_v283, main_v284, main_cst_109, main_v285, main_v286, main_cst_110, main_v287, main_v288, main_v289, main_v290, main_v291]

theorem facts {F : FTy → Type} [FloatOps F] : Stretch (ops (F := F)) refs := by unfold ops refs; stretch_facts

theorem value (W : Valuation τ sig (Elt Ideal)) :
    after (ops (F := Ideal)) W (no_index (Proc.devRef .tc main_v291)) = fun q : S4096x27.Idx =>
      Cert.Basis.hw9 (W (Proc.devRef .tc main_v1) q) (W (Proc.devRef .tc main_v3) q) (W (Proc.devRef .tc main_v5) q) := by
  funext q; unfold ops Cert.Basis.hw9; pointwise_value

end Cert.ReferenceIdeal.Col9

end
-- ==== Proof.RefCol10.lean ====
import proofs.«118825_j71382356459674_1_alg».proof.Proof.RefChunk

noncomputable section

namespace Cert.ReferenceIdeal.Col10

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_111 (constant S_ .f32 0x3F2AAAAB#32),
   unary main_cst_111 main_v292 (broadcastInDim S4096x27 ![] bcast_S_S4096x27),
   binary main_v292 main_v1 main_v293 mulf,
   nullary main_cst_112 (constant S_ .f32 0xBF000000#32),
   unary main_cst_112 main_v294 (broadcastInDim S4096x27 ![] bcast_S_S4096x27),
   binary main_v294 main_v293 main_v295 mulf,
   unary main_v295 main_v296 Host.exp,
   nullary main_cst_113 (constant S_ .f32 0x3CA62EDE#32),
   unary main_cst_113 main_v297 (broadcastInDim S4096x27 ![] bcast_S_S4096x27),
   binary main_v297 main_v296 main_v298 mulf,
   binary main_v293 main_v293 main_v299 mulf,
   binary main_v298 main_v299 main_v300 mulf,
   nullary main_cst_114 (constant S_ .f32 0x00000000#32),
   unary main_cst_114 main_v301 (broadcastInDim S4096x27 ![] bcast_S_S4096x27),
   nullary main_cst_115 (constant S_ .f32 0x3F800000#32),
   unary main_cst_115 main_v302 (broadcastInDim S4096x27 ![] bcast_S_S4096x27),
   binary main_v301 main_v302 main_v303 addf,
   binary main_v300 main_v303 main_v304 mulf,
   unary main_v3 main_v305 Host.cos,
   binary main_v305 main_v305 main_v306 mulf,
   nullary main_cst_116 (constant S_ .f32 0x3F800000#32),
   unary main_cst_116 main_v307 (broadcastInDim S4096x27 ![] bcast_S_S4096x27),
   binary main_v307 main_v306 main_v308 subf,
   nullary main_cst_117 (constant S_ .f32 0x00000000#32),
   TRef.unary (.of main_cst_117) main_call10.v0 id,
   TRef.unary main_call10.v0 main_call10.v1 (broadcastInDim S4096x27 ![] bcast_S_S4096x27),
   TRef.binary main_call10.v1 (.of main_v308) main_call10.v2 maximumf,
   unary main_v309 main_v310 Host.sqrt,
   nullary main_cst_118 (constant S_ .f32 0x3F800000#32),
   unary main_cst_118 main_v311 (broadcastInDim S4096x27 ![] bcast_S_S4096x27),
   nullary main_cst_119 (constant S_ .f32 0xBF800000#32),
   unary main_cst_119 main_v312 (broadcastInDim S4096x27 ![] bcast_S_S4096x27),
   binary main_v311 main_v312 main_v313 mulf,
   binary main_v313 main_v310 main_v314 mulf,
   nullary main_cst_120 (constant S_ .f32 0x40400000#32),
   unary main_cst_120 main_v315 (broadcastInDim S4096x27 ![] bcast_S_S4096x27),
   binary main_v305 main_v315 main_v316 mulf,
   binary main_v316 main_v314 main_v317 mulf,
   nullary main_cst_121 (constant S_ .f32 0x3EBA762B#32),
   unary main_cst_121 main_v318 (broadcastInDim S4096x27 ![] bcast_S_S4096x27),
   binary main_v318 main_v317 main_v319 mulf,
   nullary main_cst_122 (constant S_ .f32 0x3F800000#32),
   unary main_cst_122 main_v320 (broadcastInDim S4096x27 ![] bcast_S_S4096x27),
   binary main_v320 main_v5 main_v321 mulf,
   unary main_v321 main_v322 Host.sin,
   binary main_v319 main_v322 main_v323 mulf,
   binary main_v304 main_v323 main_v324 mulf]

def refs : List (Ref sig .tc) :=
  [main_cst_111, main_v292, main_v293, main_cst_112, main_v294, main_v295, main_v296, main_cst_113, main_v297, main_v298, main_v299, main_v300, main_cst_114, main_v301, main_cst_115, main_v302, main_v303, main_v304, main_v305, main_v306, main_cst_116, main_v307, main_v308, main_cst_117, main_call10_v0, main_call10_v1, main_v309, main_v310, main_cst_118, main_v311, main_cst_119, main_v312, main_v313, main_v314, main_cst_120, main_v315, main_v316, main_v317, main_cst_121, main_v318, main_v319, main_cst_122, main_v320, main_v321, main_v322, main_v323, main_v324]

theorem facts {F : FTy → Type} [FloatOps F] : Stretch (ops (F := F)) refs := by unfold ops refs; stretch_facts

theorem value (W : Valuation τ sig (Elt Ideal)) :
    after (ops (F := Ideal)) W (no_index (Proc.devRef .tc main_v324)) = fun q : S4096x27.Idx =>
      Cert.Basis.hw10 (W (Proc.devRef .tc main_v1) q) (W (Proc.devRef .tc main_v3) q) (W (Proc.devRef .tc main_v5) q) := by
  funext q; unfold ops Cert.Basis.hw10; pointwise_value

end Cert.ReferenceIdeal.Col10

end
-- ==== Proof.RefCol11.lean ====
import proofs.«118825_j71382356459674_1_alg».proof.Proof.RefChunk

noncomputable section

namespace Cert.ReferenceIdeal.Col11

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_123 (constant S_ .f32 0x3F2AAAAB#32),
   unary main_cst_123 main_v325 (broadcastInDim S4096x27 ![] bcast_S_S4096x27),
   binary main_v325 main_v1 main_v326 mulf,
   nullary main_cst_124 (constant S_ .f32 0xBF000000#32),
   unary main_cst_124 main_v327 (broadcastInDim S4096x27 ![] bcast_S_S4096x27),
   binary main_v327 main_v326 main_v328 mulf,
   unary main_v328 main_v329 Host.exp,
   nullary main_cst_125 (constant S_ .f32 0x3CA62EDE#32),
   unary main_cst_125 main_v330 (broadcastInDim S4096x27 ![] bcast_S_S4096x27),
   binary main_v330 main_v329 main_v331 mulf,
   binary main_v326 main_v326 main_v332 mulf,
   binary main_v331 main_v332 main_v333 mulf,
   nullary main_cst_126 (constant S_ .f32 0x00000000#32),
   unary main_cst_126 main_v334 (broadcastInDim S4096x27 ![] bcast_S_S4096x27),
   nullary main_cst_127 (constant S_ .f32 0x3F800000#32),
   unary main_cst_127 main_v335 (broadcastInDim S4096x27 ![] bcast_S_S4096x27),
   binary main_v334 main_v335 main_v336 addf,
   binary main_v333 main_v336 main_v337 mulf,
   unary main_v3 main_v338 Host.cos,
   binary main_v338 main_v338 main_v339 mulf,
   nullary main_cst_128 (constant S_ .f32 0x3F800000#32),
   unary main_cst_128 main_v340 (broadcastInDim S4096x27 ![] bcast_S_S4096x27),
   binary main_v340 main_v339 main_v341 subf,
   nullary main_cst_129 (constant S_ .f32 0x00000000#32),
   TRef.unary (.of main_cst_129) main_call11.v0 id,
   TRef.unary main_call11.v0 main_call11.v1 (broadcastInDim S4096x27 ![] bcast_S_S4096x27),
   TRef.binary main_call11.v1 (.of main_v341) main_call11.v2 maximumf,
   unary main_v342 main_v343 Host.sqrt,
   nullary main_cst_130 (constant S_ .f32 0x3F800000#32),
   unary main_cst_130 main_v344 (broadcastInDim S4096x27 ![] bcast_S_S4096x27),
   nullary main_cst_131 (constant S_ .f32 0x3F800000#32),
   unary main_cst_131 main_v345 (broadcastInDim S4096x27 ![] bcast_S_S4096x27),
   binary main_v338 main_v345 main_v346 mulf,
   binary main_v346 main_v344 main_v347 mulf,
   nullary main_cst_132 (constant S_ .f32 0x40400000#32),
   unary main_cst_132 main_v348 (broadcastInDim S4096x27 ![] bcast_S_S4096x27),
   binary main_v348 main_v338 main_v349 mulf,
   binary main_v349 main_v347 main_v350 mulf,
   nullary main_cst_133 (constant S_ .f32 0x3F800000#32),
   unary main_cst_133 main_v351 (broadcastInDim S4096x27 ![] bcast_S_S4096x27),
   binary main_v351 main_v344 main_v352 mulf,
   binary main_v350 main_v352 main_v353 subf,
   nullary main_cst_134 (constant S_ .f32 0x40000000#32),
   unary main_cst_134 main_v354 (broadcastInDim S4096x27 ![] bcast_S_S4096x27),
   binary main_v353 main_v354 main_v355 Host.divf,
   nullary main_cst_135 (constant S_ .f32 0x3F217B01#32),
   unary main_cst_135 main_v356 (broadcastInDim S4096x27 ![] bcast_S_S4096x27),
   binary main_v356 main_v355 main_v357 mulf,
   binary main_v337 main_v357 main_v358 mulf]

def refs : List (Ref sig .tc) :=
  [main_cst_123, main_v325, main_v326, main_cst_124, main_v327, main_v328, main_v329, main_cst_125, main_v330, main_v331, main_v332, main_v333, main_cst_126, main_v334, main_cst_127, main_v335, main_v336, main_v337, main_v338, main_v339, main_cst_128, main_v340, main_v341, main_cst_129, main_call11_v0, main_call11_v1, main_v342, main_v343, main_cst_130, main_v344, main_cst_131, main_v345, main_v346, main_v347, main_cst_132, main_v348, main_v349, main_v350, main_cst_133, main_v351, main_v352, main_v353, main_cst_134, main_v354, main_v355, main_cst_135, main_v356, main_v357, main_v358]

theorem facts {F : FTy → Type} [FloatOps F] : Stretch (ops (F := F)) refs := by unfold ops refs; stretch_facts

theorem value (W : Valuation τ sig (Elt Ideal)) :
    after (ops (F := Ideal)) W (no_index (Proc.devRef .tc main_v358)) = fun q : S4096x27.Idx =>
      Cert.Basis.hw11 (W (Proc.devRef .tc main_v1) q) (W (Proc.devRef .tc main_v3) q) (W (Proc.devRef .tc main_v5) q) := by
  funext q; unfold ops Cert.Basis.hw11; pointwise_value

end Cert.ReferenceIdeal.Col11

end
-- ==== Proof.RefCol12.lean ====
import proofs.«118825_j71382356459674_1_alg».proof.Proof.RefChunk

noncomputable section

namespace Cert.ReferenceIdeal.Col12

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_136 (constant S_ .f32 0x3F2AAAAB#32),
   unary main_cst_136 main_v359 (broadcastInDim S4096x27 ![] bcast_S_S4096x27),
   binary main_v359 main_v1 main_v360 mulf,
   nullary main_cst_137 (constant S_ .f32 0xBF000000#32),
   unary main_cst_137 main_v361 (broadcastInDim S4096x27 ![] bcast_S_S4096x27),
   binary main_v361 main_v360 main_v362 mulf,
   unary main_v362 main_v363 Host.exp,
   nullary main_cst_138 (constant S_ .f32 0x3CA62EDE#32),
   unary main_cst_138 main_v364 (broadcastInDim S4096x27 ![] bcast_S_S4096x27),
   binary main_v364 main_v363 main_v365 mulf,
   binary main_v360 main_v360 main_v366 mulf,
   binary main_v365 main_v366 main_v367 mulf,
   nullary main_cst_139 (constant S_ .f32 0x00000000#32),
   unary main_cst_139 main_v368 (broadcastInDim S4096x27 ![] bcast_S_S4096x27),
   nullary main_cst_140 (constant S_ .f32 0x3F800000#32),
   unary main_cst_140 main_v369 (broadcastInDim S4096x27 ![] bcast_S_S4096x27),
   binary main_v368 main_v369 main_v370 addf,
   binary main_v367 main_v370 main_v371 mulf,
   unary main_v3 main_v372 Host.cos,
   binary main_v372 main_v372 main_v373 mulf,
   nullary main_cst_141 (constant S_ .f32 0x3F800000#32),
   unary main_cst_141 main_v374 (broadcastInDim S4096x27 ![] bcast_S_S4096x27),
   binary main_v374 main_v373 main_v375 subf,
   nullary main_cst_142 (constant S_ .f32 0x00000000#32),
   TRef.unary (.of main_cst_142) main_call12.v0 id,
   TRef.unary main_call12.v0 main_call12.v1 (broadcastInDim S4096x27 ![] bcast_S_S4096x27),
   TRef.binary main_call12.v1 (.of main_v375) main_call12.v2 maximumf,
   unary main_v376 main_v377 Host.sqrt,
   nullary main_cst_143 (constant S_ .f32 0x3F800000#32),
   unary main_cst_143 main_v378 (broadcastInDim S4096x27 ![] bcast_S_S4096x27),
   nullary main_cst_144 (constant S_ .f32 0xBF800000#32),
   unary main_cst_144 main_v379 (broadcastInDim S4096x27 ![] bcast_S_S4096x27),
   binary main_v378 main_v379 main_v380 mulf,
   binary main_v380 main_v377 main_v381 mulf,
   nullary main_cst_145 (constant S_ .f32 0x40400000#32),
   unary main_cst_145 main_v382 (broadcastInDim S4096x27 ![] bcast_S_S4096x27),
   binary main_v372 main_v382 main_v383 mulf,
   binary main_v383 main_v381 main_v384 mulf,
   nullary main_cst_146 (constant S_ .f32 0x3EBA762B#32),
   unary main_cst_146 main_v385 (broadcastInDim S4096x27 ![] bcast_S_S4096x27),
   binary main_v385 main_v384 main_v386 mulf,
   nullary main_cst_147 (constant S_ .f32 0x3F800000#32),
   unary main_cst_147 main_v387 (broadcastInDim S4096x27 ![] bcast_S_S4096x27),
   binary main_v387 main_v5 main_v388 mulf,
   unary main_v388 main_v389 Host.cos,
   binary main_v386 main_v389 main_v390 mulf,
   binary main_v371 main_v390 main_v391 mulf]

def refs : List (Ref sig .tc) :=
  [main_cst_136, main_v359, main_v360, main_cst_137, main_v361, main_v362, main_v363, main_cst_138, main_v364, main_v365, main_v366, main_v367, main_cst_139, main_v368, main_cst_140, main_v369, main_v370, main_v371, main_v372, main_v373, main_cst_141, main_v374, main_v375, main_cst_142, main_call12_v0, main_call12_v1, main_v376, main_v377, main_cst_143, main_v378, main_cst_144, main_v379, main_v380, main_v381, main_cst_145, main_v382, main_v383, main_v384, main_cst_146, main_v385, main_v386, main_cst_147, main_v387, main_v388, main_v389, main_v390, main_v391]

theorem facts {F : FTy → Type} [FloatOps F] : Stretch (ops (F := F)) refs := by unfold ops refs; stretch_facts

theorem value (W : Valuation τ sig (Elt Ideal)) :
    after (ops (F := Ideal)) W (no_index (Proc.devRef .tc main_v391)) = fun q : S4096x27.Idx =>
      Cert.Basis.hw12 (W (Proc.devRef .tc main_v1) q) (W (Proc.devRef .tc main_v3) q) (W (Proc.devRef .tc main_v5) q) := by
  funext q; unfold ops Cert.Basis.hw12; pointwise_value

end Cert.ReferenceIdeal.Col12

end
-- ==== Proof.RefCol13.lean ====
import proofs.«118825_j71382356459674_1_alg».proof.Proof.RefChunk

noncomputable section

namespace Cert.ReferenceIdeal.Col13

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_148 (constant S_ .f32 0x3F2AAAAB#32),
   unary main_cst_148 main_v392 (broadcastInDim S4096x27 ![] bcast_S_S4096x27),
   binary main_v392 main_v1 main_v393 mulf,
   nullary main_cst_149 (constant S_ .f32 0xBF000000#32),
   unary main_cst_149 main_v394 (broadcastInDim S4096x27 ![] bcast_S_S4096x27),
   binary main_v394 main_v393 main_v395 mulf,
   unary main_v395 main_v396 Host.exp,
   nullary main_cst_150 (constant S_ .f32 0x3CA62EDE#32),
   unary main_cst_150 main_v397 (broadcastInDim S4096x27 ![] bcast_S_S4096x27),
   binary main_v397 main_v396 main_v398 mulf,
   binary main_v393 main_v393 main_v399 mulf,
   binary main_v398 main_v399 main_v400 mulf,
   nullary main_cst_151 (constant S_ .f32 0x00000000#32),
   unary main_cst_151 main_v401 (broadcastInDim S4096x27 ![] bcast_S_S4096x27),
   nullary main_cst_152 (constant S_ .f32 0x3F800000#32),
   unary main_cst_152 main_v402 (broadcastInDim S4096x27 ![] bcast_S_S4096x27),
   binary main_v401 main_v402 main_v403 addf,
   binary main_v400 main_v403 main_v404 mulf,
   unary main_v3 main_v405 Host.cos,
   binary main_v405 main_v405 main_v406 mulf,
   nullary main_cst_153 (constant S_ .f32 0x3F800000#32),
   unary main_cst_153 main_v407 (broadcastInDim S4096x27 ![] bcast_S_S4096x27),
   binary main_v407 main_v406 main_v408 subf,
   nullary main_cst_154 (constant S_ .f32 0x00000000#32),
   TRef.unary (.of main_cst_154) main_call13.v0 id,
   TRef.unary main_call13.v0 main_call13.v1 (broadcastInDim S4096x27 ![] bcast_S_S4096x27),
   TRef.binary main_call13.v1 (.of main_v408) main_call13.v2 maximumf,
   unary main_v409 main_v410 Host.sqrt,
   nullary main_cst_155 (constant S_ .f32 0x3F800000#32),
   unary main_cst_155 main_v411 (broadcastInDim S4096x27 ![] bcast_S_S4096x27),
   nullary main_cst_156 (constant S_ .f32 0xBF800000#32),
   unary main_cst_156 main_v412 (broadcastInDim S4096x27 ![] bcast_S_S4096x27),
   binary main_v411 main_v412 main_v413 mulf,
   binary main_v413 main_v410 main_v414 mulf,
   nullary main_cst_157 (constant S_ .f32 0xC0400000#32),
   unary main_cst_157 main_v415 (broadcastInDim S4096x27 ![] bcast_S_S4096x27),
   binary main_v414 main_v415 main_v416 mulf,
   binary main_v416 main_v410 main_v417 mulf,
   nullary main_cst_158 (constant S_ .f32 0x3E3A762B#32),
   unary main_cst_158 main_v418 (broadcastInDim S4096x27 ![] bcast_S_S4096x27),
   binary main_v418 main_v417 main_v419 mulf,
   nullary main_cst_159 (constant S_ .f32 0x40000000#32),
   unary main_cst_159 main_v420 (broadcastInDim S4096x27 ![] bcast_S_S4096x27),
   binary main_v420 main_v5 main_v421 mulf,
   unary main_v421 main_v422 Host.cos,
   binary main_v419 main_v422 main_v423 mulf,
   binary main_v404 main_v423 main_v424 mulf]

def refs : List (Ref sig .tc) :=
  [main_cst_148, main_v392, main_v393, main_cst_149, main_v394, main_v395, main_v396, main_cst_150, main_v397, main_v398, main_v399, main_v400, main_cst_151, main_v401, main_cst_152, main_v402, main_v403, main_v404, main_v405, main_v406, main_cst_153, main_v407, main_v408, main_cst_154, main_call13_v0, main_call13_v1, main_v409, main_v410, main_cst_155, main_v411, main_cst_156, main_v412, main_v413, main_v414, main_cst_157, main_v415, main_v416, main_v417, main_cst_158, main_v418, main_v419, main_cst_159, main_v420, main_v421, main_v422, main_v423, main_v424]

theorem facts {F : FTy → Type} [FloatOps F] : Stretch (ops (F := F)) refs := by unfold ops refs; stretch_facts

theorem value (W : Valuation τ sig (Elt Ideal)) :
    after (ops (F := Ideal)) W (no_index (Proc.devRef .tc main_v424)) = fun q : S4096x27.Idx =>
      Cert.Basis.hw13 (W (Proc.devRef .tc main_v1) q) (W (Proc.devRef .tc main_v3) q) (W (Proc.devRef .tc main_v5) q) := by
  funext q; unfold ops Cert.Basis.hw13; pointwise_value

end Cert.ReferenceIdeal.Col13

end
-- ==== Proof.RefCol14.lean ====
import proofs.«118825_j71382356459674_1_alg».proof.Proof.RefChunk

noncomputable section

namespace Cert.ReferenceIdeal.Col14

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_160 (constant S_ .f32 0x3F000000#32),
   unary main_cst_160 main_v425 (broadcastInDim S4096x27 ![] bcast_S_S4096x27),
   binary main_v425 main_v1 main_v426 mulf,
   nullary main_cst_161 (constant S_ .f32 0xBF000000#32),
   unary main_cst_161 main_v427 (broadcastInDim S4096x27 ![] bcast_S_S4096x27),
   binary main_v427 main_v426 main_v428 mulf,
   unary main_v428 main_v429 Host.exp,
   nullary main_cst_162 (constant S_ .f32 0x3D800000#32),
   unary main_cst_162 main_v430 (broadcastInDim S4096x27 ![] bcast_S_S4096x27),
   binary main_v430 main_v429 main_v431 mulf,
   nullary main_cst_163 (constant S_ .f32 0x3F800000#32),
   unary main_cst_163 main_v432 (broadcastInDim S4096x27 ![] bcast_S_S4096x27),
   binary main_v431 main_v432 main_v433 mulf,
   nullary main_cst_164 (constant S_ .f32 0x00000000#32),
   unary main_cst_164 main_v434 (broadcastInDim S4096x27 ![] bcast_S_S4096x27),
   nullary main_cst_165 (constant S_ .f32 0xBE2AAAAB#32),
   unary main_cst_165 main_v435 (broadcastInDim S4096x27 ![] bcast_S_S4096x27),
   binary main_v434 main_v435 main_v436 addf,
   binary main_v436 main_v426 main_v437 mulf,
   nullary main_cst_166 (constant S_ .f32 0x40000000#32),
   unary main_cst_166 main_v438 (broadcastInDim S4096x27 ![] bcast_S_S4096x27),
   binary main_v437 main_v438 main_v439 addf,
   binary main_v439 main_v426 main_v440 mulf,
   nullary main_cst_167 (constant S_ .f32 0xC0C00000#32),
   unary main_cst_167 main_v441 (broadcastInDim S4096x27 ![] bcast_S_S4096x27),
   binary main_v440 main_v441 main_v442 addf,
   binary main_v442 main_v426 main_v443 mulf,
   nullary main_cst_168 (constant S_ .f32 0x40800000#32),
   unary main_cst_168 main_v444 (broadcastInDim S4096x27 ![] bcast_S_S4096x27),
   binary main_v443 main_v444 main_v445 addf,
   binary main_v433 main_v445 main_v446 mulf,
   unary main_v3 main_v447 Host.cos,
   binary main_v447 main_v447 main_v448 mulf,
   nullary main_cst_169 (constant S_ .f32 0x3F800000#32),
   unary main_cst_169 main_v449 (broadcastInDim S4096x27 ![] bcast_S_S4096x27),
   binary main_v449 main_v448 main_v450 subf,
   nullary main_cst_170 (constant S_ .f32 0x00000000#32),
   TRef.unary (.of main_cst_170) main_call14.v0 id,
   TRef.unary main_call14.v0 main_call14.v1 (broadcastInDim S4096x27 ![] bcast_S_S4096x27),
   TRef.binary main_call14.v1 (.of main_v450) main_call14.v2 maximumf,
   unary main_v451 main_v452 Host.sqrt,
   nullary main_cst_171 (constant S_ .f32 0x3F800000#32),
   unary main_cst_171 main_v453 (broadcastInDim S4096x27 ![] bcast_S_S4096x27),
   nullary main_cst_172 (constant S_ .f32 0x3E906EBB#32),
   unary main_cst_172 main_v454 (broadcastInDim S4096x27 ![] bcast_S_S4096x27),
   binary main_v454 main_v453 main_v455 mulf,
   binary main_v446 main_v455 main_v456 mulf]

def refs : List (Ref sig .tc) :=
  [main_cst_160, main_v425, main_v426, main_cst_161, main_v427, main_v428, main_v429, main_cst_162, main_v430, main_v431, main_cst_163, main_v432, main_v433, main_cst_164, main_v434, main_cst_165, main_v435, main_v436, main_v437, main_cst_166, main_v438, main_v439, main_v440, main_cst_167, main_v441, main_v442, main_v443, main_cst_168, main_v444, main_v445, main_v446, main_v447, main_v448, main_cst_169, main_v449, main_v450, main_cst_170, main_call14_v0, main_call14_v1, main_v451, main_v452, main_cst_171, main_v453, main_cst_172, main_v454, main_v455, main_v456]

theorem facts {F : FTy → Type} [FloatOps F] : Stretch (ops (F := F)) refs := by unfold ops refs; stretch_facts

theorem value (W : Valuation τ sig (Elt Ideal)) :
    after (ops (F := Ideal)) W (no_index (Proc.devRef .tc main_v456)) = fun q : S4096x27.Idx =>
      Cert.Basis.hw14 (W (Proc.devRef .tc main_v1) q) (W (Proc.devRef .tc main_v3) q) (W (Proc.devRef .tc main_v5) q) := by
  funext q; unfold ops Cert.Basis.hw14; pointwise_value

end Cert.ReferenceIdeal.Col14

end
-- ==== Proof.RefCol15.lean ====
import proofs.«118825_j71382356459674_1_alg».proof.Proof.RefChunk

noncomputable section

namespace Cert.ReferenceIdeal.Col15

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_173 (constant S_ .f32 0x3F000000#32),
   unary main_cst_173 main_v457 (broadcastInDim S4096x27 ![] bcast_S_S4096x27),
   binary main_v457 main_v1 main_v458 mulf,
   nullary main_cst_174 (constant S_ .f32 0xBF000000#32),
   unary main_cst_174 main_v459 (broadcastInDim S4096x27 ![] bcast_S_S4096x27),
   binary main_v459 main_v458 main_v460 mulf,
   unary main_v460 main_v461 Host.exp,
   nullary main_cst_175 (constant S_ .f32 0x3C8432A5#32),
   unary main_cst_175 main_v462 (broadcastInDim S4096x27 ![] bcast_S_S4096x27),
   binary main_v462 main_v461 main_v463 mulf,
   binary main_v463 main_v458 main_v464 mulf,
   nullary main_cst_176 (constant S_ .f32 0x00000000#32),
   unary main_cst_176 main_v465 (broadcastInDim S4096x27 ![] bcast_S_S4096x27),
   nullary main_cst_177 (constant S_ .f32 0x3F000000#32),
   unary main_cst_177 main_v466 (broadcastInDim S4096x27 ![] bcast_S_S4096x27),
   binary main_v465 main_v466 main_v467 addf,
   binary main_v467 main_v458 main_v468 mulf,
   nullary main_cst_178 (constant S_ .f32 0xC0A00000#32),
   unary main_cst_178 main_v469 (broadcastInDim S4096x27 ![] bcast_S_S4096x27),
   binary main_v468 main_v469 main_v470 addf,
   binary main_v470 main_v458 main_v471 mulf,
   nullary main_cst_179 (constant S_ .f32 0x41200000#32),
   unary main_cst_179 main_v472 (broadcastInDim S4096x27 ![] bcast_S_S4096x27),
   binary main_v471 main_v472 main_v473 addf,
   binary main_v464 main_v473 main_v474 mulf,
   unary main_v3 main_v475 Host.cos,
   binary main_v475 main_v475 main_v476 mulf,
   nullary main_cst_180 (constant S_ .f32 0x3F800000#32),
   unary main_cst_180 main_v477 (broadcastInDim S4096x27 ![] bcast_S_S4096x27),
   binary main_v477 main_v476 main_v478 subf,
   nullary main_cst_181 (constant S_ .f32 0x00000000#32),
   TRef.unary (.of main_cst_181) main_call15.v0 id,
   TRef.unary main_call15.v0 main_call15.v1 (broadcastInDim S4096x27 ![] bcast_S_S4096x27),
   TRef.binary main_call15.v1 (.of main_v478) main_call15.v2 maximumf,
   unary main_v479 main_v480 Host.sqrt,
   nullary main_cst_182 (constant S_ .f32 0x3F800000#32),
   unary main_cst_182 main_v481 (broadcastInDim S4096x27 ![] bcast_S_S4096x27),
   nullary main_cst_183 (constant S_ .f32 0xBF800000#32),
   unary main_cst_183 main_v482 (broadcastInDim S4096x27 ![] bcast_S_S4096x27),
   binary main_v481 main_v482 main_v483 mulf,
   binary main_v483 main_v480 main_v484 mulf,
   nullary main_cst_184 (constant S_ .f32 0x3EFA2A1C#32),
   unary main_cst_184 main_v485 (broadcastInDim S4096x27 ![] bcast_S_S4096x27),
   binary main_v485 main_v484 main_v486 mulf,
   nullary main_cst_185 (constant S_ .f32 0x3F800000#32),
   unary main_cst_185 main_v487 (broadcastInDim S4096x27 ![] bcast_S_S4096x27),
   binary main_v487 main_v5 main_v488 mulf,
   unary main_v488 main_v489 Host.sin,
   binary main_v486 main_v489 main_v490 mulf,
   binary main_v474 main_v490 main_v491 mulf]

def refs : List (Ref sig .tc) :=
  [main_cst_173, main_v457, main_v458, main_cst_174, main_v459, main_v460, main_v461, main_cst_175, main_v462, main_v463, main_v464, main_cst_176, main_v465, main_cst_177, main_v466, main_v467, main_v468, main_cst_178, main_v469, main_v470, main_v471, main_cst_179, main_v472, main_v473, main_v474, main_v475, main_v476, main_cst_180, main_v477, main_v478, main_cst_181, main_call15_v0, main_call15_v1, main_v479, main_v480, main_cst_182, main_v481, main_cst_183, main_v482, main_v483, main_v484, main_cst_184, main_v485, main_v486, main_cst_185, main_v487, main_v488, main_v489, main_v490, main_v491]

theorem facts {F : FTy → Type} [FloatOps F] : Stretch (ops (F := F)) refs := by unfold ops refs; stretch_facts

theorem value (W : Valuation τ sig (Elt Ideal)) :
    after (ops (F := Ideal)) W (no_index (Proc.devRef .tc main_v491)) = fun q : S4096x27.Idx =>
      Cert.Basis.hw15 (W (Proc.devRef .tc main_v1) q) (W (Proc.devRef .tc main_v3) q) (W (Proc.devRef .tc main_v5) q) := by
  funext q; unfold ops Cert.Basis.hw15; pointwise_value

end Cert.ReferenceIdeal.Col15

end
-- ==== Proof.RefCol16.lean ====
import proofs.«118825_j71382356459674_1_alg».proof.Proof.RefChunk

noncomputable section

namespace Cert.ReferenceIdeal.Col16

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_186 (constant S_ .f32 0x3F000000#32),
   unary main_cst_186 main_v492 (broadcastInDim S4096x27 ![] bcast_S_S4096x27),
   binary main_v492 main_v1 main_v493 mulf,
   nullary main_cst_187 (constant S_ .f32 0xBF000000#32),
   unary main_cst_187 main_v494 (broadcastInDim S4096x27 ![] bcast_S_S4096x27),
   binary main_v494 main_v493 main_v495 mulf,
   unary main_v495 main_v496 Host.exp,
   nullary main_cst_188 (constant S_ .f32 0x3C8432A5#32),
   unary main_cst_188 main_v497 (broadcastInDim S4096x27 ![] bcast_S_S4096x27),
   binary main_v497 main_v496 main_v498 mulf,
   binary main_v498 main_v493 main_v499 mulf,
   nullary main_cst_189 (constant S_ .f32 0x00000000#32),
   unary main_cst_189 main_v500 (broadcastInDim S4096x27 ![] bcast_S_S4096x27),
   nullary main_cst_190 (constant S_ .f32 0x3F000000#32),
   unary main_cst_190 main_v501 (broadcastInDim S4096x27 ![] bcast_S_S4096x27),
   binary main_v500 main_v501 main_v502 addf,
   binary main_v502 main_v493 main_v503 mulf,
   nullary main_cst_191 (constant S_ .f32 0xC0A00000#32),
   unary main_cst_191 main_v504 (broadcastInDim S4096x27 ![] bcast_S_S4096x27),
   binary main_v503 main_v504 main_v505 addf,
   binary main_v505 main_v493 main_v506 mulf,
   nullary main_cst_192 (constant S_ .f32 0x41200000#32),
   unary main_cst_192 main_v507 (broadcastInDim S4096x27 ![] bcast_S_S4096x27),
   binary main_v506 main_v507 main_v508 addf,
   binary main_v499 main_v508 main_v509 mulf,
   unary main_v3 main_v510 Host.cos,
   binary main_v510 main_v510 main_v511 mulf,
   nullary main_cst_193 (constant S_ .f32 0x3F800000#32),
   unary main_cst_193 main_v512 (broadcastInDim S4096x27 ![] bcast_S_S4096x27),
   binary main_v512 main_v511 main_v513 subf,
   nullary main_cst_194 (constant S_ .f32 0x00000000#32),
   TRef.unary (.of main_cst_194) main_call16.v0 id,
   TRef.unary main_call16.v0 main_call16.v1 (broadcastInDim S4096x27 ![] bcast_S_S4096x27),
   TRef.binary main_call16.v1 (.of main_v513) main_call16.v2 maximumf,
   unary main_v514 main_v515 Host.sqrt,
   nullary main_cst_195 (constant S_ .f32 0x3F800000#32),
   unary main_cst_195 main_v516 (broadcastInDim S4096x27 ![] bcast_S_S4096x27),
   nullary main_cst_196 (constant S_ .f32 0x3F800000#32),
   unary main_cst_196 main_v517 (broadcastInDim S4096x27 ![] bcast_S_S4096x27),
   binary main_v510 main_v517 main_v518 mulf,
   binary main_v518 main_v516 main_v519 mulf,
   nullary main_cst_197 (constant S_ .f32 0x3EFA2A1C#32),
   unary main_cst_197 main_v520 (broadcastInDim S4096x27 ![] bcast_S_S4096x27),
   binary main_v520 main_v519 main_v521 mulf,
   binary main_v509 main_v521 main_v522 mulf]

def refs : List (Ref sig .tc) :=
  [main_cst_186, main_v492, main_v493, main_cst_187, main_v494, main_v495, main_v496, main_cst_188, main_v497, main_v498, main_v499, main_cst_189, main_v500, main_cst_190, main_v501, main_v502, main_v503, main_cst_191, main_v504, main_v505, main_v506, main_cst_192, main_v507, main_v508, main_v509, main_v510, main_v511, main_cst_193, main_v512, main_v513, main_cst_194, main_call16_v0, main_call16_v1, main_v514, main_v515, main_cst_195, main_v516, main_cst_196, main_v517, main_v518, main_v519, main_cst_197, main_v520, main_v521, main_v522]

theorem facts {F : FTy → Type} [FloatOps F] : Stretch (ops (F := F)) refs := by unfold ops refs; stretch_facts

theorem value (W : Valuation τ sig (Elt Ideal)) :
    after (ops (F := Ideal)) W (no_index (Proc.devRef .tc main_v522)) = fun q : S4096x27.Idx =>
      Cert.Basis.hw16 (W (Proc.devRef .tc main_v1) q) (W (Proc.devRef .tc main_v3) q) (W (Proc.devRef .tc main_v5) q) := by
  funext q; unfold ops Cert.Basis.hw16; pointwise_value

end Cert.ReferenceIdeal.Col16

end
-- ==== Proof.RefCol17.lean ====
import proofs.«118825_j71382356459674_1_alg».proof.Proof.RefChunk

noncomputable section

namespace Cert.ReferenceIdeal.Col17

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_198 (constant S_ .f32 0x3F000000#32),
   unary main_cst_198 main_v523 (broadcastInDim S4096x27 ![] bcast_S_S4096x27),
   binary main_v523 main_v1 main_v524 mulf,
   nullary main_cst_199 (constant S_ .f32 0xBF000000#32),
   unary main_cst_199 main_v525 (broadcastInDim S4096x27 ![] bcast_S_S4096x27),
   binary main_v525 main_v524 main_v526 mulf,
   unary main_v526 main_v527 Host.exp,
   nullary main_cst_200 (constant S_ .f32 0x3C8432A5#32),
   unary main_cst_200 main_v528 (broadcastInDim S4096x27 ![] bcast_S_S4096x27),
   binary main_v528 main_v527 main_v529 mulf,
   binary main_v529 main_v524 main_v530 mulf,
   nullary main_cst_201 (constant S_ .f32 0x00000000#32),
   unary main_cst_201 main_v531 (broadcastInDim S4096x27 ![] bcast_S_S4096x27),
   nullary main_cst_202 (constant S_ .f32 0x3F000000#32),
   unary main_cst_202 main_v532 (broadcastInDim S4096x27 ![] bcast_S_S4096x27),
   binary main_v531 main_v532 main_v533 addf,
   binary main_v533 main_v524 main_v534 mulf,
   nullary main_cst_203 (constant S_ .f32 0xC0A00000#32),
   unary main_cst_203 main_v535 (broadcastInDim S4096x27 ![] bcast_S_S4096x27),
   binary main_v534 main_v535 main_v536 addf,
   binary main_v536 main_v524 main_v537 mulf,
   nullary main_cst_204 (constant S_ .f32 0x41200000#32),
   unary main_cst_204 main_v538 (broadcastInDim S4096x27 ![] bcast_S_S4096x27),
   binary main_v537 main_v538 main_v539 addf,
   binary main_v530 main_v539 main_v540 mulf,
   unary main_v3 main_v541 Host.cos,
   binary main_v541 main_v541 main_v542 mulf,
   nullary main_cst_205 (constant S_ .f32 0x3F800000#32),
   unary main_cst_205 main_v543 (broadcastInDim S4096x27 ![] bcast_S_S4096x27),
   binary main_v543 main_v542 main_v544 subf,
   nullary main_cst_206 (constant S_ .f32 0x00000000#32),
   TRef.unary (.of main_cst_206) main_call17.v0 id,
   TRef.unary main_call17.v0 main_call17.v1 (broadcastInDim S4096x27 ![] bcast_S_S4096x27),
   TRef.binary main_call17.v1 (.of main_v544) main_call17.v2 maximumf,
   unary main_v545 main_v546 Host.sqrt,
   nullary main_cst_207 (constant S_ .f32 0x3F800000#32),
   unary main_cst_207 main_v547 (broadcastInDim S4096x27 ![] bcast_S_S4096x27),
   nullary main_cst_208 (constant S_ .f32 0xBF800000#32),
   unary main_cst_208 main_v548 (broadcastInDim S4096x27 ![] bcast_S_S4096x27),
   binary main_v547 main_v548 main_v549 mulf,
   binary main_v549 main_v546 main_v550 mulf,
   nullary main_cst_209 (constant S_ .f32 0x3EFA2A1C#32),
   unary main_cst_209 main_v551 (broadcastInDim S4096x27 ![] bcast_S_S4096x27),
   binary main_v551 main_v550 main_v552 mulf,
   nullary main_cst_210 (constant S_ .f32 0x3F800000#32),
   unary main_cst_210 main_v553 (broadcastInDim S4096x27 ![] bcast_S_S4096x27),
   binary main_v553 main_v5 main_v554 mulf,
   unary main_v554 main_v555 Host.cos,
   binary main_v552 main_v555 main_v556 mulf,
   binary main_v540 main_v556 main_v557 mulf]

def refs : List (Ref sig .tc) :=
  [main_cst_198, main_v523, main_v524, main_cst_199, main_v525, main_v526, main_v527, main_cst_200, main_v528, main_v529, main_v530, main_cst_201, main_v531, main_cst_202, main_v532, main_v533, main_v534, main_cst_203, main_v535, main_v536, main_v537, main_cst_204, main_v538, main_v539, main_v540, main_v541, main_v542, main_cst_205, main_v543, main_v544, main_cst_206, main_call17_v0, main_call17_v1, main_v545, main_v546, main_cst_207, main_v547, main_cst_208, main_v548, main_v549, main_v550, main_cst_209, main_v551, main_v552, main_cst_210, main_v553, main_v554, main_v555, main_v556, main_v557]

theorem facts {F : FTy → Type} [FloatOps F] : Stretch (ops (F := F)) refs := by unfold ops refs; stretch_facts

theorem value (W : Valuation τ sig (Elt Ideal)) :
    after (ops (F := Ideal)) W (no_index (Proc.devRef .tc main_v557)) = fun q : S4096x27.Idx =>
      Cert.Basis.hw17 (W (Proc.devRef .tc main_v1) q) (W (Proc.devRef .tc main_v3) q) (W (Proc.devRef .tc main_v5) q) := by
  funext q; unfold ops Cert.Basis.hw17; pointwise_value

end Cert.ReferenceIdeal.Col17

end
-- ==== Proof.RefCol18.lean ====
import proofs.«118825_j71382356459674_1_alg».proof.Proof.RefChunk

noncomputable section

namespace Cert.ReferenceIdeal.Col18

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_211 (constant S_ .f32 0x3F000000#32),
   unary main_cst_211 main_v558 (broadcastInDim S4096x27 ![] bcast_S_S4096x27),
   binary main_v558 main_v1 main_v559 mulf,
   nullary main_cst_212 (constant S_ .f32 0xBF000000#32),
   unary main_cst_212 main_v560 (broadcastInDim S4096x27 ![] bcast_S_S4096x27),
   binary main_v560 main_v559 main_v561 mulf,
   unary main_v561 main_v562 Host.exp,
   nullary main_cst_213 (constant S_ .f32 0x3B98A61F#32),
   unary main_cst_213 main_v563 (broadcastInDim S4096x27 ![] bcast_S_S4096x27),
   binary main_v563 main_v562 main_v564 mulf,
   binary main_v559 main_v559 main_v565 mulf,
   binary main_v564 main_v565 main_v566 mulf,
   nullary main_cst_214 (constant S_ .f32 0x00000000#32),
   unary main_cst_214 main_v567 (broadcastInDim S4096x27 ![] bcast_S_S4096x27),
   nullary main_cst_215 (constant S_ .f32 0xBF800000#32),
   unary main_cst_215 main_v568 (broadcastInDim S4096x27 ![] bcast_S_S4096x27),
   binary main_v567 main_v568 main_v569 addf,
   binary main_v569 main_v559 main_v570 mulf,
   nullary main_cst_216 (constant S_ .f32 0x40C00000#32),
   unary main_cst_216 main_v571 (broadcastInDim S4096x27 ![] bcast_S_S4096x27),
   binary main_v570 main_v571 main_v572 addf,
   binary main_v566 main_v572 main_v573 mulf,
   unary main_v3 main_v574 Host.cos,
   binary main_v574 main_v574 main_v575 mulf,
   nullary main_cst_217 (constant S_ .f32 0x3F800000#32),
   unary main_cst_217 main_v576 (broadcastInDim S4096x27 ![] bcast_S_S4096x27),
   binary main_v576 main_v575 main_v577 subf,
   nullary main_cst_218 (constant S_ .f32 0x00000000#32),
   TRef.unary (.of main_cst_218) main_call18.v0 id,
   TRef.unary main_call18.v0 main_call18.v1 (broadcastInDim S4096x27 ![] bcast_S_S4096x27),
   TRef.binary main_call18.v1 (.of main_v577) main_call18.v2 maximumf,
   unary main_v578 main_v579 Host.sqrt,
   nullary main_cst_219 (constant S_ .f32 0x3F800000#32),
   unary main_cst_219 main_v580 (broadcastInDim S4096x27 ![] bcast_S_S4096x27),
   nullary main_cst_220 (constant S_ .f32 0xBF800000#32),
   unary main_cst_220 main_v581 (broadcastInDim S4096x27 ![] bcast_S_S4096x27),
   binary main_v580 main_v581 main_v582 mulf,
   binary main_v582 main_v579 main_v583 mulf,
   nullary main_cst_221 (constant S_ .f32 0xC0400000#32),
   unary main_cst_221 main_v584 (broadcastInDim S4096x27 ![] bcast_S_S4096x27),
   binary main_v583 main_v584 main_v585 mulf,
   binary main_v585 main_v579 main_v586 mulf,
   nullary main_cst_222 (constant S_ .f32 0x3E3A762B#32),
   unary main_cst_222 main_v587 (broadcastInDim S4096x27 ![] bcast_S_S4096x27),
   binary main_v587 main_v586 main_v588 mulf,
   nullary main_cst_223 (constant S_ .f32 0x40000000#32),
   unary main_cst_223 main_v589 (broadcastInDim S4096x27 ![] bcast_S_S4096x27),
   binary main_v589 main_v5 main_v590 mulf,
   unary main_v590 main_v591 Host.sin,
   binary main_v588 main_v591 main_v592 mulf,
   binary main_v573 main_v592 main_v593 mulf]

def refs : List (Ref sig .tc) :=
  [main_cst_211, main_v558, main_v559, main_cst_212, main_v560, main_v561, main_v562, main_cst_213, main_v563, main_v564, main_v565, main_v566, main_cst_214, main_v567, main_cst_215, main_v568, main_v569, main_v570, main_cst_216, main_v571, main_v572, main_v573, main_v574, main_v575, main_cst_217, main_v576, main_v577, main_cst_218, main_call18_v0, main_call18_v1, main_v578, main_v579, main_cst_219, main_v580, main_cst_220, main_v581, main_v582, main_v583, main_cst_221, main_v584, main_v585, main_v586, main_cst_222, main_v587, main_v588, main_cst_223, main_v589, main_v590, main_v591, main_v592, main_v593]

theorem facts {F : FTy → Type} [FloatOps F] : Stretch (ops (F := F)) refs := by unfold ops refs; stretch_facts

theorem value (W : Valuation τ sig (Elt Ideal)) :
    after (ops (F := Ideal)) W (no_index (Proc.devRef .tc main_v593)) = fun q : S4096x27.Idx =>
      Cert.Basis.hw18 (W (Proc.devRef .tc main_v1) q) (W (Proc.devRef .tc main_v3) q) (W (Proc.devRef .tc main_v5) q) := by
  funext q; unfold ops Cert.Basis.hw18; pointwise_value

end Cert.ReferenceIdeal.Col18

end
-- ==== Proof.RefCol19.lean ====
import proofs.«118825_j71382356459674_1_alg».proof.Proof.RefChunk

noncomputable section

namespace Cert.ReferenceIdeal.Col19

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_224 (constant S_ .f32 0x3F000000#32),
   unary main_cst_224 main_v594 (broadcastInDim S4096x27 ![] bcast_S_S4096x27),
   binary main_v594 main_v1 main_v595 mulf,
   nullary main_cst_225 (constant S_ .f32 0xBF000000#32),
   unary main_cst_225 main_v596 (broadcastInDim S4096x27 ![] bcast_S_S4096x27),
   binary main_v596 main_v595 main_v597 mulf,
   unary main_v597 main_v598 Host.exp,
   nullary main_cst_226 (constant S_ .f32 0x3B98A61F#32),
   unary main_cst_226 main_v599 (broadcastInDim S4096x27 ![] bcast_S_S4096x27),
   binary main_v599 main_v598 main_v600 mulf,
   binary main_v595 main_v595 main_v601 mulf,
   binary main_v600 main_v601 main_v602 mulf,
   nullary main_cst_227 (constant S_ .f32 0x00000000#32),
   unary main_cst_227 main_v603 (broadcastInDim S4096x27 ![] bcast_S_S4096x27),
   nullary main_cst_228 (constant S_ .f32 0xBF800000#32),
   unary main_cst_228 main_v604 (broadcastInDim S4096x27 ![] bcast_S_S4096x27),
   binary main_v603 main_v604 main_v605 addf,
   binary main_v605 main_v595 main_v606 mulf,
   nullary main_cst_229 (constant S_ .f32 0x40C00000#32),
   unary main_cst_229 main_v607 (broadcastInDim S4096x27 ![] bcast_S_S4096x27),
   binary main_v606 main_v607 main_v608 addf,
   binary main_v602 main_v608 main_v609 mulf,
   unary main_v3 main_v610 Host.cos,
   binary main_v610 main_v610 main_v611 mulf,
   nullary main_cst_230 (constant S_ .f32 0x3F800000#32),
   unary main_cst_230 main_v612 (broadcastInDim S4096x27 ![] bcast_S_S4096x27),
   binary main_v612 main_v611 main_v613 subf,
   nullary main_cst_231 (constant S_ .f32 0x00000000#32),
   TRef.unary (.of main_cst_231) main_call19.v0 id,
   TRef.unary main_call19.v0 main_call19.v1 (broadcastInDim S4096x27 ![] bcast_S_S4096x27),
   TRef.binary main_call19.v1 (.of main_v613) main_call19.v2 maximumf,
   unary main_v614 main_v615 Host.sqrt,
   nullary main_cst_232 (constant S_ .f32 0x3F800000#32),
   unary main_cst_232 main_v616 (broadcastInDim S4096x27 ![] bcast_S_S4096x27),
   nullary main_cst_233 (constant S_ .f32 0xBF800000#32),
   unary main_cst_233 main_v617 (broadcastInDim S4096x27 ![] bcast_S_S4096x27),
   binary main_v616 main_v617 main_v618 mulf,
   binary main_v618 main_v615 main_v619 mulf,
   nullary main_cst_234 (constant S_ .f32 0x40400000#32),
   unary main_cst_234 main_v620 (broadcastInDim S4096x27 ![] bcast_S_S4096x27),
   binary main_v610 main_v620 main_v621 mulf,
   binary main_v621 main_v619 main_v622 mulf,
   nullary main_cst_235 (constant S_ .f32 0x3EBA762B#32),
   unary main_cst_235 main_v623 (broadcastInDim S4096x27 ![] bcast_S_S4096x27),
   binary main_v623 main_v622 main_v624 mulf,
   nullary main_cst_236 (constant S_ .f32 0x3F800000#32),
   unary main_cst_236 main_v625 (broadcastInDim S4096x27 ![] bcast_S_S4096x27),
   binary main_v625 main_v5 main_v626 mulf,
   unary main_v626 main_v627 Host.sin,
   binary main_v624 main_v627 main_v628 mulf,
   binary main_v609 main_v628 main_v629 mulf]

def refs : List (Ref sig .tc) :=
  [main_cst_224, main_v594, main_v595, main_cst_225, main_v596, main_v597, main_v598, main_cst_226, main_v599, main_v600, main_v601, main_v602, main_cst_227, main_v603, main_cst_228, main_v604, main_v605, main_v606, main_cst_229, main_v607, main_v608, main_v609, main_v610, main_v611, main_cst_230, main_v612, main_v613, main_cst_231, main_call19_v0, main_call19_v1, main_v614, main_v615, main_cst_232, main_v616, main_cst_233, main_v617, main_v618, main_v619, main_cst_234, main_v620, main_v621, main_v622, main_cst_235, main_v623, main_v624, main_cst_236, main_v625, main_v626, main_v627, main_v628, main_v629]

theorem facts {F : FTy → Type} [FloatOps F] : Stretch (ops (F := F)) refs := by unfold ops refs; stretch_facts

theorem value (W : Valuation τ sig (Elt Ideal)) :
    after (ops (F := Ideal)) W (no_index (Proc.devRef .tc main_v629)) = fun q : S4096x27.Idx =>
      Cert.Basis.hw19 (W (Proc.devRef .tc main_v1) q) (W (Proc.devRef .tc main_v3) q) (W (Proc.devRef .tc main_v5) q) := by
  funext q; unfold ops Cert.Basis.hw19; pointwise_value

end Cert.ReferenceIdeal.Col19

end
-- ==== Proof.RefCol20.lean ====
import proofs.«118825_j71382356459674_1_alg».proof.Proof.RefChunk

noncomputable section

namespace Cert.ReferenceIdeal.Col20

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_237 (constant S_ .f32 0x3F000000#32),
   unary main_cst_237 main_v630 (broadcastInDim S4096x27 ![] bcast_S_S4096x27),
   binary main_v630 main_v1 main_v631 mulf,
   nullary main_cst_238 (constant S_ .f32 0xBF000000#32),
   unary main_cst_238 main_v632 (broadcastInDim S4096x27 ![] bcast_S_S4096x27),
   binary main_v632 main_v631 main_v633 mulf,
   unary main_v633 main_v634 Host.exp,
   nullary main_cst_239 (constant S_ .f32 0x3B98A61F#32),
   unary main_cst_239 main_v635 (broadcastInDim S4096x27 ![] bcast_S_S4096x27),
   binary main_v635 main_v634 main_v636 mulf,
   binary main_v631 main_v631 main_v637 mulf,
   binary main_v636 main_v637 main_v638 mulf,
   nullary main_cst_240 (constant S_ .f32 0x00000000#32),
   unary main_cst_240 main_v639 (broadcastInDim S4096x27 ![] bcast_S_S4096x27),
   nullary main_cst_241 (constant S_ .f32 0xBF800000#32),
   unary main_cst_241 main_v640 (broadcastInDim S4096x27 ![] bcast_S_S4096x27),
   binary main_v639 main_v640 main_v641 addf,
   binary main_v641 main_v631 main_v642 mulf,
   nullary main_cst_242 (constant S_ .f32 0x40C00000#32),
   unary main_cst_242 main_v643 (broadcastInDim S4096x27 ![] bcast_S_S4096x27),
   binary main_v642 main_v643 main_v644 addf,
   binary main_v638 main_v644 main_v645 mulf,
   unary main_v3 main_v646 Host.cos,
   binary main_v646 main_v646 main_v647 mulf,
   nullary main_cst_243 (constant S_ .f32 0x3F800000#32),
   unary main_cst_243 main_v648 (broadcastInDim S4096x27 ![] bcast_S_S4096x27),
   binary main_v648 main_v647 main_v649 subf,
   nullary main_cst_244 (constant S_ .f32 0x00000000#32),
   TRef.unary (.of main_cst_244) main_call20.v0 id,
   TRef.unary main_call20.v0 main_call20.v1 (broadcastInDim S4096x27 ![] bcast_S_S4096x27),
   TRef.binary main_call20.v1 (.of main_v649) main_call20.v2 maximumf,
   unary main_v650 main_v651 Host.sqrt,
   nullary main_cst_245 (constant S_ .f32 0x3F800000#32),
   unary main_cst_245 main_v652 (broadcastInDim S4096x27 ![] bcast_S_S4096x27),
   nullary main_cst_246 (constant S_ .f32 0x3F800000#32),
   unary main_cst_246 main_v653 (broadcastInDim S4096x27 ![] bcast_S_S4096x27),
   binary main_v646 main_v653 main_v654 mulf,
   binary main_v654 main_v652 main_v655 mulf,
   nullary main_cst_247 (constant S_ .f32 0x40400000#32),
   unary main_cst_247 main_v656 (broadcastInDim S4096x27 ![] bcast_S_S4096x27),
   binary main_v656 main_v646 main_v657 mulf,
   binary main_v657 main_v655 main_v658 mulf,
   nullary main_cst_248 (constant S_ .f32 0x3F800000#32),
   unary main_cst_248 main_v659 (broadcastInDim S4096x27 ![] bcast_S_S4096x27),
   binary main_v659 main_v652 main_v660 mulf,
   binary main_v658 main_v660 main_v661 subf,
   nullary main_cst_249 (constant S_ .f32 0x40000000#32),
   unary main_cst_249 main_v662 (broadcastInDim S4096x27 ![] bcast_S_S4096x27),
   binary main_v661 main_v662 main_v663 Host.divf,
   nullary main_cst_250 (constant S_ .f32 0x3F217B01#32),
   unary main_cst_250 main_v664 (broadcastInDim S4096x27 ![] bcast_S_S4096x27),
   binary main_v664 main_v663 main_v665 mulf,
   binary main_v645 main_v665 main_v666 mulf]

def refs : List (Ref sig .tc) :=
  [main_cst_237, main_v630, main_v631, main_cst_238, main_v632, main_v633, main_v634, main_cst_239, main_v635, main_v636, main_v637, main_v638, main_cst_240, main_v639, main_cst_241, main_v640, main_v641, main_v642, main_cst_242, main_v643, main_v644, main_v645, main_v646, main_v647, main_cst_243, main_v648, main_v649, main_cst_244, main_call20_v0, main_call20_v1, main_v650, main_v651, main_cst_245, main_v652, main_cst_246, main_v653, main_v654, main_v655, main_cst_247, main_v656, main_v657, main_v658, main_cst_248, main_v659, main_v660, main_v661, main_cst_249, main_v662, main_v663, main_cst_250, main_v664, main_v665, main_v666]

theorem facts {F : FTy → Type} [FloatOps F] : Stretch (ops (F := F)) refs := by unfold ops refs; stretch_facts

theorem value (W : Valuation τ sig (Elt Ideal)) :
    after (ops (F := Ideal)) W (no_index (Proc.devRef .tc main_v666)) = fun q : S4096x27.Idx =>
      Cert.Basis.hw20 (W (Proc.devRef .tc main_v1) q) (W (Proc.devRef .tc main_v3) q) (W (Proc.devRef .tc main_v5) q) := by
  funext q; unfold ops Cert.Basis.hw20; pointwise_value

end Cert.ReferenceIdeal.Col20

end
-- ==== Proof.RefCol21.lean ====
import proofs.«118825_j71382356459674_1_alg».proof.Proof.RefChunk

noncomputable section

namespace Cert.ReferenceIdeal.Col21

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_251 (constant S_ .f32 0x3F000000#32),
   unary main_cst_251 main_v667 (broadcastInDim S4096x27 ![] bcast_S_S4096x27),
   binary main_v667 main_v1 main_v668 mulf,
   nullary main_cst_252 (constant S_ .f32 0xBF000000#32),
   unary main_cst_252 main_v669 (broadcastInDim S4096x27 ![] bcast_S_S4096x27),
   binary main_v669 main_v668 main_v670 mulf,
   unary main_v670 main_v671 Host.exp,
   nullary main_cst_253 (constant S_ .f32 0x3B98A61F#32),
   unary main_cst_253 main_v672 (broadcastInDim S4096x27 ![] bcast_S_S4096x27),
   binary main_v672 main_v671 main_v673 mulf,
   binary main_v668 main_v668 main_v674 mulf,
   binary main_v673 main_v674 main_v675 mulf,
   nullary main_cst_254 (constant S_ .f32 0x00000000#32),
   unary main_cst_254 main_v676 (broadcastInDim S4096x27 ![] bcast_S_S4096x27),
   nullary main_cst_255 (constant S_ .f32 0xBF800000#32),
   unary main_cst_255 main_v677 (broadcastInDim S4096x27 ![] bcast_S_S4096x27),
   binary main_v676 main_v677 main_v678 addf,
   binary main_v678 main_v668 main_v679 mulf,
   nullary main_cst_256 (constant S_ .f32 0x40C00000#32),
   unary main_cst_256 main_v680 (broadcastInDim S4096x27 ![] bcast_S_S4096x27),
   binary main_v679 main_v680 main_v681 addf,
   binary main_v675 main_v681 main_v682 mulf,
   unary main_v3 main_v683 Host.cos,
   binary main_v683 main_v683 main_v684 mulf,
   nullary main_cst_257 (constant S_ .f32 0x3F800000#32),
   unary main_cst_257 main_v685 (broadcastInDim S4096x27 ![] bcast_S_S4096x27),
   binary main_v685 main_v684 main_v686 subf,
   nullary main_cst_258 (constant S_ .f32 0x00000000#32),
   TRef.unary (.of main_cst_258) main_call21.v0 id,
   TRef.unary main_call21.v0 main_call21.v1 (broadcastInDim S4096x27 ![] bcast_S_S4096x27),
   TRef.binary main_call21.v1 (.of main_v686) main_call21.v2 maximumf,
   unary main_v687 main_v688 Host.sqrt,
   nullary main_cst_259 (constant S_ .f32 0x3F800000#32),
   unary main_cst_259 main_v689 (broadcastInDim S4096x27 ![] bcast_S_S4096x27),
   nullary main_cst_260 (constant S_ .f32 0xBF800000#32),
   unary main_cst_260 main_v690 (broadcastInDim S4096x27 ![] bcast_S_S4096x27),
   binary main_v689 main_v690 main_v691 mulf,
   binary main_v691 main_v688 main_v692 mulf,
   nullary main_cst_261 (constant S_ .f32 0x40400000#32),
   unary main_cst_261 main_v693 (broadcastInDim S4096x27 ![] bcast_S_S4096x27),
   binary main_v683 main_v693 main_v694 mulf,
   binary main_v694 main_v692 main_v695 mulf,
   nullary main_cst_262 (constant S_ .f32 0x3EBA762B#32),
   unary main_cst_262 main_v696 (broadcastInDim S4096x27 ![] bcast_S_S4096x27),
   binary main_v696 main_v695 main_v697 mulf,
   nullary main_cst_263 (constant S_ .f32 0x3F800000#32),
   unary main_cst_263 main_v698 (broadcastInDim S4096x27 ![] bcast_S_S4096x27),
   binary main_v698 main_v5 main_v699 mulf,
   unary main_v699 main_v700 Host.cos,
   binary main_v697 main_v700 main_v701 mulf,
   binary main_v682 main_v701 main_v702 mulf]

def refs : List (Ref sig .tc) :=
  [main_cst_251, main_v667, main_v668, main_cst_252, main_v669, main_v670, main_v671, main_cst_253, main_v672, main_v673, main_v674, main_v675, main_cst_254, main_v676, main_cst_255, main_v677, main_v678, main_v679, main_cst_256, main_v680, main_v681, main_v682, main_v683, main_v684, main_cst_257, main_v685, main_v686, main_cst_258, main_call21_v0, main_call21_v1, main_v687, main_v688, main_cst_259, main_v689, main_cst_260, main_v690, main_v691, main_v692, main_cst_261, main_v693, main_v694, main_v695, main_cst_262, main_v696, main_v697, main_cst_263, main_v698, main_v699, main_v700, main_v701, main_v702]

theorem facts {F : FTy → Type} [FloatOps F] : Stretch (ops (F := F)) refs := by unfold ops refs; stretch_facts

theorem value (W : Valuation τ sig (Elt Ideal)) :
    after (ops (F := Ideal)) W (no_index (Proc.devRef .tc main_v702)) = fun q : S4096x27.Idx =>
      Cert.Basis.hw21 (W (Proc.devRef .tc main_v1) q) (W (Proc.devRef .tc main_v3) q) (W (Proc.devRef .tc main_v5) q) := by
  funext q; unfold ops Cert.Basis.hw21; pointwise_value

end Cert.ReferenceIdeal.Col21

end
-- ==== Proof.RefCol22.lean ====
import proofs.«118825_j71382356459674_1_alg».proof.Proof.RefChunk

noncomputable section

namespace Cert.ReferenceIdeal.Col22

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_264 (constant S_ .f32 0x3F000000#32),
   unary main_cst_264 main_v703 (broadcastInDim S4096x27 ![] bcast_S_S4096x27),
   binary main_v703 main_v1 main_v704 mulf,
   nullary main_cst_265 (constant S_ .f32 0xBF000000#32),
   unary main_cst_265 main_v705 (broadcastInDim S4096x27 ![] bcast_S_S4096x27),
   binary main_v705 main_v704 main_v706 mulf,
   unary main_v706 main_v707 Host.exp,
   nullary main_cst_266 (constant S_ .f32 0x3B98A61F#32),
   unary main_cst_266 main_v708 (broadcastInDim S4096x27 ![] bcast_S_S4096x27),
   binary main_v708 main_v707 main_v709 mulf,
   binary main_v704 main_v704 main_v710 mulf,
   binary main_v709 main_v710 main_v711 mulf,
   nullary main_cst_267 (constant S_ .f32 0x00000000#32),
   unary main_cst_267 main_v712 (broadcastInDim S4096x27 ![] bcast_S_S4096x27),
   nullary main_cst_268 (constant S_ .f32 0xBF800000#32),
   unary main_cst_268 main_v713 (broadcastInDim S4096x27 ![] bcast_S_S4096x27),
   binary main_v712 main_v713 main_v714 addf,
   binary main_v714 main_v704 main_v715 mulf,
   nullary main_cst_269 (constant S_ .f32 0x40C00000#32),
   unary main_cst_269 main_v716 (broadcastInDim S4096x27 ![] bcast_S_S4096x27),
   binary main_v715 main_v716 main_v717 addf,
   binary main_v711 main_v717 main_v718 mulf,
   unary main_v3 main_v719 Host.cos,
   binary main_v719 main_v719 main_v720 mulf,
   nullary main_cst_270 (constant S_ .f32 0x3F800000#32),
   unary main_cst_270 main_v721 (broadcastInDim S4096x27 ![] bcast_S_S4096x27),
   binary main_v721 main_v720 main_v722 subf,
   nullary main_cst_271 (constant S_ .f32 0x00000000#32),
   TRef.unary (.of main_cst_271) main_call22.v0 id,
   TRef.unary main_call22.v0 main_call22.v1 (broadcastInDim S4096x27 ![] bcast_S_S4096x27),
   TRef.binary main_call22.v1 (.of main_v722) main_call22.v2 maximumf,
   unary main_v723 main_v724 Host.sqrt,
   nullary main_cst_272 (constant S_ .f32 0x3F800000#32),
   unary main_cst_272 main_v725 (broadcastInDim S4096x27 ![] bcast_S_S4096x27),
   nullary main_cst_273 (constant S_ .f32 0xBF800000#32),
   unary main_cst_273 main_v726 (broadcastInDim S4096x27 ![] bcast_S_S4096x27),
   binary main_v725 main_v726 main_v727 mulf,
   binary main_v727 main_v724 main_v728 mulf,
   nullary main_cst_274 (constant S_ .f32 0xC0400000#32),
   unary main_cst_274 main_v729 (broadcastInDim S4096x27 ![] bcast_S_S4096x27),
   binary main_v728 main_v729 main_v730 mulf,
   binary main_v730 main_v724 main_v731 mulf,
   nullary main_cst_275 (constant S_ .f32 0x3E3A762B#32),
   unary main_cst_275 main_v732 (broadcastInDim S4096x27 ![] bcast_S_S4096x27),
   binary main_v732 main_v731 main_v733 mulf,
   nullary main_cst_276 (constant S_ .f32 0x40000000#32),
   unary main_cst_276 main_v734 (broadcastInDim S4096x27 ![] bcast_S_S4096x27),
   binary main_v734 main_v5 main_v735 mulf,
   unary main_v735 main_v736 Host.cos,
   binary main_v733 main_v736 main_v737 mulf,
   binary main_v718 main_v737 main_v738 mulf]

def refs : List (Ref sig .tc) :=
  [main_cst_264, main_v703, main_v704, main_cst_265, main_v705, main_v706, main_v707, main_cst_266, main_v708, main_v709, main_v710, main_v711, main_cst_267, main_v712, main_cst_268, main_v713, main_v714, main_v715, main_cst_269, main_v716, main_v717, main_v718, main_v719, main_v720, main_cst_270, main_v721, main_v722, main_cst_271, main_call22_v0, main_call22_v1, main_v723, main_v724, main_cst_272, main_v725, main_cst_273, main_v726, main_v727, main_v728, main_cst_274, main_v729, main_v730, main_v731, main_cst_275, main_v732, main_v733, main_cst_276, main_v734, main_v735, main_v736, main_v737, main_v738]

theorem facts {F : FTy → Type} [FloatOps F] : Stretch (ops (F := F)) refs := by unfold ops refs; stretch_facts

theorem value (W : Valuation τ sig (Elt Ideal)) :
    after (ops (F := Ideal)) W (no_index (Proc.devRef .tc main_v738)) = fun q : S4096x27.Idx =>
      Cert.Basis.hw22 (W (Proc.devRef .tc main_v1) q) (W (Proc.devRef .tc main_v3) q) (W (Proc.devRef .tc main_v5) q) := by
  funext q; unfold ops Cert.Basis.hw22; pointwise_value

end Cert.ReferenceIdeal.Col22

end
-- ==== Proof.RefCol23.lean ====
import proofs.«118825_j71382356459674_1_alg».proof.Proof.RefChunk

noncomputable section

namespace Cert.ReferenceIdeal.Col23

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_277 (constant S_ .f32 0x3F000000#32),
   unary main_cst_277 main_v739 (broadcastInDim S4096x27 ![] bcast_S_S4096x27),
   binary main_v739 main_v1 main_v740 mulf,
   nullary main_cst_278 (constant S_ .f32 0xBF000000#32),
   unary main_cst_278 main_v741 (broadcastInDim S4096x27 ![] bcast_S_S4096x27),
   binary main_v741 main_v740 main_v742 mulf,
   unary main_v742 main_v743 Host.exp,
   nullary main_cst_279 (constant S_ .f32 0x3AE6C891#32),
   unary main_cst_279 main_v744 (broadcastInDim S4096x27 ![] bcast_S_S4096x27),
   binary main_v744 main_v743 main_v745 mulf,
   binary main_v740 main_v740 main_v746 mulf,
   binary main_v746 main_v740 main_v747 mulf,
   binary main_v745 main_v747 main_v748 mulf,
   nullary main_cst_280 (constant S_ .f32 0x00000000#32),
   unary main_cst_280 main_v749 (broadcastInDim S4096x27 ![] bcast_S_S4096x27),
   nullary main_cst_281 (constant S_ .f32 0x3F800000#32),
   unary main_cst_281 main_v750 (broadcastInDim S4096x27 ![] bcast_S_S4096x27),
   binary main_v749 main_v750 main_v751 addf,
   binary main_v748 main_v751 main_v752 mulf,
   unary main_v3 main_v753 Host.cos,
   binary main_v753 main_v753 main_v754 mulf,
   nullary main_cst_282 (constant S_ .f32 0x3F800000#32),
   unary main_cst_282 main_v755 (broadcastInDim S4096x27 ![] bcast_S_S4096x27),
   binary main_v755 main_v754 main_v756 subf,
   nullary main_cst_283 (constant S_ .f32 0x00000000#32),
   TRef.unary (.of main_cst_283) main_call23.v0 id,
   TRef.unary main_call23.v0 main_call23.v1 (broadcastInDim S4096x27 ![] bcast_S_S4096x27),
   TRef.binary main_call23.v1 (.of main_v756) main_call23.v2 maximumf,
   unary main_v757 main_v758 Host.sqrt,
   nullary main_cst_284 (constant S_ .f32 0x3F800000#32),
   unary main_cst_284 main_v759 (broadcastInDim S4096x27 ![] bcast_S_S4096x27),
   nullary main_cst_285 (constant S_ .f32 0xBF800000#32),
   unary main_cst_285 main_v760 (broadcastInDim S4096x27 ![] bcast_S_S4096x27),
   binary main_v759 main_v760 main_v761 mulf,
   binary main_v761 main_v758 main_v762 mulf,
   nullary main_cst_286 (constant S_ .f32 0xC0400000#32),
   unary main_cst_286 main_v763 (broadcastInDim S4096x27 ![] bcast_S_S4096x27),
   binary main_v762 main_v763 main_v764 mulf,
   binary main_v764 main_v758 main_v765 mulf,
   nullary main_cst_287 (constant S_ .f32 0xC0A00000#32),
   unary main_cst_287 main_v766 (broadcastInDim S4096x27 ![] bcast_S_S4096x27),
   binary main_v765 main_v766 main_v767 mulf,
   binary main_v767 main_v758 main_v768 mulf,
   nullary main_cst_288 (constant S_ .f32 0x3D211F09#32),
   unary main_cst_288 main_v769 (broadcastInDim S4096x27 ![] bcast_S_S4096x27),
   binary main_v769 main_v768 main_v770 mulf,
   nullary main_cst_289 (constant S_ .f32 0x40400000#32),
   unary main_cst_289 main_v771 (broadcastInDim S4096x27 ![] bcast_S_S4096x27),
   binary main_v771 main_v5 main_v772 mulf,
   unary main_v772 main_v773 Host.sin,
   binary main_v770 main_v773 main_v774 mulf,
   binary main_v752 main_v774 main_v775 mulf]

def refs : List (Ref sig .tc) :=
  [main_cst_277, main_v739, main_v740, main_cst_278, main_v741, main_v742, main_v743, main_cst_279, main_v744, main_v745, main_v746, main_v747, main_v748, main_cst_280, main_v749, main_cst_281, main_v750, main_v751, main_v752, main_v753, main_v754, main_cst_282, main_v755, main_v756, main_cst_283, main_call23_v0, main_call23_v1, main_v757, main_v758, main_cst_284, main_v759, main_cst_285, main_v760, main_v761, main_v762, main_cst_286, main_v763, main_v764, main_v765, main_cst_287, main_v766, main_v767, main_v768, main_cst_288, main_v769, main_v770, main_cst_289, main_v771, main_v772, main_v773, main_v774, main_v775]

theorem facts {F : FTy → Type} [FloatOps F] : Stretch (ops (F := F)) refs := by unfold ops refs; stretch_facts

theorem value (W : Valuation τ sig (Elt Ideal)) :
    after (ops (F := Ideal)) W (no_index (Proc.devRef .tc main_v775)) = fun q : S4096x27.Idx =>
      Cert.Basis.hw23 (W (Proc.devRef .tc main_v1) q) (W (Proc.devRef .tc main_v3) q) (W (Proc.devRef .tc main_v5) q) := by
  funext q; unfold ops Cert.Basis.hw23; pointwise_value

end Cert.ReferenceIdeal.Col23

end
-- ==== Proof.RefCol24.lean ====
import proofs.«118825_j71382356459674_1_alg».proof.Proof.RefChunk

noncomputable section

namespace Cert.ReferenceIdeal.Col24

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_290 (constant S_ .f32 0x3F000000#32),
   unary main_cst_290 main_v776 (broadcastInDim S4096x27 ![] bcast_S_S4096x27),
   binary main_v776 main_v1 main_v777 mulf,
   nullary main_cst_291 (constant S_ .f32 0xBF000000#32),
   unary main_cst_291 main_v778 (broadcastInDim S4096x27 ![] bcast_S_S4096x27),
   binary main_v778 main_v777 main_v779 mulf,
   unary main_v779 main_v780 Host.exp,
   nullary main_cst_292 (constant S_ .f32 0x3AE6C891#32),
   unary main_cst_292 main_v781 (broadcastInDim S4096x27 ![] bcast_S_S4096x27),
   binary main_v781 main_v780 main_v782 mulf,
   binary main_v777 main_v777 main_v783 mulf,
   binary main_v783 main_v777 main_v784 mulf,
   binary main_v782 main_v784 main_v785 mulf,
   nullary main_cst_293 (constant S_ .f32 0x00000000#32),
   unary main_cst_293 main_v786 (broadcastInDim S4096x27 ![] bcast_S_S4096x27),
   nullary main_cst_294 (constant S_ .f32 0x3F800000#32),
   unary main_cst_294 main_v787 (broadcastInDim S4096x27 ![] bcast_S_S4096x27),
   binary main_v786 main_v787 main_v788 addf,
   binary main_v785 main_v788 main_v789 mulf,
   unary main_v3 main_v790 Host.cos,
   binary main_v790 main_v790 main_v791 mulf,
   nullary main_cst_295 (constant S_ .f32 0x3F800000#32),
   unary main_cst_295 main_v792 (broadcastInDim S4096x27 ![] bcast_S_S4096x27),
   binary main_v792 main_v791 main_v793 subf,
   nullary main_cst_296 (constant S_ .f32 0x00000000#32),
   TRef.unary (.of main_cst_296) main_call24.v0 id,
   TRef.unary main_call24.v0 main_call24.v1 (broadcastInDim S4096x27 ![] bcast_S_S4096x27),
   TRef.binary main_call24.v1 (.of main_v793) main_call24.v2 maximumf,
   unary main_v794 main_v795 Host.sqrt,
   nullary main_cst_297 (constant S_ .f32 0x3F800000#32),
   unary main_cst_297 main_v796 (broadcastInDim S4096x27 ![] bcast_S_S4096x27),
   nullary main_cst_298 (constant S_ .f32 0xBF800000#32),
   unary main_cst_298 main_v797 (broadcastInDim S4096x27 ![] bcast_S_S4096x27),
   binary main_v796 main_v797 main_v798 mulf,
   binary main_v798 main_v795 main_v799 mulf,
   nullary main_cst_299 (constant S_ .f32 0xC0400000#32),
   unary main_cst_299 main_v800 (broadcastInDim S4096x27 ![] bcast_S_S4096x27),
   binary main_v799 main_v800 main_v801 mulf,
   binary main_v801 main_v795 main_v802 mulf,
   nullary main_cst_300 (constant S_ .f32 0x40A00000#32),
   unary main_cst_300 main_v803 (broadcastInDim S4096x27 ![] bcast_S_S4096x27),
   binary main_v790 main_v803 main_v804 mulf,
   binary main_v804 main_v802 main_v805 mulf,
   nullary main_cst_301 (constant S_ .f32 0x3DC55519#32),
   unary main_cst_301 main_v806 (broadcastInDim S4096x27 ![] bcast_S_S4096x27),
   binary main_v806 main_v805 main_v807 mulf,
   nullary main_cst_302 (constant S_ .f32 0x40000000#32),
   unary main_cst_302 main_v808 (broadcastInDim S4096x27 ![] bcast_S_S4096x27),
   binary main_v808 main_v5 main_v809 mulf,
   unary main_v809 main_v810 Host.sin,
   binary main_v807 main_v810 main_v811 mulf,
   binary main_v789 main_v811 main_v812 mulf]

def refs : List (Ref sig .tc) :=
  [main_cst_290, main_v776, main_v777, main_cst_291, main_v778, main_v779, main_v780, main_cst_292, main_v781, main_v782, main_v783, main_v784, main_v785, main_cst_293, main_v786, main_cst_294, main_v787, main_v788, main_v789, main_v790, main_v791, main_cst_295, main_v792, main_v793, main_cst_296, main_call24_v0, main_call24_v1, main_v794, main_v795, main_cst_297, main_v796, main_cst_298, main_v797, main_v798, main_v799, main_cst_299, main_v800, main_v801, main_v802, main_cst_300, main_v803, main_v804, main_v805, main_cst_301, main_v806, main_v807, main_cst_302, main_v808, main_v809, main_v810, main_v811, main_v812]

theorem facts {F : FTy → Type} [FloatOps F] : Stretch (ops (F := F)) refs := by unfold ops refs; stretch_facts

theorem value (W : Valuation τ sig (Elt Ideal)) :
    after (ops (F := Ideal)) W (no_index (Proc.devRef .tc main_v812)) = fun q : S4096x27.Idx =>
      Cert.Basis.hw24 (W (Proc.devRef .tc main_v1) q) (W (Proc.devRef .tc main_v3) q) (W (Proc.devRef .tc main_v5) q) := by
  funext q; unfold ops Cert.Basis.hw24; pointwise_value

end Cert.ReferenceIdeal.Col24

end
-- ==== Proof.RefCol25.lean ====
import proofs.«118825_j71382356459674_1_alg».proof.Proof.RefChunk

noncomputable section

namespace Cert.ReferenceIdeal.Col25

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_303 (constant S_ .f32 0x3F000000#32),
   unary main_cst_303 main_v813 (broadcastInDim S4096x27 ![] bcast_S_S4096x27),
   binary main_v813 main_v1 main_v814 mulf,
   nullary main_cst_304 (constant S_ .f32 0xBF000000#32),
   unary main_cst_304 main_v815 (broadcastInDim S4096x27 ![] bcast_S_S4096x27),
   binary main_v815 main_v814 main_v816 mulf,
   unary main_v816 main_v817 Host.exp,
   nullary main_cst_305 (constant S_ .f32 0x3AE6C891#32),
   unary main_cst_305 main_v818 (broadcastInDim S4096x27 ![] bcast_S_S4096x27),
   binary main_v818 main_v817 main_v819 mulf,
   binary main_v814 main_v814 main_v820 mulf,
   binary main_v820 main_v814 main_v821 mulf,
   binary main_v819 main_v821 main_v822 mulf,
   nullary main_cst_306 (constant S_ .f32 0x00000000#32),
   unary main_cst_306 main_v823 (broadcastInDim S4096x27 ![] bcast_S_S4096x27),
   nullary main_cst_307 (constant S_ .f32 0x3F800000#32),
   unary main_cst_307 main_v824 (broadcastInDim S4096x27 ![] bcast_S_S4096x27),
   binary main_v823 main_v824 main_v825 addf,
   binary main_v822 main_v825 main_v826 mulf,
   unary main_v3 main_v827 Host.cos,
   binary main_v827 main_v827 main_v828 mulf,
   nullary main_cst_308 (constant S_ .f32 0x3F800000#32),
   unary main_cst_308 main_v829 (broadcastInDim S4096x27 ![] bcast_S_S4096x27),
   binary main_v829 main_v828 main_v830 subf,
   nullary main_cst_309 (constant S_ .f32 0x00000000#32),
   TRef.unary (.of main_cst_309) main_call25.v0 id,
   TRef.unary main_call25.v0 main_call25.v1 (broadcastInDim S4096x27 ![] bcast_S_S4096x27),
   TRef.binary main_call25.v1 (.of main_v830) main_call25.v2 maximumf,
   unary main_v831 main_v832 Host.sqrt,
   nullary main_cst_310 (constant S_ .f32 0x3F800000#32),
   unary main_cst_310 main_v833 (broadcastInDim S4096x27 ![] bcast_S_S4096x27),
   nullary main_cst_311 (constant S_ .f32 0xBF800000#32),
   unary main_cst_311 main_v834 (broadcastInDim S4096x27 ![] bcast_S_S4096x27),
   binary main_v833 main_v834 main_v835 mulf,
   binary main_v835 main_v832 main_v836 mulf,
   nullary main_cst_312 (constant S_ .f32 0x40400000#32),
   unary main_cst_312 main_v837 (broadcastInDim S4096x27 ![] bcast_S_S4096x27),
   binary main_v827 main_v837 main_v838 mulf,
   binary main_v838 main_v836 main_v839 mulf,
   nullary main_cst_313 (constant S_ .f32 0x40A00000#32),
   unary main_cst_313 main_v840 (broadcastInDim S4096x27 ![] bcast_S_S4096x27),
   binary main_v840 main_v827 main_v841 mulf,
   binary main_v841 main_v839 main_v842 mulf,
   nullary main_cst_314 (constant S_ .f32 0x40400000#32),
   unary main_cst_314 main_v843 (broadcastInDim S4096x27 ![] bcast_S_S4096x27),
   binary main_v843 main_v836 main_v844 mulf,
   binary main_v842 main_v844 main_v845 subf,
   nullary main_cst_315 (constant S_ .f32 0x40000000#32),
   unary main_cst_315 main_v846 (broadcastInDim S4096x27 ![] bcast_S_S4096x27),
   binary main_v845 main_v846 main_v847 Host.divf,
   nullary main_cst_316 (constant S_ .f32 0x3E9C0145#32),
   unary main_cst_316 main_v848 (broadcastInDim S4096x27 ![] bcast_S_S4096x27),
   binary main_v848 main_v847 main_v849 mulf,
   nullary main_cst_317 (constant S_ .f32 0x3F800000#32),
   unary main_cst_317 main_v850 (broadcastInDim S4096x27 ![] bcast_S_S4096x27),
   binary main_v850 main_v5 main_v851 mulf,
   unary main_v851 main_v852 Host.sin,
   binary main_v849 main_v852 main_v853 mulf,
   binary main_v826 main_v853 main_v854 mulf]

def refs : List (Ref sig .tc) :=
  [main_cst_303, main_v813, main_v814, main_cst_304, main_v815, main_v816, main_v817, main_cst_305, main_v818, main_v819, main_v820, main_v821, main_v822, main_cst_306, main_v823, main_cst_307, main_v824, main_v825, main_v826, main_v827, main_v828, main_cst_308, main_v829, main_v830, main_cst_309, main_call25_v0, main_call25_v1, main_v831, main_v832, main_cst_310, main_v833, main_cst_311, main_v834, main_v835, main_v836, main_cst_312, main_v837, main_v838, main_v839, main_cst_313, main_v840, main_v841, main_v842, main_cst_314, main_v843, main_v844, main_v845, main_cst_315, main_v846, main_v847, main_cst_316, main_v848, main_v849, main_cst_317, main_v850, main_v851, main_v852, main_v853, main_v854]

theorem facts {F : FTy → Type} [FloatOps F] : Stretch (ops (F := F)) refs := by unfold ops refs; stretch_facts

theorem value (W : Valuation τ sig (Elt Ideal)) :
    after (ops (F := Ideal)) W (no_index (Proc.devRef .tc main_v854)) = fun q : S4096x27.Idx =>
      Cert.Basis.hw25 (W (Proc.devRef .tc main_v1) q) (W (Proc.devRef .tc main_v3) q) (W (Proc.devRef .tc main_v5) q) := by
  funext q; unfold ops Cert.Basis.hw25; pointwise_value

end Cert.ReferenceIdeal.Col25

end
-- ==== Proof.RefCol26.lean ====
import proofs.«118825_j71382356459674_1_alg».proof.Proof.RefChunk

noncomputable section

namespace Cert.ReferenceIdeal.Col26

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_318 (constant S_ .f32 0x3F000000#32),
   unary main_cst_318 main_v855 (broadcastInDim S4096x27 ![] bcast_S_S4096x27),
   binary main_v855 main_v1 main_v856 mulf,
   nullary main_cst_319 (constant S_ .f32 0xBF000000#32),
   unary main_cst_319 main_v857 (broadcastInDim S4096x27 ![] bcast_S_S4096x27),
   binary main_v857 main_v856 main_v858 mulf,
   unary main_v858 main_v859 Host.exp,
   nullary main_cst_320 (constant S_ .f32 0x3AE6C891#32),
   unary main_cst_320 main_v860 (broadcastInDim S4096x27 ![] bcast_S_S4096x27),
   binary main_v860 main_v859 main_v861 mulf,
   binary main_v856 main_v856 main_v862 mulf,
   binary main_v862 main_v856 main_v863 mulf,
   binary main_v861 main_v863 main_v864 mulf,
   nullary main_cst_321 (constant S_ .f32 0x00000000#32),
   unary main_cst_321 main_v865 (broadcastInDim S4096x27 ![] bcast_S_S4096x27),
   nullary main_cst_322 (constant S_ .f32 0x3F800000#32),
   unary main_cst_322 main_v866 (broadcastInDim S4096x27 ![] bcast_S_S4096x27),
   binary main_v865 main_v866 main_v867 addf,
   binary main_v864 main_v867 main_v868 mulf,
   unary main_v3 main_v869 Host.cos,
   binary main_v869 main_v869 main_v870 mulf,
   nullary main_cst_323 (constant S_ .f32 0x3F800000#32),
   unary main_cst_323 main_v871 (broadcastInDim S4096x27 ![] bcast_S_S4096x27),
   binary main_v871 main_v870 main_v872 subf,
   nullary main_cst_324 (constant S_ .f32 0x00000000#32),
   TRef.unary (.of main_cst_324) main_call26.v0 id,
   TRef.unary main_call26.v0 main_call26.v1 (broadcastInDim S4096x27 ![] bcast_S_S4096x27),
   TRef.binary main_call26.v1 (.of main_v872) main_call26.v2 maximumf,
   unary main_v873 main_v874 Host.sqrt,
   nullary main_cst_325 (constant S_ .f32 0x3F800000#32),
   unary main_cst_325 main_v875 (broadcastInDim S4096x27 ![] bcast_S_S4096x27),
   nullary main_cst_326 (constant S_ .f32 0x3F800000#32),
   unary main_cst_326 main_v876 (broadcastInDim S4096x27 ![] bcast_S_S4096x27),
   binary main_v869 main_v876 main_v877 mulf,
   binary main_v877 main_v875 main_v878 mulf,
   nullary main_cst_327 (constant S_ .f32 0x40400000#32),
   unary main_cst_327 main_v879 (broadcastInDim S4096x27 ![] bcast_S_S4096x27),
   binary main_v879 main_v869 main_v880 mulf,
   binary main_v880 main_v878 main_v881 mulf,
   nullary main_cst_328 (constant S_ .f32 0x3F800000#32),
   unary main_cst_328 main_v882 (broadcastInDim S4096x27 ![] bcast_S_S4096x27),
   binary main_v882 main_v875 main_v883 mulf,
   binary main_v881 main_v883 main_v884 subf,
   nullary main_cst_329 (constant S_ .f32 0x40000000#32),
   unary main_cst_329 main_v885 (broadcastInDim S4096x27 ![] bcast_S_S4096x27),
   binary main_v884 main_v885 main_v886 Host.divf,
   nullary main_cst_330 (constant S_ .f32 0x40A00000#32),
   unary main_cst_330 main_v887 (broadcastInDim S4096x27 ![] bcast_S_S4096x27),
   binary main_v887 main_v869 main_v888 mulf,
   binary main_v888 main_v886 main_v889 mulf,
   nullary main_cst_331 (constant S_ .f32 0x40000000#32),
   unary main_cst_331 main_v890 (broadcastInDim S4096x27 ![] bcast_S_S4096x27),
   binary main_v890 main_v878 main_v891 mulf,
   binary main_v889 main_v891 main_v892 subf,
   nullary main_cst_332 (constant S_ .f32 0x40400000#32),
   unary main_cst_332 main_v893 (broadcastInDim S4096x27 ![] bcast_S_S4096x27),
   binary main_v892 main_v893 main_v894 Host.divf,
   nullary main_cst_333 (constant S_ .f32 0x3F3F10F8#32),
   unary main_cst_333 main_v895 (broadcastInDim S4096x27 ![] bcast_S_S4096x27),
   binary main_v895 main_v894 main_v896 mulf,
   binary main_v868 main_v896 main_v897 mulf]

def refs : List (Ref sig .tc) :=
  [main_cst_318, main_v855, main_v856, main_cst_319, main_v857, main_v858, main_v859, main_cst_320, main_v860, main_v861, main_v862, main_v863, main_v864, main_cst_321, main_v865, main_cst_322, main_v866, main_v867, main_v868, main_v869, main_v870, main_cst_323, main_v871, main_v872, main_cst_324, main_call26_v0, main_call26_v1, main_v873, main_v874, main_cst_325, main_v875, main_cst_326, main_v876, main_v877, main_v878, main_cst_327, main_v879, main_v880, main_v881, main_cst_328, main_v882, main_v883, main_v884, main_cst_329, main_v885, main_v886, main_cst_330, main_v887, main_v888, main_v889, main_cst_331, main_v890, main_v891, main_v892, main_cst_332, main_v893, main_v894, main_cst_333, main_v895, main_v896, main_v897]

theorem facts {F : FTy → Type} [FloatOps F] : Stretch (ops (F := F)) refs := by unfold ops refs; stretch_facts

theorem value (W : Valuation τ sig (Elt Ideal)) :
    after (ops (F := Ideal)) W (no_index (Proc.devRef .tc main_v897)) = fun q : S4096x27.Idx =>
      Cert.Basis.hw26 (W (Proc.devRef .tc main_v1) q) (W (Proc.devRef .tc main_v3) q) (W (Proc.devRef .tc main_v5) q) := by
  funext q; unfold ops Cert.Basis.hw26; pointwise_value

end Cert.ReferenceIdeal.Col26

end
-- ==== Proof.RefCol27.lean ====
import proofs.«118825_j71382356459674_1_alg».proof.Proof.RefChunk

noncomputable section

namespace Cert.ReferenceIdeal.Col27

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_334 (constant S_ .f32 0x3F000000#32),
   unary main_cst_334 main_v898 (broadcastInDim S4096x27 ![] bcast_S_S4096x27),
   binary main_v898 main_v1 main_v899 mulf,
   nullary main_cst_335 (constant S_ .f32 0xBF000000#32),
   unary main_cst_335 main_v900 (broadcastInDim S4096x27 ![] bcast_S_S4096x27),
   binary main_v900 main_v899 main_v901 mulf,
   unary main_v901 main_v902 Host.exp,
   nullary main_cst_336 (constant S_ .f32 0x3AE6C891#32),
   unary main_cst_336 main_v903 (broadcastInDim S4096x27 ![] bcast_S_S4096x27),
   binary main_v903 main_v902 main_v904 mulf,
   binary main_v899 main_v899 main_v905 mulf,
   binary main_v905 main_v899 main_v906 mulf,
   binary main_v904 main_v906 main_v907 mulf,
   nullary main_cst_337 (constant S_ .f32 0x00000000#32),
   unary main_cst_337 main_v908 (broadcastInDim S4096x27 ![] bcast_S_S4096x27),
   nullary main_cst_338 (constant S_ .f32 0x3F800000#32),
   unary main_cst_338 main_v909 (broadcastInDim S4096x27 ![] bcast_S_S4096x27),
   binary main_v908 main_v909 main_v910 addf,
   binary main_v907 main_v910 main_v911 mulf,
   unary main_v3 main_v912 Host.cos,
   binary main_v912 main_v912 main_v913 mulf,
   nullary main_cst_339 (constant S_ .f32 0x3F800000#32),
   unary main_cst_339 main_v914 (broadcastInDim S4096x27 ![] bcast_S_S4096x27),
   binary main_v914 main_v913 main_v915 subf,
   nullary main_cst_340 (constant S_ .f32 0x00000000#32),
   TRef.unary (.of main_cst_340) main_call27.v0 id,
   TRef.unary main_call27.v0 main_call27.v1 (broadcastInDim S4096x27 ![] bcast_S_S4096x27),
   TRef.binary main_call27.v1 (.of main_v915) main_call27.v2 maximumf,
   unary main_v916 main_v917 Host.sqrt,
   nullary main_cst_341 (constant S_ .f32 0x3F800000#32),
   unary main_cst_341 main_v918 (broadcastInDim S4096x27 ![] bcast_S_S4096x27),
   nullary main_cst_342 (constant S_ .f32 0xBF800000#32),
   unary main_cst_342 main_v919 (broadcastInDim S4096x27 ![] bcast_S_S4096x27),
   binary main_v918 main_v919 main_v920 mulf,
   binary main_v920 main_v917 main_v921 mulf,
   nullary main_cst_343 (constant S_ .f32 0x40400000#32),
   unary main_cst_343 main_v922 (broadcastInDim S4096x27 ![] bcast_S_S4096x27),
   binary main_v912 main_v922 main_v923 mulf,
   binary main_v923 main_v921 main_v924 mulf,
   nullary main_cst_344 (constant S_ .f32 0x40A00000#32),
   unary main_cst_344 main_v925 (broadcastInDim S4096x27 ![] bcast_S_S4096x27),
   binary main_v925 main_v912 main_v926 mulf,
   binary main_v926 main_v924 main_v927 mulf,
   nullary main_cst_345 (constant S_ .f32 0x40400000#32),
   unary main_cst_345 main_v928 (broadcastInDim S4096x27 ![] bcast_S_S4096x27),
   binary main_v928 main_v921 main_v929 mulf,
   binary main_v927 main_v929 main_v930 subf,
   nullary main_cst_346 (constant S_ .f32 0x40000000#32),
   unary main_cst_346 main_v931 (broadcastInDim S4096x27 ![] bcast_S_S4096x27),
   binary main_v930 main_v931 main_v932 Host.divf,
   nullary main_cst_347 (constant S_ .f32 0x3E9C0145#32),
   unary main_cst_347 main_v933 (broadcastInDim S4096x27 ![] bcast_S_S4096x27),
   binary main_v933 main_v932 main_v934 mulf,
   nullary main_cst_348 (constant S_ .f32 0x3F800000#32),
   unary main_cst_348 main_v935 (broadcastInDim S4096x27 ![] bcast_S_S4096x27),
   binary main_v935 main_v5 main_v936 mulf,
   unary main_v936 main_v937 Host.cos,
   binary main_v934 main_v937 main_v938 mulf,
   binary main_v911 main_v938 main_v939 mulf]

def refs : List (Ref sig .tc) :=
  [main_cst_334, main_v898, main_v899, main_cst_335, main_v900, main_v901, main_v902, main_cst_336, main_v903, main_v904, main_v905, main_v906, main_v907, main_cst_337, main_v908, main_cst_338, main_v909, main_v910, main_v911, main_v912, main_v913, main_cst_339, main_v914, main_v915, main_cst_340, main_call27_v0, main_call27_v1, main_v916, main_v917, main_cst_341, main_v918, main_cst_342, main_v919, main_v920, main_v921, main_cst_343, main_v922, main_v923, main_v924, main_cst_344, main_v925, main_v926, main_v927, main_cst_345, main_v928, main_v929, main_v930, main_cst_346, main_v931, main_v932, main_cst_347, main_v933, main_v934, main_cst_348, main_v935, main_v936, main_v937, main_v938, main_v939]

theorem facts {F : FTy → Type} [FloatOps F] : Stretch (ops (F := F)) refs := by unfold ops refs; stretch_facts

theorem value (W : Valuation τ sig (Elt Ideal)) :
    after (ops (F := Ideal)) W (no_index (Proc.devRef .tc main_v939)) = fun q : S4096x27.Idx =>
      Cert.Basis.hw27 (W (Proc.devRef .tc main_v1) q) (W (Proc.devRef .tc main_v3) q) (W (Proc.devRef .tc main_v5) q) := by
  funext q; unfold ops Cert.Basis.hw27; pointwise_value

end Cert.ReferenceIdeal.Col27

end
-- ==== Proof.RefCol28.lean ====
import proofs.«118825_j71382356459674_1_alg».proof.Proof.RefChunk

noncomputable section

namespace Cert.ReferenceIdeal.Col28

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_349 (constant S_ .f32 0x3F000000#32),
   unary main_cst_349 main_v940 (broadcastInDim S4096x27 ![] bcast_S_S4096x27),
   binary main_v940 main_v1 main_v941 mulf,
   nullary main_cst_350 (constant S_ .f32 0xBF000000#32),
   unary main_cst_350 main_v942 (broadcastInDim S4096x27 ![] bcast_S_S4096x27),
   binary main_v942 main_v941 main_v943 mulf,
   unary main_v943 main_v944 Host.exp,
   nullary main_cst_351 (constant S_ .f32 0x3AE6C891#32),
   unary main_cst_351 main_v945 (broadcastInDim S4096x27 ![] bcast_S_S4096x27),
   binary main_v945 main_v944 main_v946 mulf,
   binary main_v941 main_v941 main_v947 mulf,
   binary main_v947 main_v941 main_v948 mulf,
   binary main_v946 main_v948 main_v949 mulf,
   nullary main_cst_352 (constant S_ .f32 0x00000000#32),
   unary main_cst_352 main_v950 (broadcastInDim S4096x27 ![] bcast_S_S4096x27),
   nullary main_cst_353 (constant S_ .f32 0x3F800000#32),
   unary main_cst_353 main_v951 (broadcastInDim S4096x27 ![] bcast_S_S4096x27),
   binary main_v950 main_v951 main_v952 addf,
   binary main_v949 main_v952 main_v953 mulf,
   unary main_v3 main_v954 Host.cos,
   binary main_v954 main_v954 main_v955 mulf,
   nullary main_cst_354 (constant S_ .f32 0x3F800000#32),
   unary main_cst_354 main_v956 (broadcastInDim S4096x27 ![] bcast_S_S4096x27),
   binary main_v956 main_v955 main_v957 subf,
   nullary main_cst_355 (constant S_ .f32 0x00000000#32),
   TRef.unary (.of main_cst_355) main_call28.v0 id,
   TRef.unary main_call28.v0 main_call28.v1 (broadcastInDim S4096x27 ![] bcast_S_S4096x27),
   TRef.binary main_call28.v1 (.of main_v957) main_call28.v2 maximumf,
   unary main_v958 main_v959 Host.sqrt,
   nullary main_cst_356 (constant S_ .f32 0x3F800000#32),
   unary main_cst_356 main_v960 (broadcastInDim S4096x27 ![] bcast_S_S4096x27),
   nullary main_cst_357 (constant S_ .f32 0xBF800000#32),
   unary main_cst_357 main_v961 (broadcastInDim S4096x27 ![] bcast_S_S4096x27),
   binary main_v960 main_v961 main_v962 mulf,
   binary main_v962 main_v959 main_v963 mulf,
   nullary main_cst_358 (constant S_ .f32 0xC0400000#32),
   unary main_cst_358 main_v964 (broadcastInDim S4096x27 ![] bcast_S_S4096x27),
   binary main_v963 main_v964 main_v965 mulf,
   binary main_v965 main_v959 main_v966 mulf,
   nullary main_cst_359 (constant S_ .f32 0x40A00000#32),
   unary main_cst_359 main_v967 (broadcastInDim S4096x27 ![] bcast_S_S4096x27),
   binary main_v954 main_v967 main_v968 mulf,
   binary main_v968 main_v966 main_v969 mulf,
   nullary main_cst_360 (constant S_ .f32 0x3DC55519#32),
   unary main_cst_360 main_v970 (broadcastInDim S4096x27 ![] bcast_S_S4096x27),
   binary main_v970 main_v969 main_v971 mulf,
   nullary main_cst_361 (constant S_ .f32 0x40000000#32),
   unary main_cst_361 main_v972 (broadcastInDim S4096x27 ![] bcast_S_S4096x27),
   binary main_v972 main_v5 main_v973 mulf,
   unary main_v973 main_v974 Host.cos,
   binary main_v971 main_v974 main_v975 mulf,
   binary main_v953 main_v975 main_v976 mulf]

def refs : List (Ref sig .tc) :=
  [main_cst_349, main_v940, main_v941, main_cst_350, main_v942, main_v943, main_v944, main_cst_351, main_v945, main_v946, main_v947, main_v948, main_v949, main_cst_352, main_v950, main_cst_353, main_v951, main_v952, main_v953, main_v954, main_v955, main_cst_354, main_v956, main_v957, main_cst_355, main_call28_v0, main_call28_v1, main_v958, main_v959, main_cst_356, main_v960, main_cst_357, main_v961, main_v962, main_v963, main_cst_358, main_v964, main_v965, main_v966, main_cst_359, main_v967, main_v968, main_v969, main_cst_360, main_v970, main_v971, main_cst_361, main_v972, main_v973, main_v974, main_v975, main_v976]

theorem facts {F : FTy → Type} [FloatOps F] : Stretch (ops (F := F)) refs := by unfold ops refs; stretch_facts

theorem value (W : Valuation τ sig (Elt Ideal)) :
    after (ops (F := Ideal)) W (no_index (Proc.devRef .tc main_v976)) = fun q : S4096x27.Idx =>
      Cert.Basis.hw28 (W (Proc.devRef .tc main_v1) q) (W (Proc.devRef .tc main_v3) q) (W (Proc.devRef .tc main_v5) q) := by
  funext q; unfold ops Cert.Basis.hw28; pointwise_value

end Cert.ReferenceIdeal.Col28

end
-- ==== Proof.RefCol29.lean ====
import proofs.«118825_j71382356459674_1_alg».proof.Proof.RefChunk

noncomputable section

namespace Cert.ReferenceIdeal.Col29

open Cert.ReferenceIdeal Cert.ReferenceIdeal.Gen Idealize.ShloMosaic Idealize.ShloMosaic.TcCoe Idealize.SL.Sem Idealize.ShloMosaic.StableHlo Idealize.ShloMosaic.ValueIdx Cert.RefChunk

def ops {F : FTy → Type} [FloatOps F] : List (HloOp τ sig (Elt F)) :=
  [nullary main_cst_362 (constant S_ .f32 0x3F000000#32),
   unary main_cst_362 main_v977 (broadcastInDim S4096x27 ![] bcast_S_S4096x27),
   binary main_v977 main_v1 main_v978 mulf,
   nullary main_cst_363 (constant S_ .f32 0xBF000000#32),
   unary main_cst_363 main_v979 (broadcastInDim S4096x27 ![] bcast_S_S4096x27),
   binary main_v979 main_v978 main_v980 mulf,
   unary main_v980 main_v981 Host.exp,
   nullary main_cst_364 (constant S_ .f32 0x3AE6C891#32),
   unary main_cst_364 main_v982 (broadcastInDim S4096x27 ![] bcast_S_S4096x27),
   binary main_v982 main_v981 main_v983 mulf,
   binary main_v978 main_v978 main_v984 mulf,
   binary main_v984 main_v978 main_v985 mulf,
   binary main_v983 main_v985 main_v986 mulf,
   nullary main_cst_365 (constant S_ .f32 0x00000000#32),
   unary main_cst_365 main_v987 (broadcastInDim S4096x27 ![] bcast_S_S4096x27),
   nullary main_cst_366 (constant S_ .f32 0x3F800000#32),
   unary main_cst_366 main_v988 (broadcastInDim S4096x27 ![] bcast_S_S4096x27),
   binary main_v987 main_v988 main_v989 addf,
   binary main_v986 main_v989 main_v990 mulf,
   unary main_v3 main_v991 Host.cos,
   binary main_v991 main_v991 main_v992 mulf,
   nullary main_cst_367 (constant S_ .f32 0x3F800000#32),
   unary main_cst_367 main_v993 (broadcastInDim S4096x27 ![] bcast_S_S4096x27),
   binary main_v993 main_v992 main_v994 subf,
   nullary main_cst_368 (constant S_ .f32 0x00000000#32),
   TRef.unary (.of main_cst_368) main_call29.v0 id,
   TRef.unary main_call29.v0 main_call29.v1 (broadcastInDim S4096x27 ![] bcast_S_S4096x27),
   TRef.binary main_call29.v1 (.of main_v994) main_call29.v2 maximumf,
   unary main_v995 main_v996 Host.sqrt,
   nullary main_cst_369 (constant S_ .f32 0x3F800000#32),
   unary main_cst_369 main_v997 (broadcastInDim S4096x27 ![] bcast_S_S4096x27),
   nullary main_cst_370 (constant S_ .f32 0xBF800000#32),
   unary main_cst_370 main_v998 (broadcastInDim S4096x27 ![] bcast_S_S4096x27),
   binary main_v997 main_v998 main_v999 mulf,
   binary main_v999 main_v996 main_v1000 mulf,
   nullary main_cst_371 (constant S_ .f32 0xC0400000#32),
   unary main_cst_371 main_v1001 (broadcastInDim S4096x27 ![] bcast_S_S4096x27),
   binary main_v1000 main_v1001 main_v1002 mulf,
   binary main_v1002 main_v996 main_v1003 mulf,
   nullary main_cst_372 (constant S_ .f32 0xC0A00000#32),
   unary main_cst_372 main_v1004 (broadcastInDim S4096x27 ![] bcast_S_S4096x27),
   binary main_v1003 main_v1004 main_v1005 mulf,
   binary main_v1005 main_v996 main_v1006 mulf,
   nullary main_cst_373 (constant S_ .f32 0x3D211F09#32),
   unary main_cst_373 main_v1007 (broadcastInDim S4096x27 ![] bcast_S_S4096x27),
   binary main_v1007 main_v1006 main_v1008 mulf,
   nullary main_cst_374 (constant S_ .f32 0x40400000#32),
   unary main_cst_374 main_v1009 (broadcastInDim S4096x27 ![] bcast_S_S4096x27),
   binary main_v1009 main_v5 main_v1010 mulf,
   unary main_v1010 main_v1011 Host.cos,
   binary main_v1008 main_v1011 main_v1012 mulf,
   binary main_v990 main_v1012 main_v1013 mulf]

def refs : List (Ref sig .tc) :=
  [main_cst_362, main_v977, main_v978, main_cst_363, main_v979, main_v980, main_v981, main_cst_364, main_v982, main_v983, main_v984, main_v985, main_v986, main_cst_365, main_v987, main_cst_366, main_v988, main_v989, main_v990, main_v991, main_v992, main_cst_367, main_v993, main_v994, main_cst_368, main_call29_v0, main_call29_v1, main_v995, main_v996, main_cst_369, main_v997, main_cst_370, main_v998, main_v999, main_v1000, main_cst_371, main_v1001, main_v1002, main_v1003, main_cst_372, main_v1004, main_v1005, main_v1006, main_cst_373, main_v1007, main_v1008, main_cst_374, main_v1009, main_v1010, main_v1011, main_v1012, main_v1013]

theorem facts {F : FTy → Type} [FloatOps F] : Stretch (ops (F := F)) refs := by unfold ops refs; stretch_facts

theorem value (W : Valuation τ sig (Elt Ideal)) :
    after (ops (F := Ideal)) W (no_index (Proc.devRef .tc main_v1013)) = fun q : S4096x27.Idx =>
      Cert.Basis.hw29 (W (Proc.devRef .tc main_v1) q) (W (Proc.devRef .tc main_v3) q) (W (Proc.devRef .tc main_v5) q) := by
  funext q; unfold ops Cert.Basis.hw29; pointwise_value

end Cert.ReferenceIdeal.Col29

end
-- ==== Proof.RefWindows.lean ====
import proofs.«118825_j71382356459674_1_alg».proof.Proof.RefHeadOps
import proofs.«118825_j71382356459674_1_alg».proof.Proof.RefCol0
import proofs.«118825_j71382356459674_1_alg».proof.Proof.RefCol1
import proofs.«118825_j71382356459674_1_alg».proof.Proof.RefCol2
import proofs.«118825_j71382356459674_1_alg».proof.Proof.RefCol3
import proofs.«118825_j71382356459674_1_alg».proof.Proof.RefCol4
import proofs.«118825_j71382356459674_1_alg».proof.Proof.RefCol5
import proofs.«118825_j71382356459674_1_alg».proof.Proof.RefCol6
import proofs.«118825_j71382356459674_1_alg».proof.Proof.RefCol7
import proofs.«118825_j71382356459674_1_alg».proof.Proof.RefCol8
import proofs.«118825_j71382356459674_1_alg».proof.Proof.RefCol9
import proofs.«118825_j71382356459674_1_alg».proof.Proof.RefCol10
import proofs.«118825_j71382356459674_1_alg».proof.Proof.RefCol11
import proofs.«118825_j71382356459674_1_alg».proof.Proof.RefCol12
import proofs.«118825_j71382356459674_1_alg».proof.Proof.RefCol13
import proofs.«118825_j71382356459674_1_alg».proof.Proof.RefCol14
import proofs.«118825_j71382356459674_1_alg».proof.Proof.RefCol15
import proofs.«118825_j71382356459674_1_alg».proof.Proof.RefCol16
import proofs.«118825_j71382356459674_1_alg».proof.Proof.RefCol17
import proofs.«118825_j71382356459674_1_alg».proof.Proof.RefCol18
import proofs.«118825_j71382356459674_1_alg».proof.Proof.RefCol19
import proofs.«118825_j71382356459674_1_alg».proof.Proof.RefCol20
import proofs.«118825_j71382356459674_1_alg».proof.Proof.RefCol21
import proofs.«118825_j71382356459674_1_alg».proof.Proof.RefCol22
import proofs.«118825_j71382356459674_1_alg».proof.Proof.RefCol23
import proofs.«118825_j71382356459674_1_alg».proof.Proof.RefCol24
import proofs.«118825_j71382356459674_1_alg».proof.Proof.RefCol25
import proofs.«118825_j71382356459674_1_alg».proof.Proof.RefCol26
import proofs.«118825_j71382356459674_1_alg».proof.Proof.RefCol27
import proofs.«118825_j71382356459674_1_alg».proof.Proof.RefCol28
import proofs.«118825_j71382356459674_1_alg».proof.Proof.RefCol29
import proofs.«118825_j71382356459674_1_alg».proof.Proof.RefTailOps

set_option maxRecDepth 8192
set_option maxHeartbeats 1000000

noncomputable section

namespace Cert.ReferenceIdeal.Windows

open Cert.ReferenceIdeal Cert.ReferenceIdeal.Gen Idealize.ShloMosaic Idealize.ShloMosaic.TcCoe Idealize.SL.Sem Idealize.ShloMosaic.StableHlo

theorem window0 {F : FTy → Type} [FloatOps F] (c : Dev nD) : main_part0 (F := F) c = seq (Head.ops ++ Col0.ops ++ (Col1.ops).take 21) := rfl

theorem window1 {F : FTy → Type} [FloatOps F] (c : Dev nD) : main_part1 (F := F) c = seq ((Col1.ops).drop 21 ++ Col2.ops ++ (Col3.ops).take 4) := rfl

theorem window2 {F : FTy → Type} [FloatOps F] (c : Dev nD) : main_part2 (F := F) c = seq ((Col3.ops).drop 4 ++ (Col4.ops).take 31) := rfl

theorem window3 {F : FTy → Type} [FloatOps F] (c : Dev nD) : main_part3 (F := F) c = seq ((Col4.ops).drop 31 ++ Col5.ops ++ (Col6.ops).take 8) := rfl

theorem window4 {F : FTy → Type} [FloatOps F] (c : Dev nD) : main_part4 (F := F) c = seq ((Col6.ops).drop 8 ++ (Col7.ops).take 24) := rfl

theorem window5 {F : FTy → Type} [FloatOps F] (c : Dev nD) : main_part5 (F := F) c = seq ((Col7.ops).drop 24 ++ Col8.ops ++ (Col9.ops).take 1) := rfl

theorem window6 {F : FTy → Type} [FloatOps F] (c : Dev nD) : main_part6 (F := F) c = seq ((Col9.ops).drop 1 ++ (Col10.ops).take 16) := rfl

theorem window7 {F : FTy → Type} [FloatOps F] (c : Dev nD) : main_part7 (F := F) c = seq ((Col10.ops).drop 16 ++ (Col11.ops).take 33) := rfl

theorem window8 {F : FTy → Type} [FloatOps F] (c : Dev nD) : main_part8 (F := F) c = seq ((Col11.ops).drop 33 ++ (Col12.ops).take 46) := rfl

theorem window9 {F : FTy → Type} [FloatOps F] (c : Dev nD) : main_part9 (F := F) c = seq ((Col12.ops).drop 46 ++ Col13.ops ++ (Col14.ops).take 14) := rfl

theorem window10 {F : FTy → Type} [FloatOps F] (c : Dev nD) : main_part10 (F := F) c = seq ((Col14.ops).drop 14 ++ (Col15.ops).take 29) := rfl

theorem window11 {F : FTy → Type} [FloatOps F] (c : Dev nD) : main_part11 (F := F) c = seq ((Col15.ops).drop 29 ++ (Col16.ops).take 43) := rfl

theorem window12 {F : FTy → Type} [FloatOps F] (c : Dev nD) : main_part12 (F := F) c = seq ((Col16.ops).drop 43 ++ Col17.ops ++ (Col18.ops).take 10) := rfl

theorem window13 {F : FTy → Type} [FloatOps F] (c : Dev nD) : main_part13 (F := F) c = seq ((Col18.ops).drop 10 ++ (Col19.ops).take 21) := rfl

theorem window14 {F : FTy → Type} [FloatOps F] (c : Dev nD) : main_part14 (F := F) c = seq ((Col19.ops).drop 21 ++ (Col20.ops).take 34) := rfl

theorem window15 {F : FTy → Type} [FloatOps F] (c : Dev nD) : main_part15 (F := F) c = seq ((Col20.ops).drop 34 ++ (Col21.ops).take 43) := rfl

theorem window16 {F : FTy → Type} [FloatOps F] (c : Dev nD) : main_part16 (F := F) c = seq ((Col21.ops).drop 43 ++ Col22.ops ++ (Col23.ops).take 3) := rfl

theorem window17 {F : FTy → Type} [FloatOps F] (c : Dev nD) : main_part17 (F := F) c = seq ((Col23.ops).drop 3 ++ (Col24.ops).take 13) := rfl

theorem window18 {F : FTy → Type} [FloatOps F] (c : Dev nD) : main_part18 (F := F) c = seq ((Col24.ops).drop 13 ++ (Col25.ops).take 23) := rfl

theorem window19 {F : FTy → Type} [FloatOps F] (c : Dev nD) : main_part19 (F := F) c = seq ((Col25.ops).drop 23 ++ (Col26.ops).take 28) := rfl

theorem window20 {F : FTy → Type} [FloatOps F] (c : Dev nD) : main_part20 (F := F) c = seq ((Col26.ops).drop 28 ++ (Col27.ops).take 29) := rfl

theorem window21 {F : FTy → Type} [FloatOps F] (c : Dev nD) : main_part21 (F := F) c = seq ((Col27.ops).drop 29 ++ (Col28.ops).take 32) := rfl

theorem window22 {F : FTy → Type} [FloatOps F] (c : Dev nD) : main_part22 (F := F) c = seq ((Col28.ops).drop 32 ++ (Col29.ops).take 42) := rfl

theorem window23 {F : FTy → Type} [FloatOps F] (c : Dev nD) : main_part23 (F := F) c = seq ((Col29.ops).drop 42 ++ Tail.ops) := rfl

end Cert.ReferenceIdeal.Windows

end
-- ==== Proof.RefRun.lean ====
import proofs.«118825_j71382356459674_1_alg».proof.Proof.RefHead
import proofs.«118825_j71382356459674_1_alg».proof.Proof.RefTailValue
import proofs.«118825_j71382356459674_1_alg».proof.Proof.RefWindows
import proofs.«118825_j71382356459674_1_alg».proof.Proof.Spec
import Idealize.ShloMosaic.Lib.Pipeline.Frame

noncomputable section

open scoped BigOperators

namespace Cert.ReferenceIdeal.HandValue

open Cert.ReferenceIdeal Cert.ReferenceIdeal.Gen Idealize.ShloMosaic Idealize.ShloMosaic.TcCoe Idealize.SL.Sem Idealize.ShloMosaic.StableHlo Idealize.ShloMosaic.ValueIdx Cert.RefChunk

attribute [local irreducible] Head.ops Col0.ops Col1.ops Col2.ops Col3.ops Col4.ops Col5.ops Col6.ops Col7.ops Col8.ops Col9.ops Col10.ops Col11.ops Col12.ops Col13.ops Col14.ops Col15.ops Col16.ops Col17.ops Col18.ops Col19.ops Col20.ops Col21.ops Col22.ops Col23.ops Col24.ops Col25.ops Col26.ops Col27.ops Col28.ops Col29.ops Tail.ops

/-- The reference's operations: the head, the thirty stretches, the tail. -/
def allOps {F : FTy → Type} [FloatOps F] : List (HloOp τ sig (Elt F)) :=
  Head.ops ++ Col0.ops ++ Col1.ops ++ Col2.ops ++ Col3.ops ++ Col4.ops ++ Col5.ops ++ Col6.ops ++ Col7.ops ++ Col8.ops ++ Col9.ops ++ Col10.ops ++ Col11.ops ++ Col12.ops ++ Col13.ops ++ Col14.ops ++ Col15.ops ++ Col16.ops ++ Col17.ops ++ Col18.ops ++ Col19.ops ++ Col20.ops ++ Col21.ops ++ Col22.ops ++ Col23.ops ++ Col24.ops ++ Col25.ops ++ Col26.ops ++ Col27.ops ++ Col28.ops ++ Col29.ops ++ Tail.ops

theorem allOps_def {F : FTy → Type} [FloatOps F] : (allOps : List (HloOp τ sig (Elt F))) =
  Head.ops ++ Col0.ops ++ Col1.ops ++ Col2.ops ++ Col3.ops ++ Col4.ops ++ Col5.ops ++ Col6.ops ++ Col7.ops ++ Col8.ops ++ Col9.ops ++ Col10.ops ++ Col11.ops ++ Col12.ops ++ Col13.ops ++ Col14.ops ++ Col15.ops ++ Col16.ops ++ Col17.ops ++ Col18.ops ++ Col19.ops ++ Col20.ops ++ Col21.ops ++ Col22.ops ++ Col23.ops ++ Col24.ops ++ Col25.ops ++ Col26.ops ++ Col27.ops ++ Col28.ops ++ Col29.ops ++ Tail.ops := rfl

attribute [irreducible] allOps

theorem take_drop_append {α : Type} (n : Nat) (l r : List α) : l.take n ++ (l.drop n ++ r) = l ++ r := by
  rw [← List.append_assoc, List.take_append_drop]

set_option maxHeartbeats 2000000 in

/-- @main runs its printed windows in order, each the run of the stretches and parts of stretches in it; a stretch's first
    part followed by its rest is the stretch. -/
theorem main_eq {F : FTy → Type} [FloatOps F] (c : Dev nD) : main (F := F) c = seq allOps := by
  unfold main
  simp only [Windows.window0, Windows.window1, Windows.window2, Windows.window3, Windows.window4, Windows.window5, Windows.window6, Windows.window7, Windows.window8, Windows.window9, Windows.window10, Windows.window11, Windows.window12, Windows.window13, Windows.window14, Windows.window15, Windows.window16, Windows.window17, Windows.window18, Windows.window19, Windows.window20, Windows.window21, Windows.window22, Windows.window23]
  simp only [← seq_append]
  refine congrArg seq ?_
  rw [allOps_def]
  simp only [List.append_assoc, take_drop_append, List.take_append_drop]

theorem scopedRefs_eq : (Finset.univ.filter fun b : Ref sig .tc => b.isScoped) = ∅ := by decide
theorem scopedSems_eq : (Finset.univ.filter fun sm : SemLoc sig => sm.isScoped .tc) = ∅ := by decide

theorem allFacts : ∃ R, Stretch (allOps (F := Ideal)) R := by
  rw [allOps_def]
  exact ⟨_, (((((((((((((((((((((((((((((((Head.facts.append Col0.facts).append Col1.facts).append Col2.facts).append Col3.facts).append Col4.facts).append Col5.facts).append Col6.facts).append Col7.facts).append Col8.facts).append Col9.facts).append Col10.facts).append Col11.facts).append Col12.facts).append Col13.facts).append Col14.facts).append Col15.facts).append Col16.facts).append Col17.facts).append Col18.facts).append Col19.facts).append Col20.facts).append Col21.facts).append Col22.facts).append Col23.facts).append Col24.facts).append Col25.facts).append Col26.facts).append Col27.facts).append Col28.facts).append Col29.facts).append Tail.facts)⟩

set_option maxHeartbeats 4000000 in
theorem run_all (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = after (allOps (F := Ideal)) (launchContents m d) (Proc.devRef .tc b) :=
  let ⟨_, h⟩ := allFacts
  run_seq scopedRefs_eq scopedSems_eq defs main (fun _ => allOps) main_eq (fun _ => h.sub) m ρ (fun _ => h.fresh)

set_option maxHeartbeats 8000000 in

/-- No stretch writes an argument. Basis array b is what stretch b left (no later stretch writes it) from the coordinate
    arrays as the head left them (no earlier stretch writes them), so the tail's sum is the common function. -/
theorem after_all (V : Valuation τ sig (Elt Ideal)) :
    after (allOps (F := Ideal)) V (Proc.devRef .tc main_arg0) = V (Proc.devRef .tc main_arg0)
    ∧ after (allOps (F := Ideal)) V (Proc.devRef .tc main_arg1) = V (Proc.devRef .tc main_arg1)
    ∧ ∀ (o i : Fin 16) (x : Fin 4096) (n : Fin 27), after (allOps (F := Ideal)) V (Proc.devRef .tc main_v1047) (ix4 o i x n)
        = Cert.Spec.outAt (V (Proc.devRef .tc main_arg0)) (V (Proc.devRef .tc main_arg1)) o i x n := by
  rw [allOps_def]
  unfold Cert.Spec.outAt
  simp only [StableHlo.after_append]
  refine ⟨?_, ?_, fun o i x n => ?_⟩
  iterate 2 simp (disch := decide) only [(Tail.facts (F := Ideal)).keep, (Col29.facts (F := Ideal)).keep, (Col28.facts (F := Ideal)).keep, (Col27.facts (F := Ideal)).keep, (Col26.facts (F := Ideal)).keep, (Col25.facts (F := Ideal)).keep, (Col24.facts (F := Ideal)).keep, (Col23.facts (F := Ideal)).keep, (Col22.facts (F := Ideal)).keep, (Col21.facts (F := Ideal)).keep, (Col20.facts (F := Ideal)).keep, (Col19.facts (F := Ideal)).keep, (Col18.facts (F := Ideal)).keep, (Col17.facts (F := Ideal)).keep, (Col16.facts (F := Ideal)).keep, (Col15.facts (F := Ideal)).keep, (Col14.facts (F := Ideal)).keep, (Col13.facts (F := Ideal)).keep, (Col12.facts (F := Ideal)).keep, (Col11.facts (F := Ideal)).keep, (Col10.facts (F := Ideal)).keep, (Col9.facts (F := Ideal)).keep, (Col8.facts (F := Ideal)).keep, (Col7.facts (F := Ideal)).keep, (Col6.facts (F := Ideal)).keep, (Col5.facts (F := Ideal)).keep, (Col4.facts (F := Ideal)).keep, (Col3.facts (F := Ideal)).keep, (Col2.facts (F := Ideal)).keep, (Col1.facts (F := Ideal)).keep, (Col0.facts (F := Ideal)).keep, (Head.facts (F := Ideal)).keep]
  rw [Tail.value_apply]
  show (_ : EReal) = _
  refine Finset.sum_congr rfl fun b _ => ?_
  fin_cases b <;>
    simp (disch := decide) only [Tail.coef, Tail.colVal, (Tail.facts (F := Ideal)).keep, (Col29.facts (F := Ideal)).keep, (Col28.facts (F := Ideal)).keep, (Col27.facts (F := Ideal)).keep, (Col26.facts (F := Ideal)).keep, (Col25.facts (F := Ideal)).keep, (Col24.facts (F := Ideal)).keep, (Col23.facts (F := Ideal)).keep, (Col22.facts (F := Ideal)).keep, (Col21.facts (F := Ideal)).keep, (Col20.facts (F := Ideal)).keep, (Col19.facts (F := Ideal)).keep, (Col18.facts (F := Ideal)).keep, (Col17.facts (F := Ideal)).keep, (Col16.facts (F := Ideal)).keep, (Col15.facts (F := Ideal)).keep, (Col14.facts (F := Ideal)).keep, (Col13.facts (F := Ideal)).keep, (Col12.facts (F := Ideal)).keep, (Col11.facts (F := Ideal)).keep, (Col10.facts (F := Ideal)).keep, (Col9.facts (F := Ideal)).keep, (Col8.facts (F := Ideal)).keep, (Col7.facts (F := Ideal)).keep, (Col6.facts (F := Ideal)).keep, (Col5.facts (F := Ideal)).keep, (Col4.facts (F := Ideal)).keep, (Col3.facts (F := Ideal)).keep, (Col2.facts (F := Ideal)).keep, (Col1.facts (F := Ideal)).keep, (Col0.facts (F := Ideal)).keep, (Head.facts (F := Ideal)).keep,
      Col0.value, Col1.value, Col2.value, Col3.value, Col4.value, Col5.value, Col6.value, Col7.value, Col8.value, Col9.value, Col10.value, Col11.value, Col12.value, Col13.value, Col14.value, Col15.value, Col16.value, Col17.value, Col18.value, Col19.value, Col20.value, Col21.value, Col22.value, Col23.value, Col24.value, Col25.value, Col26.value, Col27.value, Col28.value, Col29.value, Head.radius, Head.polar, Head.azimuth, Cert.Basis.hw]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1047)
          = Cert.Spec.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    have ⟨h0, h1, hv⟩ := after_all (launchContents m c)
    ⟨(h c main_v1047).trans (funext fun q => by
        obtain ⟨o, i, x, n, rfl⟩ : ∃ (o i : Fin 16) (x : Fin 4096) (n : Fin 27), q = ix4 o i x n :=
          ⟨q 0, q 1, q 2, q 3, eq_ix4 q⟩
        exact hv o i x n),
      (h c main_arg0).trans h0, (h c main_arg1).trans h1⟩) (run_all m ρ)

end Cert.ReferenceIdeal.HandValue

end
-- ==== Proof.lean ====
/-
  Both programs compute result (o, i, x, n) = Σ_b coeffs (o, i, b) · ψ_b (position (x, n, ·)) over the thirty real hydrogen
  wavefunctions ψ_b with n ≤ 4: the kernel as one matrix product per block of 4608 flattened points, the reference on whole
  arrays. On every extended-real input the two agree: per ψ_b they spell one expression over the same constants, up to
  factors 1.0 and summands 0.0, and a finite sum does not depend on how it is grouped. No finiteness is used.
-/
import proofs.«118825_j71382356459674_1_alg».proof.Defs
import proofs.«118825_j71382356459674_1_alg».proof.Proof.Gen.Kernel
import proofs.«118825_j71382356459674_1_alg».proof.Proof.Gen.Kernel.Skeleton
import proofs.«118825_j71382356459674_1_alg».proof.Proof.Gen.Kernel.Launch
import proofs.«118825_j71382356459674_1_alg».proof.Proof.Gen.Kernel.Points
import proofs.«118825_j71382356459674_1_alg».proof.Proof.FrameKernel
import proofs.«118825_j71382356459674_1_alg».proof.Proof.Gen.KernelIdeal
import proofs.«118825_j71382356459674_1_alg».proof.Proof.Gen.KernelIdeal.Skeleton
import proofs.«118825_j71382356459674_1_alg».proof.Proof.Gen.KernelIdeal.Launch
import proofs.«118825_j71382356459674_1_alg».proof.Proof.Gen.KernelIdeal.Points
import proofs.«118825_j71382356459674_1_alg».proof.Proof.FrameKernelIdeal
import proofs.«118825_j71382356459674_1_alg».proof.Proof.Gen.ReferenceIdeal
import proofs.«118825_j71382356459674_1_alg».proof.Proof.Gen.Pre_finite_inputs
import proofs.«118825_j71382356459674_1_alg».proof.Proof.KernelValue
import proofs.«118825_j71382356459674_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HandValue.run m ρ)

/-- From memories that agree on the two arguments, both runs end at the same function of them. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.HandValue.run m ρ, ?_⟩
  refine (θ_run Cert.ReferenceIdeal.defs _ _).mono (fun _ h c => ⟨(h c).1.trans ?_, (h c).2⟩)
    (Cert.ReferenceIdeal.HandValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
